-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64x64 : Shape := ⟨4, ![16, 128, 64, 64]⟩
abbrev S256x128x1x1 : Shape := ⟨4, ![256, 128, 1, 1]⟩
abbrev S256 : Shape := ⟨1, ![256]⟩
abbrev S256x256x3x3 : Shape := ⟨4, ![256, 256, 3, 3]⟩
abbrev S240x256x1x1 : Shape := ⟨4, ![240, 256, 1, 1]⟩
abbrev S240 : Shape := ⟨1, ![240]⟩
abbrev S12x256x1x1 : Shape := ⟨4, ![12, 256, 1, 1]⟩
abbrev S12 : Shape := ⟨1, ![12]⟩
abbrev S3x256x1x1 : Shape := ⟨4, ![3, 256, 1, 1]⟩
abbrev S3 : Shape := ⟨1, ![3]⟩
abbrev S_ : Shape := ⟨0, ![]⟩

class Facts : Prop where
  bcast_S_S16x128x64x64 : S_.BroadcastsInDim S16x128x64x64 (![] : Fin 0 → Fin S16x128x64x64.rank)
  reducesTo_S16x128x64x64_S_d0_1_2_3 : S16x128x64x64.ReducesTo [0, 1, 2, 3] S_
  h_S_ : 0 < S_.numel
  bcast_S_S256x128x1x1 : S_.BroadcastsInDim S256x128x1x1 (![] : Fin 0 → Fin S256x128x1x1.rank)
  reducesTo_S256x128x1x1_S_d0_1_2_3 : S256x128x1x1.ReducesTo [0, 1, 2, 3] S_
  bcast_S_S256 : S_.BroadcastsInDim S256 (![] : Fin 0 → Fin S256.rank)
  reducesTo_S256_S_d0 : S256.ReducesTo [0] S_
  bcast_S_S256x256x3x3 : S_.BroadcastsInDim S256x256x3x3 (![] : Fin 0 → Fin S256x256x3x3.rank)
  reducesTo_S256x256x3x3_S_d0_1_2_3 : S256x256x3x3.ReducesTo [0, 1, 2, 3] S_
  bcast_S_S240x256x1x1 : S_.BroadcastsInDim S240x256x1x1 (![] : Fin 0 → Fin S240x256x1x1.rank)
  reducesTo_S240x256x1x1_S_d0_1_2_3 : S240x256x1x1.ReducesTo [0, 1, 2, 3] S_
  bcast_S_S240 : S_.BroadcastsInDim S240 (![] : Fin 0 → Fin S240.rank)
  reducesTo_S240_S_d0 : S240.ReducesTo [0] S_
  bcast_S_S12x256x1x1 : S_.BroadcastsInDim S12x256x1x1 (![] : Fin 0 → Fin S12x256x1x1.rank)
  reducesTo_S12x256x1x1_S_d0_1_2_3 : S12x256x1x1.ReducesTo [0, 1, 2, 3] S_
  bcast_S_S12 : S_.BroadcastsInDim S12 (![] : Fin 0 → Fin S12.rank)
  reducesTo_S12_S_d0 : S12.ReducesTo [0] S_
  bcast_S_S3x256x1x1 : S_.BroadcastsInDim S3x256x1x1 (![] : Fin 0 → Fin S3x256x1x1.rank)
  reducesTo_S3x256x1x1_S_d0_1_2_3 : S3x256x1x1.ReducesTo [0, 1, 2, 3] S_
  bcast_S_S3 : S_.BroadcastsInDim S3 (![] : Fin 0 → Fin S3.rank)
  reducesTo_S3_S_d0 : S3.ReducesTo [0] S_

variable [Facts]

def fn_part9 {F : FTy → Type} [FloatOps F] (main_arg31 : FVec F S3 .f32) (main_v153 : IVec S_ 1) : IVec S_ 1 :=
  let main_v154 : FVec F S3 .f32 := Host.absf main_arg31
  let main_cst_60 : FVec F S_ .f32 := constant S_ .f32 0x7F800000#32
  let main_v155 : FVec F S3 .f32 := broadcastInDim S3 ![] bcast_S_S3 main_cst_60
  let main_v156 : IVec S3 1 := cmpf .olt main_v154 main_v155
  let main_c_61 : IVec S_ 1 := constantI S_ 1 1#1
  let main_v157 : IVec S_ 1 := (fun x v => Host.reduce IntOp.andi x v reducesTo_S3_S_d0 h_S_) main_v156 main_c_61
  let main_v158 : IVec S_ 1 := andi main_v153 main_v157
  main_v158

def fn_part8 {F : FTy → Type} [FloatOps F] (main_arg28 : FVec F S12x256x1x1 .f32) (main_arg29 : FVec F S12 .f32) (main_arg30 : FVec F S3x256x1x1 .f32) (main_arg31 : FVec F S3 .f32) (main_v133 : IVec S_ 1) (main_v136 : IVec S240 1) : IVec S_ 1 :=
  let main_c_53 : IVec S_ 1 := constantI S_ 1 1#1
  let main_v137 : IVec S_ 1 := (fun x v => Host.reduce IntOp.andi x v reducesTo_S240_S_d0 h_S_) main_v136 main_c_53
  let main_v138 : IVec S_ 1 := andi main_v133 main_v137
  let main_v139 : FVec F S12x256x1x1 .f32 := Host.absf main_arg28
  let main_cst_54 : FVec F S_ .f32 := constant S_ .f32 0x7F800000#32
  let main_v140 : FVec F S12x256x1x1 .f32 := broadcastInDim S12x256x1x1 ![] bcast_S_S12x256x1x1 main_cst_54
  let main_v141 : IVec S12x256x1x1 1 := cmpf .olt main_v139 main_v140
  let main_c_55 : IVec S_ 1 := constantI S_ 1 1#1
  let main_v142 : IVec S_ 1 := (fun x v => Host.reduce IntOp.andi x v reducesTo_S12x256x1x1_S_d0_1_2_3 h_S_) main_v141 main_c_55
  let main_v143 : IVec S_ 1 := andi main_v138 main_v142
  let main_v144 : FVec F S12 .f32 := Host.absf main_arg29
  let main_cst_56 : FVec F S_ .f32 := constant S_ .f32 0x7F800000#32
  let main_v145 : FVec F S12 .f32 := broadcastInDim S12 ![] bcast_S_S12 main_cst_56
  let main_v146 : IVec S12 1 := cmpf .olt main_v144 main_v145
  let main_c_57 : IVec S_ 1 := constantI S_ 1 1#1
  let main_v147 : IVec S_ 1 := (fun x v => Host.reduce IntOp.andi x v reducesTo_S12_S_d0 h_S_) main_v146 main_c_57
  let main_v148 : IVec S_ 1 := andi main_v143 main_v147
  let main_v149 : FVec F S3x256x1x1 .f32 := Host.absf main_arg30
  let main_cst_58 : FVec F S_ .f32 := constant S_ .f32 0x7F800000#32
  let main_v150 : FVec F S3x256x1x1 .f32 := broadcastInDim S3x256x1x1 ![] bcast_S_S3x256x1x1 main_cst_58
  let main_v151 : IVec S3x256x1x1 1 := cmpf .olt main_v149 main_v150
  let main_c_59 : IVec S_ 1 := constantI S_ 1 1#1
  let main_v152 : IVec S_ 1 := (fun x v => Host.reduce IntOp.andi x v reducesTo_S3x256x1x1_S_d0_1_2_3 h_S_) main_v151 main_c_59
  let main_v153 : IVec S_ 1 := andi main_v148 main_v152
  fn_part9 (F := F) main_arg31 main_v153

def fn_part7 {F : FTy → Type} [FloatOps F] (main_arg25 : FVec F S256 .f32) (main_arg26 : FVec F S240x256x1x1 .f32) (main_arg27 : FVec F S240 .f32) (main_arg28 : FVec F S12x256x1x1 .f32) (main_arg29 : FVec F S12 .f32) (main_arg30 : FVec F S3x256x1x1 .f32) (main_arg31 : FVec F S3 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256 .f32 := Host.absf main_arg25
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S240x256x1x1 .f32 := Host.absf main_arg26
  let main_cst_50 : FVec F S_ .f32 := constant S_ .f32 0x7F800000#32
  let main_v130 : FVec F S240x256x1x1 .f32 := broadcastInDim S240x256x1x1 ![] bcast_S_S240x256x1x1 main_cst_50
  let main_v131 : IVec S240x256x1x1 1 := cmpf .olt main_v129 main_v130
  let main_c_51 : IVec S_ 1 := constantI S_ 1 1#1
  let main_v132 : IVec S_ 1 := (fun x v => Host.reduce IntOp.andi x v reducesTo_S240x256x1x1_S_d0_1_2_3 h_S_) main_v131 main_c_51
  let main_v133 : IVec S_ 1 := andi main_v128 main_v132
  let main_v134 : FVec F S240 .f32 := Host.absf main_arg27
  let main_cst_52 : FVec F S_ .f32 := constant S_ .f32 0x7F800000#32
  let main_v135 : FVec F S240 .f32 := broadcastInDim S240 ![] bcast_S_S240 main_cst_52
  let main_v136 : IVec S240 1 := cmpf .olt main_v134 main_v135
  fn_part8 (F := F) main_arg28 main_arg29 main_arg30 main_arg31 main_v133 main_v136

def fn_part6 {F : FTy → Type} [FloatOps F] (main_arg21 : FVec F S256x256x3x3 .f32) (main_arg22 : FVec F S256 .f32) (main_arg23 : FVec F S256 .f32) (main_arg24 : FVec F S256 .f32) (main_arg25 : FVec F S256 .f32) (main_arg26 : FVec F S240x256x1x1 .f32) (main_arg27 : FVec F S240 .f32) (main_arg28 : FVec F S12x256x1x1 .f32) (main_arg29 : FVec F S12 .f32) (main_arg30 : FVec F S3x256x1x1 .f32) (main_arg31 : FVec F S3 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x256x3x3 .f32 := Host.absf main_arg21
  let main_cst_40 : FVec F S_ .f32 := constant S_ .f32 0x7F800000#32
  let main_v105 : FVec F S256x256x3x3 .f32 := broadcastInDim S256x256x3x3 ![] bcast_S_S256x256x3x3 main_cst_40
  let main_v106 : IVec S256x256x3x3 1 := cmpf .olt main_v104 main_v105
  let main_c_41 : IVec S_ 1 := constantI S_ 1 1#1
  let main_v107 : IVec S_ 1 := (fun x v => Host.reduce IntOp.andi x v reducesTo_S256x256x3x3_S_d0_1_2_3 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg24
  fn_part7 (F := F) main_arg25 main_arg26 main_arg27 main_arg28 main_arg29 main_arg30 main_arg31 main_v118 main_v119

def fn_part5 {F : FTy → Type} [FloatOps F] (main_arg18 : FVec F S256 .f32) (main_arg19 : FVec F S256 .f32) (main_arg20 : FVec F S256 .f32) (main_arg21 : FVec F S256x256x3x3 .f32) (main_arg22 : FVec F S256 .f32) (main_arg23 : FVec F S256 .f32) (main_arg24 : FVec F S256 .f32) (main_arg25 : FVec F S256 .f32) (main_arg26 : FVec F S240x256x1x1 .f32) (main_arg27 : FVec F S240 .f32) (main_arg28 : FVec F S12x256x1x1 .f32) (main_arg29 : FVec F S12 .f32) (main_arg30 : FVec F S3x256x1x1 .f32) (main_arg31 : FVec F S3 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_v98 main_v101 main_c_39

def fn_part4 {F : FTy → Type} [FloatOps F] (main_arg14 : FVec F S256 .f32) (main_arg15 : FVec F S256 .f32) (main_arg16 : FVec F S256x256x3x3 .f32) (main_arg17 : FVec F S256 .f32) (main_arg18 : FVec F S256 .f32) (main_arg19 : FVec F S256 .f32) (main_arg20 : FVec F S256 .f32) (main_arg21 : FVec F S256x256x3x3 .f32) (main_arg22 : FVec F S256 .f32) (main_arg23 : FVec F S256 .f32) (main_arg24 : FVec F S256 .f32) (main_arg25 : FVec F S256 .f32) (main_arg26 : FVec F S240x256x1x1 .f32) (main_arg27 : FVec F S240 .f32) (main_arg28 : FVec F S12x256x1x1 .f32) (main_arg29 : FVec F S12 .f32) (main_arg30 : FVec F S3x256x1x1 .f32) (main_arg31 : FVec F S3 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256x3x3 .f32 := Host.absf main_arg16
  let main_cst_30 : FVec F S_ .f32 := constant S_ .f32 0x7F800000#32
  let main_v80 : FVec F S256x256x3x3 .f32 := broadcastInDim S256x256x3x3 ![] bcast_S_S256x256x3x3 main_cst_30
  let main_v81 : IVec S256x256x3x3 1 := cmpf .olt main_v79 main_v80
  let main_c_31 : IVec S_ 1 := constantI S_ 1 1#1
  let main_v82 : IVec S_ 1 := (fun x v => Host.reduce IntOp.andi x v reducesTo_S256x256x3x3_S_d0_1_2_3 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_v83 main_v84 main_cst_32

def fn_part3 {F : FTy → Type} [FloatOps F] (main_arg11 : FVec F S256x256x3x3 .f32) (main_arg12 : FVec F S256 .f32) (main_arg13 : FVec F S256 .f32) (main_arg14 : FVec F S256 .f32) (main_arg15 : FVec F S256 .f32) (main_arg16 : FVec F S256x256x3x3 .f32) (main_arg17 : FVec F S256 .f32) (main_arg18 : FVec F S256 .f32) (main_arg19 : FVec F S256 .f32) (main_arg20 : FVec F S256 .f32) (main_arg21 : FVec F S256x256x3x3 .f32) (main_arg22 : FVec F S256 .f32) (main_arg23 : FVec F S256 .f32) (main_arg24 : FVec F S256 .f32) (main_arg25 : FVec F S256 .f32) (main_arg26 : FVec F S240x256x1x1 .f32) (main_arg27 : FVec F S240 .f32) (main_arg28 : FVec F S12x256x1x1 .f32) (main_arg29 : FVec F S12 .f32) (main_arg30 : FVec F S3x256x1x1 .f32) (main_arg31 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256x3x3 .f32 := Host.absf main_arg11
  let main_cst_20 : FVec F S_ .f32 := constant S_ .f32 0x7F800000#32
  let main_v55 : FVec F S256x256x3x3 .f32 := broadcastInDim S256x256x3x3 ![] bcast_S_S256x256x3x3 main_cst_20
  let main_v56 : IVec S256x256x3x3 1 := cmpf .olt main_v54 main_v55
  let main_c_21 : IVec S_ 1 := constantI S_ 1 1#1
  let main_v57 : IVec S_ 1 := (fun x v => Host.reduce IntOp.andi x v reducesTo_S256x256x3x3_S_d0_1_2_3 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg7 : FVec F S256 .f32) (main_arg8 : FVec F S256 .f32) (main_arg9 : FVec F S256 .f32) (main_arg10 : FVec F S256 .f32) (main_arg11 : FVec F S256x256x3x3 .f32) (main_arg12 : FVec F S256 .f32) (main_arg13 : FVec F S256 .f32) (main_arg14 : FVec F S256 .f32) (main_arg15 : FVec F S256 .f32) (main_arg16 : FVec F S256x256x3x3 .f32) (main_arg17 : FVec F S256 .f32) (main_arg18 : FVec F S256 .f32) (main_arg19 : FVec F S256 .f32) (main_arg20 : FVec F S256 .f32) (main_arg21 : FVec F S256x256x3x3 .f32) (main_arg22 : FVec F S256 .f32) (main_arg23 : FVec F S256 .f32) (main_arg24 : FVec F S256 .f32) (main_arg25 : FVec F S256 .f32) (main_arg26 : FVec F S240x256x1x1 .f32) (main_arg27 : FVec F S240 .f32) (main_arg28 : FVec F S12x256x1x1 .f32) (main_arg29 : FVec F S12 .f32) (main_arg30 : FVec F S3x256x1x1 .f32) (main_arg31 : FVec F S3 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg4 : FVec F S256 .f32) (main_arg5 : FVec F S256 .f32) (main_arg6 : FVec F S256x256x3x3 .f32) (main_arg7 : FVec F S256 .f32) (main_arg8 : FVec F S256 .f32) (main_arg9 : FVec F S256 .f32) (main_arg10 : FVec F S256 .f32) (main_arg11 : FVec F S256x256x3x3 .f32) (main_arg12 : FVec F S256 .f32) (main_arg13 : FVec F S256 .f32) (main_arg14 : FVec F S256 .f32) (main_arg15 : FVec F S256 .f32) (main_arg16 : FVec F S256x256x3x3 .f32) (main_arg17 : FVec F S256 .f32) (main_arg18 : FVec F S256 .f32) (main_arg19 : FVec F S256 .f32) (main_arg20 : FVec F S256 .f32) (main_arg21 : FVec F S256x256x3x3 .f32) (main_arg22 : FVec F S256 .f32) (main_arg23 : FVec F S256 .f32) (main_arg24 : FVec F S256 .f32) (main_arg25 : FVec F S256 .f32) (main_arg26 : FVec F S240x256x1x1 .f32) (main_arg27 : FVec F S240 .f32) (main_arg28 : FVec F S12x256x1x1 .f32) (main_arg29 : FVec F S12 .f32) (main_arg30 : FVec F S3x256x1x1 .f32) (main_arg31 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256x3x3 .f32 := Host.absf main_arg6
  let main_cst_10 : FVec F S_ .f32 := constant S_ .f32 0x7F800000#32
  let main_v30 : FVec F S256x256x3x3 .f32 := broadcastInDim S256x256x3x3 ![] bcast_S_S256x256x3x3 main_cst_10
  let main_v31 : IVec S256x256x3x3 1 := cmpf .olt main_v29 main_v30
  let main_c_11 : IVec S_ 1 := constantI S_ 1 1#1
  let main_v32 : IVec S_ 1 := (fun x v => Host.reduce IntOp.andi x v reducesTo_S256x256x3x3_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S16x128x64x64 .f32) (main_arg1 : FVec F S256x128x1x1 .f32) (main_arg2 : FVec F S256 .f32) (main_arg3 : FVec F S256 .f32) (main_arg4 : FVec F S256 .f32) (main_arg5 : FVec F S256 .f32) (main_arg6 : FVec F S256x256x3x3 .f32) (main_arg7 : FVec F S256 .f32) (main_arg8 : FVec F S256 .f32) (main_arg9 : FVec F S256 .f32) (main_arg10 : FVec F S256 .f32) (main_arg11 : FVec F S256x256x3x3 .f32) (main_arg12 : FVec F S256 .f32) (main_arg13 : FVec F S256 .f32) (main_arg14 : FVec F S256 .f32) (main_arg15 : FVec F S256 .f32) (main_arg16 : FVec F S256x256x3x3 .f32) (main_arg17 : FVec F S256 .f32) (main_arg18 : FVec F S256 .f32) (main_arg19 : FVec F S256 .f32) (main_arg20 : FVec F S256 .f32) (main_arg21 : FVec F S256x256x3x3 .f32) (main_arg22 : FVec F S256 .f32) (main_arg23 : FVec F S256 .f32) (main_arg24 : FVec F S256 .f32) (main_arg25 : FVec F S256 .f32) (main_arg26 : FVec F S240x256x1x1 .f32) (main_arg27 : FVec F S240 .f32) (main_arg28 : FVec F S12x256x1x1 .f32) (main_arg29 : FVec F S12 .f32) (main_arg30 : FVec F S3x256x1x1 .f32) (main_arg31 : FVec F S3 .f32) : IVec S_ 1 :=
  let main_v0 : FVec F S16x128x64x64 .f32 := Host.absf main_arg0
  let main_cst : FVec F S_ .f32 := constant S_ .f32 0x7F800000#32
  let main_v1 : FVec F S16x128x64x64 .f32 := broadcastInDim S16x128x64x64 ![] bcast_S_S16x128x64x64 main_cst
  let main_v2 : IVec S16x128x64x64 1 := cmpf .olt main_v0 main_v1
  let main_c : IVec S_ 1 := constantI S_ 1 1#1
  let main_v3 : IVec S_ 1 := (fun x v => Host.reduce IntOp.andi x v reducesTo_S16x128x64x64_S_d0_1_2_3 h_S_) main_v2 main_c
  let main_v4 : FVec F S256x128x1x1 .f32 := Host.absf main_arg1
  let main_cst_0 : FVec F S_ .f32 := constant S_ .f32 0x7F800000#32
  let main_v5 : FVec F S256x128x1x1 .f32 := broadcastInDim S256x128x1x1 ![] bcast_S_S256x128x1x1 main_cst_0
  let main_v6 : IVec S256x128x1x1 1 := cmpf .olt main_v4 main_v5
  let main_c_1 : IVec S_ 1 := constantI S_ 1 1#1
  let main_v7 : IVec S_ 1 := (fun x v => Host.reduce IntOp.andi x v reducesTo_S256x128x1x1_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S16x128x64x64 : Shape := ⟨4, ![16, 128, 64, 64]⟩
abbrev S256x128x1x1 : Shape := ⟨4, ![256, 128, 1, 1]⟩
abbrev S256 : Shape := ⟨1, ![256]⟩
abbrev S256x256x3x3 : Shape := ⟨4, ![256, 256, 3, 3]⟩
abbrev S240x256x1x1 : Shape := ⟨4, ![240, 256, 1, 1]⟩
abbrev S240 : Shape := ⟨1, ![240]⟩
abbrev S12x256x1x1 : Shape := ⟨4, ![12, 256, 1, 1]⟩
abbrev S12 : Shape := ⟨1, ![12]⟩
abbrev S3x256x1x1 : Shape := ⟨4, ![3, 256, 1, 1]⟩
abbrev S3 : Shape := ⟨1, ![3]⟩
abbrev S16x64x64x128 : Shape := ⟨4, ![16, 64, 64, 128]⟩
abbrev S_ : Shape := ⟨0, ![]⟩
abbrev S16x66x66x128 : Shape := ⟨4, ![16, 66, 66, 128]⟩
abbrev S16x4356x128 : Shape := ⟨3, ![16, 4356, 128]⟩
abbrev S4356 : Shape := ⟨1, ![4356]⟩
abbrev S4356x1 : Shape := ⟨2, ![4356, 1]⟩
abbrev S256x1x1x1 : Shape := ⟨4, ![256, 1, 1, 1]⟩
abbrev S256x128 : Shape := ⟨2, ![256, 128]⟩
abbrev S128x256 : Shape := ⟨2, ![128, 256]⟩
abbrev S3x3x256x256 : Shape := ⟨4, ![3, 3, 256, 256]⟩
abbrev S9x256x256 : Shape := ⟨3, ![9, 256, 256]⟩
abbrev S9x256x512 : Shape := ⟨3, ![9, 256, 512]⟩
abbrev S512 : Shape := ⟨1, ![512]⟩
abbrev S1x512 : Shape := ⟨2, ![1, 512]⟩
abbrev S12x256 : Shape := ⟨2, ![12, 256]⟩
abbrev S256x12 : Shape := ⟨2, ![256, 12]⟩
abbrev S3x256 : Shape := ⟨2, ![3, 256]⟩
abbrev S256x3 : Shape := ⟨2, ![256, 3]⟩
abbrev S256x15 : Shape := ⟨2, ![256, 15]⟩
abbrev S240x256 : Shape := ⟨2, ![240, 256]⟩
abbrev S256x240 : Shape := ⟨2, ![256, 240]⟩
abbrev S256x255 : Shape := ⟨2, ![256, 255]⟩
abbrev S255 : Shape := ⟨1, ![255]⟩
abbrev S1x255 : Shape := ⟨2, ![1, 255]⟩
abbrev S1x256 : Shape := ⟨2, ![1, 256]⟩
abbrev S16x4356x255 : Shape := ⟨3, ![16, 4356, 255]⟩
abbrev S1x4356x128 : Shape := ⟨3, ![1, 4356, 128]⟩
abbrev S1x4356x255 : Shape := ⟨3, ![1, 4356, 255]⟩
abbrev S4528x256 : Shape := ⟨2, ![4528, 256]⟩
abbrev S80x256 : Shape := ⟨2, ![80, 256]⟩
abbrev S92x256 : Shape := ⟨2, ![92, 256]⟩
abbrev S4356x128 : Shape := ⟨2, ![4356, 128]⟩
abbrev S4356x256 : Shape := ⟨2, ![4356, 256]⟩
abbrev S1x256x512 : Shape := ⟨3, ![1, 256, 512]⟩
abbrev S256x512 : Shape := ⟨2, ![256, 512]⟩
abbrev S4356x512 : Shape := ⟨2, ![4356, 512]⟩
abbrev S1x256x256 : Shape := ⟨3, ![1, 256, 256]⟩
abbrev S256x256 : Shape := ⟨2, ![256, 256]⟩
abbrev S4356x255 : Shape := ⟨2, ![4356, 255]⟩
abbrev S16x66x66x255 : Shape := ⟨4, ![16, 66, 66, 255]⟩
abbrev S16x64x64x255 : Shape := ⟨4, ![16, 64, 64, 255]⟩
abbrev S16x255x64x64 : Shape := ⟨4, ![16, 255, 64, 64]⟩

abbrev nBuf : Space → Nat
  | .hbm => 187
  | .vmem => 19
  | .smem => 0
  | _ => 0

abbrev hbmTy0_0 (i : Nat) : BufTy := match i % 128 with
  | 0 => ⟨S16x128x64x64, .f32⟩
  | 1 => ⟨S256x128x1x1, .f32⟩
  | 2 => ⟨S256, .f32⟩
  | 3 => ⟨S256, .f32⟩
  | 4 => ⟨S256, .f32⟩
  | 5 => ⟨S256, .f32⟩
  | 6 => ⟨S256x256x3x3, .f32⟩
  | 7 => ⟨S256, .f32⟩
  | 8 => ⟨S256, .f32⟩
  | 9 => ⟨S256, .f32⟩
  | 10 => ⟨S256, .f32⟩
  | 11 => ⟨S256x256x3x3, .f32⟩
  | 12 => ⟨S256, .f32⟩
  | 13 => ⟨S256, .f32⟩
  | 14 => ⟨S256, .f32⟩
  | 15 => ⟨S256, .f32⟩
  | 16 => ⟨S256x256x3x3, .f32⟩
  | 17 => ⟨S256, .f32⟩
  | 18 => ⟨S256, .f32⟩
  | 19 => ⟨S256, .f32⟩
  | 20 => ⟨S256, .f32⟩
  | 21 => ⟨S256x256x3x3, .f32⟩
  | 22 => ⟨S256, .f32⟩
  | 23 => ⟨S256, .f32⟩
  | 24 => ⟨S256, .f32⟩
  | 25 => ⟨S256, .f32⟩
  | 26 => ⟨S240x256x1x1, .f32⟩
  | 27 => ⟨S240, .f32⟩
  | 28 => ⟨S12x256x1x1, .f32⟩
  | 29 => ⟨S12, .f32⟩
  | 30 => ⟨S3x256x1x1, .f32⟩
  | 31 => ⟨S3, .f32⟩
  | 32 => ⟨S16x64x64x128, .f32⟩
  | 33 => ⟨S16x64x64x128, .bf16⟩
  | 34 => ⟨S_, .i32⟩
  | 35 => ⟨S_, .bf16⟩
  | 36 => ⟨S16x66x66x128, .bf16⟩
  | 37 => ⟨S16x4356x128, .bf16⟩
  | 38 => ⟨S4356, .i32⟩
  | 39 => ⟨S_, .i32⟩
  | 40 => ⟨S_, .i32⟩
  | 41 => ⟨S4356, .i32⟩
  | 42 => ⟨S4356, .i32⟩
  | 43 => ⟨S4356, .i32⟩
  | 44 => ⟨S_, .i32⟩
  | 45 => ⟨S4356, .i32⟩
  | 46 => ⟨S4356, .i1⟩
  | 47 => ⟨S4356, .i32⟩
  | 48 => ⟨S4356, .i32⟩
  | 49 => ⟨S_, .i32⟩
  | 50 => ⟨S4356, .i32⟩
  | 51 => ⟨S4356, .i1⟩
  | 52 => ⟨S4356, .i1⟩
  | 53 => ⟨S_, .i32⟩
  | 54 => ⟨S4356, .i32⟩
  | 55 => ⟨S4356, .i32⟩
  | 56 => ⟨S4356, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S4356, .i32⟩
  | 64 => ⟨S4356, .i32⟩
  | 65 => ⟨S_, .i32⟩
  | 66 => ⟨S4356, .i32⟩
  | 67 => ⟨S4356, .i1⟩
  | 68 => ⟨S_, .i32⟩
  | 69 => ⟨S4356, .i32⟩
  | 70 => ⟨S4356, .i1⟩
  | 71 => ⟨S_, .i32⟩
  | 72 => ⟨S_, .i1⟩
  | 73 => ⟨S4356, .i1⟩
  | 74 => ⟨S4356, .i1⟩
  | 75 => ⟨S4356, .i1⟩
  | 76 => ⟨S4356, .i32⟩
  | 77 => ⟨S4356, .i32⟩
  | 78 => ⟨S4356, .i32⟩
  | 79 => ⟨S_, .i32⟩
  | 80 => ⟨S4356, .i32⟩
  | 81 => ⟨S4356, .i1⟩
  | 82 => ⟨S_, .i32⟩
  | 83 => ⟨S4356, .i32⟩
  | 84 => ⟨S4356, .i1⟩
  | 85 => ⟨S4356, .i1⟩
  | 86 => ⟨S_, .i32⟩
  | 87 => ⟨S4356, .i32⟩
  | 88 => ⟨S4356, .i1⟩
  | 89 => ⟨S4356, .i1⟩
  | 90 => ⟨S_, .i32⟩
  | 91 => ⟨S4356, .i32⟩
  | 92 => ⟨S4356, .i1⟩
  | 93 => ⟨S4356, .i1⟩
  | 94 => ⟨S4356, .f32⟩
  | 95 => ⟨S4356x1, .f32⟩
  | 96 => ⟨S_, .f32⟩
  | 97 => ⟨S256, .f32⟩
  | 98 => ⟨S256, .f32⟩
  | 99 => ⟨S256, .f32⟩
  | 100 => ⟨S256, .f32⟩
  | 101 => ⟨S256x1x1x1, .f32⟩
  | 102 => ⟨S256x128x1x1, .f32⟩
  | 103 => ⟨S256x128x1x1, .f32⟩
  | 104 => ⟨S256, .f32⟩
  | 105 => ⟨S256, .f32⟩
  | 106 => ⟨S256x128, .f32⟩
  | 107 => ⟨S128x256, .f32⟩
  | 108 => ⟨S128x256, .bf16⟩
  | 109 => ⟨S_, .f32⟩
  | 110 => ⟨S256, .f32⟩
  | 111 => ⟨S256, .f32⟩
  | 112 => ⟨S256, .f32⟩
  | 113 => ⟨S256, .f32⟩
  | 114 => ⟨S256x1x1x1, .f32⟩
  | 115 => ⟨S256x256x3x3, .f32⟩
  | 116 => ⟨S256x256x3x3, .f32⟩
  | 117 => ⟨S256, .f32⟩
  | 118 => ⟨S256, .f32⟩
  | 119 => ⟨S_, .f32⟩
  | 120 => ⟨S256, .f32⟩
  | 121 => ⟨S256, .f32⟩
  | 122 => ⟨S256, .f32⟩
  | 123 => ⟨S256, .f32⟩
  | 124 => ⟨S256x1x1x1, .f32⟩
  | 125 => ⟨S256x256x3x3, .f32⟩
  | 126 => ⟨S256x256x3x3, .f32⟩
  | 127 => ⟨S256, .f32⟩
  | _ => ⟨S16x128x64x64, .f32⟩

abbrev hbmTy0_1 (i : Nat) : BufTy := match i % 128 with
  | 0 => ⟨S256, .f32⟩
  | 1 => ⟨S3x3x256x256, .f32⟩
  | 2 => ⟨S9x256x256, .f32⟩
  | 3 => ⟨S3x3x256x256, .f32⟩
  | 4 => ⟨S9x256x256, .f32⟩
  | 5 => ⟨S9x256x512, .f32⟩
  | 6 => ⟨S9x256x512, .bf16⟩
  | 7 => ⟨S512, .f32⟩
  | 8 => ⟨S1x512, .f32⟩
  | 9 => ⟨S_, .f32⟩
  | 10 => ⟨S256, .f32⟩
  | 11 => ⟨S256, .f32⟩
  | 12 => ⟨S256, .f32⟩
  | 13 => ⟨S256, .f32⟩
  | 14 => ⟨S256x1x1x1, .f32⟩
  | 15 => ⟨S256x256x3x3, .f32⟩
  | 16 => ⟨S256x256x3x3, .f32⟩
  | 17 => ⟨S256, .f32⟩
  | 18 => ⟨S256, .f32⟩
  | 19 => ⟨S_, .f32⟩
  | 20 => ⟨S256, .f32⟩
  | 21 => ⟨S256, .f32⟩
  | 22 => ⟨S256, .f32⟩
  | 23 => ⟨S256, .f32⟩
  | 24 => ⟨S256x1x1x1, .f32⟩
  | 25 => ⟨S256x256x3x3, .f32⟩
  | 26 => ⟨S256x256x3x3, .f32⟩
  | 27 => ⟨S256, .f32⟩
  | 28 => ⟨S256, .f32⟩
  | 29 => ⟨S3x3x256x256, .f32⟩
  | 30 => ⟨S9x256x256, .f32⟩
  | 31 => ⟨S9x256x256, .bf16⟩
  | 32 => ⟨S3x3x256x256, .f32⟩
  | 33 => ⟨S9x256x256, .f32⟩
  | 34 => ⟨S9x256x256, .bf16⟩
  | 35 => ⟨S12x256, .f32⟩
  | 36 => ⟨S256x12, .f32⟩
  | 37 => ⟨S3x256, .f32⟩
  | 38 => ⟨S256x3, .f32⟩
  | 39 => ⟨S256x15, .f32⟩
  | 40 => ⟨S240x256, .f32⟩
  | 41 => ⟨S256x240, .f32⟩
  | 42 => ⟨S_, .f32⟩
  | 43 => ⟨S256x240, .f32⟩
  | 44 => ⟨S256x255, .f32⟩
  | 45 => ⟨S256x255, .bf16⟩
  | 46 => ⟨S_, .f32⟩
  | 47 => ⟨S256x15, .f32⟩
  | 48 => ⟨S256x255, .f32⟩
  | 49 => ⟨S256x255, .bf16⟩
  | 50 => ⟨S255, .f32⟩
  | 51 => ⟨S1x255, .f32⟩
  | 52 => ⟨S1x256, .f32⟩
  | 53 => ⟨S1x256, .f32⟩
  | 54 => ⟨S1x256, .f32⟩
  | 55 => ⟨S16x4356x255, .f32⟩
  | 56 => ⟨S16x66x66x255, .f32⟩
  | 57 => ⟨S16x64x64x255, .f32⟩
  | 58 => ⟨S16x255x64x64, .f32⟩
  | _ => ⟨S16x128x64x64, .f32⟩

abbrev hbmTy (i : Nat) : BufTy := match i / 128 with
  | 0 => hbmTy0_0 i
  | 1 => hbmTy0_1 i
  | _ => ⟨S16x128x64x64, .f32⟩

abbrev bufTy : (tb : Table) → Fin (tcTables nBuf tb) → BufTy
  | .hbm, ⟨i, _⟩ => hbmTy i
  | .local _ .vmem, ⟨0, _⟩ => ⟨S1x4356x128, .bf16⟩
  | .local _ .vmem, ⟨1, _⟩ => ⟨S1x4356x128, .bf16⟩
  | .local _ .vmem, ⟨2, _⟩ => ⟨S4356x1, .f32⟩
  | .local _ .vmem, ⟨3, _⟩ => ⟨S128x256, .bf16⟩
  | .local _ .vmem, ⟨4, _⟩ => ⟨S1x256, .f32⟩
  | .local _ .vmem, ⟨5, _⟩ => ⟨S9x256x512, .bf16⟩
  | .local _ .vmem, ⟨6, _⟩ => ⟨S1x512, .f32⟩
  | .local _ .vmem, ⟨7, _⟩ => ⟨S9x256x256, .bf16⟩
  | .local _ .vmem, ⟨8, _⟩ => ⟨S1x256, .f32⟩
  | .local _ .vmem, ⟨9, _⟩ => ⟨S9x256x256, .bf16⟩
  | .local _ .vmem, ⟨10, _⟩ => ⟨S1x256, .f32⟩
  | .local _ .vmem, ⟨11, _⟩ => ⟨S256x255, .bf16⟩
  | .local _ .vmem, ⟨12, _⟩ => ⟨S256x255, .bf16⟩
  | .local _ .vmem, ⟨13, _⟩ => ⟨S1x255, .f32⟩
  | .local _ .vmem, ⟨14, _⟩ => ⟨S1x4356x255, .f32⟩
  | .local _ .vmem, ⟨15, _⟩ => ⟨S1x4356x255, .f32⟩
  | .local _ .vmem, ⟨16, _⟩ => ⟨S4528x256, .bf16⟩
  | .local _ .vmem, ⟨17, _⟩ => ⟨S4528x256, .bf16⟩
  | .local _ .vmem, ⟨18, _⟩ => ⟨S4528x256, .bf16⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_c : Ref sig .tc := ⟨.hbm, 34, rfl⟩
abbrev main_call0_v0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v5 : Ref sig .tc := ⟨.hbm, 56, rfl⟩
abbrev main_c_1 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v6 : Ref sig .tc := ⟨.hbm, 78, rfl⟩
abbrev main_c_2 : Ref sig .tc := ⟨.hbm, 79, rfl⟩
abbrev main_v7 : Ref sig .tc := ⟨.hbm, 80, rfl⟩
abbrev main_v8 : Ref sig .tc := ⟨.hbm, 81, rfl⟩
abbrev main_c_3 : Ref sig .tc := ⟨.hbm, 82, rfl⟩
abbrev main_v9 : Ref sig .tc := ⟨.hbm, 83, rfl⟩
abbrev main_v10 : Ref sig .tc := ⟨.hbm, 84, rfl⟩
abbrev main_v11 : Ref sig .tc := ⟨.hbm, 85, rfl⟩
abbrev main_c_4 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_c_5 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_cst : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_cst_6 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_cst_7 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_cst_8 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_cst_9 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_cst_10 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_cst_11 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4356x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4356x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S9x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x255 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x255 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x255 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x4356x255 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S16x128x64x64_S16x64x64x128_0_2_3_1 : S16x128x64x64.Transposes [0, 2, 3, 1] S16x64x64x128
  bitsLt_bf16_f32 : FTy.bits .bf16 < FTy.bits .f32
  pads_S16x64x64x128_S16x66x66x128_000_110_110_000 : S16x64x64x128.Pads (![0, 1, 1, 0] : Fin 4 → Nat) ![0, 1, 1, 0] ![0, 0, 0, 0] S16x66x66x128
  h_S_ : 0 < S_.numel
  shapeCasts_S16x66x66x128_S16x4356x128 : S16x66x66x128.ShapeCasts S16x4356x128
  bcast_S_S4356 : S_.BroadcastsInDim S4356 (![] : Fin 0 → Fin S4356.rank)
  bcast_S4356_S4356x1_0 : S4356.BroadcastsInDim S4356x1 (![0] : Fin 1 → Fin S4356x1.rank)
  bcast_S_S256 : S_.BroadcastsInDim S256 (![] : Fin 0 → Fin S256.rank)
  bcast_S256_S256x1x1x1_0 : S256.BroadcastsInDim S256x1x1x1 (![0] : Fin 1 → Fin S256x1x1x1.rank)
  bcast_S256x1x1x1_S256x128x1x1_0_1_2_3 : S256x1x1x1.BroadcastsInDim S256x128x1x1 (![0, 1, 2, 3] : Fin 4 → Fin S256x128x1x1.rank)
  shapeCasts_S256x128x1x1_S256x128 : S256x128x1x1.ShapeCasts S256x128
  transposes_S256x128_S128x256_1_0 : S256x128.Transposes [1, 0] S128x256
  bcast_S256x1x1x1_S256x256x3x3_0_1_2_3 : S256x1x1x1.BroadcastsInDim S256x256x3x3 (![0, 1, 2, 3] : Fin 4 → Fin S256x256x3x3.rank)
  transposes_S256x256x3x3_S3x3x256x256_2_3_1_0 : S256x256x3x3.Transposes [2, 3, 1, 0] S3x3x256x256
  shapeCasts_S3x3x256x256_S9x256x256 : S3x3x256x256.ShapeCasts S9x256x256
  concatenates_S9x256x256_S9x256x256_S9x256x512_d2 : Shape.Concatenates [S9x256x256, S9x256x256] S9x256x512 2
  concatenates_S256_S256_S512_d0 : Shape.Concatenates [S256, S256] S512 0
  bcast_S512_S1x512_1 : S512.BroadcastsInDim S1x512 (![1] : Fin 1 → Fin S1x512.rank)
  shapeCasts_S12x256x1x1_S12x256 : S12x256x1x1.ShapeCasts S12x256
  transposes_S12x256_S256x12_1_0 : S12x256.Transposes [1, 0] S256x12
  shapeCasts_S3x256x1x1_S3x256 : S3x256x1x1.ShapeCasts S3x256
  transposes_S3x256_S256x3_1_0 : S3x256.Transposes [1, 0] S256x3
  concatenates_S256x12_S256x3_S256x15_d1 : Shape.Concatenates [S256x12, S256x3] S256x15 1
  shapeCasts_S240x256x1x1_S240x256 : S240x256x1x1.ShapeCasts S240x256
  transposes_S240x256_S256x240_1_0 : S240x256.Transposes [1, 0] S256x240
  bcast_S_S256x240 : S_.BroadcastsInDim S256x240 (![] : Fin 0 → Fin S256x240.rank)
  concatenates_S256x15_S256x240_S256x255_d1 : Shape.Concatenates [S256x15, S256x240] S256x255 1
  bcast_S_S256x15 : S_.BroadcastsInDim S256x15 (![] : Fin 0 → Fin S256x15.rank)
  concatenates_S12_S3_S240_S255_d0 : Shape.Concatenates [S12, S3, S240] S255 0
  bcast_S255_S1x255_1 : S255.BroadcastsInDim S1x255 (![1] : Fin 1 → Fin S1x255.rank)
  bcast_S256_S1x256_1 : S256.BroadcastsInDim S1x256 (![1] : Fin 1 → Fin S1x256.rank)
  inb_S4356x1_S4356x1_0_0 : ∀ a, (![0, 0] : Fin 2 → Nat) a + S4356x1.size a ≤ S4356x1.size a
  h_S4356x1 : 0 < S4356x1.numel
  shapeCasts_S4356x1_S4356x1 : S4356x1.ShapeCasts S4356x1
  inb_S4528x256_S80x256_0_0 : ∀ a, (![0, 0] : Fin 2 → Nat) a + S80x256.size a ≤ S4528x256.size a
  h_S80x256 : 0 < S80x256.numel
  shapeCasts_S80x256_S80x256 : S80x256.ShapeCasts S80x256
  packedbf16_S4528x256_S80x256_0_0 : (Rect.unit (s := S4528x256) ![0, 0] S80x256.size inb_S4528x256_S80x256_0_0).PackedRows (EltTy.packing .bf16)
  inb_S4528x256_S92x256_4436_0 : ∀ a, (![4436, 0] : Fin 2 → Nat) a + S92x256.size a ≤ S4528x256.size a
  h_S92x256 : 0 < S92x256.numel
  shapeCasts_S92x256_S92x256 : S92x256.ShapeCasts S92x256
  packedbf16_S4528x256_S92x256_4436_0 : (Rect.unit (s := S4528x256) ![4436, 0] S92x256.size inb_S4528x256_S92x256_4436_0).PackedRows (EltTy.packing .bf16)
  inb_S1x4356x128_S1x4356x128_0_0_0 : ∀ a, (![0, 0, 0] : Fin 3 → Nat) a + S1x4356x128.size a ≤ S1x4356x128.size a
  h_S1x4356x128 : 0 < S1x4356x128.numel
  shapeCasts_S1x4356x128_S4356x128 : S1x4356x128.ShapeCasts S4356x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4356x256 : S1x256.Broadcasts S4356x256
  broadcasts_S4356x1_S4356x256 : S4356x1.Broadcasts S4356x256
  inb_S4528x256_S4356x256_80_0 : ∀ a, (![80, 0] : Fin 2 → Nat) a + S4356x256.size a ≤ S4528x256.size a
  h_S4356x256 : 0 < S4356x256.numel
  shapeCasts_S4356x256_S4356x256 : S4356x256.ShapeCasts S4356x256
  packedbf16_S4528x256_S4356x256_80_0 : (Rect.unit (s := S4528x256) ![80, 0] S4356x256.size inb_S4528x256_S4356x256_80_0).PackedRows (EltTy.packing .bf16)
  inb_S4528x256_S4356x256_13_0 : ∀ a, (![13, 0] : Fin 2 → Nat) a + S4356x256.size a ≤ S4528x256.size a
  inb_S9x256x512_S1x256x512_0_0_0 : ∀ a, (![0, 0, 0] : Fin 3 → Nat) a + S1x256x512.size a ≤ S9x256x512.size a
  h_S1x256x512 : 0 < S1x256x512.numel
  shapeCasts_S1x256x512_S256x512 : S1x256x512.ShapeCasts S256x512
  inb_S4528x256_S4356x256_14_0 : ∀ a, (![14, 0] : Fin 2 → Nat) a + S4356x256.size a ≤ S4528x256.size a
  inb_S9x256x512_S1x256x512_1_0_0 : ∀ a, (![1, 0, 0] : Fin 3 → Nat) a + S1x256x512.size a ≤ S9x256x512.size a
  inb_S4528x256_S4356x256_15_0 : ∀ a, (![15, 0] : Fin 2 → Nat) a + S4356x256.size a ≤ S4528x256.size a
  inb_S9x256x512_S1x256x512_2_0_0 : ∀ a, (![2, 0, 0] : Fin 3 → Nat) a + S1x256x512.size a ≤ S9x256x512.size a
  inb_S4528x256_S4356x256_79_0 : ∀ a, (![79, 0] : Fin 2 → Nat) a + S4356x256.size a ≤ S4528x256.size a
  inb_S9x256x512_S1x256x512_3_0_0 : ∀ a, (![3, 0, 0] : Fin 3 → Nat) a + S1x256x512.size a ≤ S9x256x512.size a
  inb_S9x256x512_S1x256x512_4_0_0 : ∀ a, (![4, 0, 0] : Fin 3 → Nat) a + S1x256x512.size a ≤ S9x256x512.size a
  inb_S4528x256_S4356x256_81_0 : ∀ a, (![81, 0] : Fin 2 → Nat) a + S4356x256.size a ≤ S4528x256.size a
  inb_S9x256x512_S1x256x512_5_0_0 : ∀ a, (![5, 0, 0] : Fin 3 → Nat) a + S1x256x512.size a ≤ S9x256x512.size a
  inb_S4528x256_S4356x256_145_0 : ∀ a, (![145, 0] : Fin 2 → Nat) a + S4356x256.size a ≤ S4528x256.size a
  inb_S9x256x512_S1x256x512_6_0_0 : ∀ a, (![6, 0, 0] : Fin 3 → Nat) a + S1x256x512.size a ≤ S9x256x512.size a
  inb_S4528x256_S4356x256_146_0 : ∀ a, (![146, 0] : Fin 2 → Nat) a + S4356x256.size a ≤ S4528x256.size a
  inb_S9x256x512_S1x256x512_7_0_0 : ∀ a, (![7, 0, 0] : Fin 3 → Nat) a + S1x256x512.size a ≤ S9x256x512.size a
  inb_S4528x256_S4356x256_147_0 : ∀ a, (![147, 0] : Fin 2 → Nat) a + S4356x256.size a ≤ S4528x256.size a
  inb_S9x256x512_S1x256x512_8_0_0 : ∀ a, (![8, 0, 0] : Fin 3 → Nat) a + S1x256x512.size a ≤ S9x256x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4356x512 : S1x512.Broadcasts S4356x512
  broadcasts_S4356x1_S4356x512 : S4356x1.Broadcasts S4356x512
  slices_S4356x512_o0_0_S4356x256 : S4356x512.Slices ![0, 0] S4356x256
  slices_S4356x512_o0_256_S4356x256 : S4356x512.Slices ![0, 256] S4356x256
  inb_S9x256x256_S1x256x256_0_0_0 : ∀ a, (![0, 0, 0] : Fin 3 → Nat) a + S1x256x256.size a ≤ S9x256x256.size a
  h_S1x256x256 : 0 < S1x256x256.numel
  shapeCasts_S1x256x256_S256x256 : S1x256x256.ShapeCasts S256x256
  inb_S9x256x256_S1x256x256_1_0_0 : ∀ a, (![1, 0, 0] : Fin 3 → Nat) a + S1x256x256.size a ≤ S9x256x256.size a
  inb_S9x256x256_S1x256x256_2_0_0 : ∀ a, (![2, 0, 0] : Fin 3 → Nat) a + S1x256x256.size a ≤ S9x256x256.size a
  inb_S9x256x256_S1x256x256_3_0_0 : ∀ a, (![3, 0, 0] : Fin 3 → Nat) a + S1x256x256.size a ≤ S9x256x256.size a
  inb_S9x256x256_S1x256x256_4_0_0 : ∀ a, (![4, 0, 0] : Fin 3 → Nat) a + S1x256x256.size a ≤ S9x256x256.size a
  inb_S9x256x256_S1x256x256_5_0_0 : ∀ a, (![5, 0, 0] : Fin 3 → Nat) a + S1x256x256.size a ≤ S9x256x256.size a
  inb_S9x256x256_S1x256x256_6_0_0 : ∀ a, (![6, 0, 0] : Fin 3 → Nat) a + S1x256x256.size a ≤ S9x256x256.size a
  inb_S9x256x256_S1x256x256_7_0_0 : ∀ a, (![7, 0, 0] : Fin 3 → Nat) a + S1x256x256.size a ≤ S9x256x256.size a
  inb_S9x256x256_S1x256x256_8_0_0 : ∀ a, (![8, 0, 0] : Fin 3 → Nat) a + S1x256x256.size a ≤ S9x256x256.size a
  inb_S256x255_S256x255_0_0 : ∀ a, (![0, 0] : Fin 2 → Nat) a + S256x255.size a ≤ S256x255.size a
  h_S256x255 : 0 < S256x255.numel
  shapeCasts_S256x255_S256x255 : S256x255.ShapeCasts S256x255
  inb_S1x255_S1x255_0_0 : ∀ a, (![0, 0] : Fin 2 → Nat) a + S1x255.size a ≤ S1x255.size a
  h_S1x255 : 0 < S1x255.numel
  shapeCasts_S1x255_S1x255 : S1x255.ShapeCasts S1x255
  broadcasts_S1x255_S4356x255 : S1x255.Broadcasts S4356x255
  shapeCasts_S4356x255_S1x4356x255 : S4356x255.ShapeCasts S1x4356x255
  inb_S1x4356x255_S1x4356x255_0_0_0 : ∀ a, (![0, 0, 0] : Fin 3 → Nat) a + S1x4356x255.size a ≤ S1x4356x255.size a
  h_S1x4356x255 : 0 < S1x4356x255.numel
  shapeCasts_S16x4356x255_S16x66x66x255 : S16x4356x255.ShapeCasts S16x66x66x255
  slices_S16x66x66x255_S16x64x64x255_0_1_1_0 : S16x66x66x255.Slices ![0, 1, 1, 0] S16x64x64x255
  transposes_S16x64x64x255_S16x255x64x64_0_3_1_2 : S16x64x64x255.Transposes [0, 3, 1, 2] S16x255x64x64
  dot_S4356x128_S128x256_S4356x256_1_0_0_1_n_n_wf : DotDims.WF S4356x128 S128x256 S4356x256 [1] [0] [0] [1] [] []
  dot_S4356x256_S256x512_S4356x512_1_0_0_1_n_n_wf : DotDims.WF S4356x256 S256x512 S4356x512 [1] [0] [0] [1] [] []
  dot_S4356x256_S256x256_S4356x256_1_0_0_1_n_n_wf : DotDims.WF S4356x256 S256x256 S4356x256 [1] [0] [0] [1] [] []
  dot_S4356x256_S256x255_S4356x255_1_0_0_1_n_n_wf : DotDims.WF S4356x256 S256x255 S4356x255 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4356x128.size a ≤ S16x4356x128.size a
  hwx0_0 : ∀ i : grid0.Coords, EltTy.bits .bf16 = 32 ∨ (Rect.block (s := S16x4356x128) S1x4356x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4356x1.size a ≤ S4356x1.size a
  hwx0_1 : ∀ i : grid0.Coords, EltTy.bits .f32 = 32 ∨ (Rect.block (s := S4356x1) S4356x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x256x512.size a ≤ S9x256x512.size a
  hwx0_4 : ∀ i : grid0.Coords, EltTy.bits .bf16 = 32 ∨ (Rect.block (s := S9x256x512) S9x256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S9x256x256.size a ≤ S9x256x256.size a
  hwx0_6 : ∀ i : grid0.Coords, EltTy.bits .bf16 = 32 ∨ (Rect.block (s := S9x256x256) S9x256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S9x256x256.size a ≤ S9x256x256.size a
  hwx0_8 : ∀ i : grid0.Coords, EltTy.bits .bf16 = 32 ∨ (Rect.block (s := S9x256x256) S9x256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x255.size a ≤ S256x255.size a
  hwx0_10 : ∀ i : grid0.Coords, EltTy.bits .bf16 = 32 ∨ (Rect.block (s := S256x255) S256x255.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x255.size a ≤ S256x255.size a
  hwx0_11 : ∀ i : grid0.Coords, EltTy.bits .bf16 = 32 ∨ (Rect.block (s := S256x255) S256x255.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x255.size a ≤ S1x255.size a
  hwx0_12 : ∀ i : grid0.Coords, EltTy.bits .f32 = 32 ∨ (Rect.block (s := S1x255) S1x255.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x4356x255.size a ≤ S16x4356x255.size a
  hwx0_13 : ∀ i : grid0.Coords, EltTy.bits .f32 = 32 ∨ (Rect.block (s := S16x4356x255) S1x4356x255.size (cc0_transform_13 i) (hinb0_13 i)).WholeWords (EltTy.packing .f32)

variable [Facts₀]

def dot_S4356x128_S128x256_S4356x256_1_0_0_1_n_n : DotDims S4356x128 S128x256 S4356x256 where
  lhsContracting := [1]
  rhsContracting := [0]
  lhsNonContracting := [0]
  rhsNonContracting := [1]
  lhsBatch := []
  rhsBatch := []
  wf := dot_S4356x128_S128x256_S4356x256_1_0_0_1_n_n_wf
def dot_S4356x256_S256x512_S4356x512_1_0_0_1_n_n : DotDims S4356x256 S256x512 S4356x512 where
  lhsContracting := [1]
  rhsContracting := [0]
  lhsNonContracting := [0]
  rhsNonContracting := [1]
  lhsBatch := []
  rhsBatch := []
  wf := dot_S4356x256_S256x512_S4356x512_1_0_0_1_n_n_wf
def dot_S4356x256_S256x256_S4356x256_1_0_0_1_n_n : DotDims S4356x256 S256x256 S4356x256 where
  lhsContracting := [1]
  rhsContracting := [0]
  lhsNonContracting := [0]
  rhsNonContracting := [1]
  lhsBatch := []
  rhsBatch := []
  wf := dot_S4356x256_S256x256_S4356x256_1_0_0_1_n_n_wf
def dot_S4356x256_S256x255_S4356x255_1_0_0_1_n_n : DotDims S4356x256 S256x255 S4356x255 where
  lhsContracting := [1]
  rhsContracting := [0]
  lhsNonContracting := [0]
  rhsNonContracting := [1]
  lhsBatch := []
  rhsBatch := []
  wf := dot_S4356x256_S256x255_S4356x255_1_0_0_1_n_n_wf

abbrev win0_0 : Pipeline.Window sig grid0 :=
  Pipeline.Window.ofSpec (Memref.whole main_v3) S1x4356x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4356x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v97) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S9x256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v78) S9x256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v98) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v81) S9x256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v99) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v91) S256x255.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v94) S256x255.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v96) S1x255.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v100) S1x4356x255.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16x128x64x64 : Shape := ⟨4, ![16, 128, 64, 64]⟩
abbrev S256x128x1x1 : Shape := ⟨4, ![256, 128, 1, 1]⟩
abbrev S256 : Shape := ⟨1, ![256]⟩
abbrev S256x256x3x3 : Shape := ⟨4, ![256, 256, 3, 3]⟩
abbrev S240x256x1x1 : Shape := ⟨4, ![240, 256, 1, 1]⟩
abbrev S240 : Shape := ⟨1, ![240]⟩
abbrev S12x256x1x1 : Shape := ⟨4, ![12, 256, 1, 1]⟩
abbrev S12 : Shape := ⟨1, ![12]⟩
abbrev S3x256x1x1 : Shape := ⟨4, ![3, 256, 1, 1]⟩
abbrev S3 : Shape := ⟨1, ![3]⟩
abbrev S16x64x64x128 : Shape := ⟨4, ![16, 64, 64, 128]⟩
abbrev S65536x128 : Shape := ⟨2, ![65536, 128]⟩
abbrev S_ : Shape := ⟨0, ![]⟩
abbrev S256x1x1x1 : Shape := ⟨4, ![256, 1, 1, 1]⟩
abbrev S256x128 : Shape := ⟨2, ![256, 128]⟩
abbrev S128x256 : Shape := ⟨2, ![128, 256]⟩
abbrev S1x256 : Shape := ⟨2, ![1, 256]⟩
abbrev S65536x256 : Shape := ⟨2, ![65536, 256]⟩
abbrev S512x128 : Shape := ⟨2, ![512, 128]⟩
abbrev S512x256 : Shape := ⟨2, ![512, 256]⟩
abbrev S16x64x64x256 : Shape := ⟨4, ![16, 64, 64, 256]⟩
abbrev S3x3x256x256 : Shape := ⟨4, ![3, 3, 256, 256]⟩
abbrev S9x256x256 : Shape := ⟨3, ![9, 256, 256]⟩
abbrev S16x66x66x256 : Shape := ⟨4, ![16, 66, 66, 256]⟩
abbrev S16x4096x256 : Shape := ⟨3, ![16, 4096, 256]⟩
abbrev S1x66x66x256 : Shape := ⟨4, ![1, 66, 66, 256]⟩
abbrev S1x4096x256 : Shape := ⟨3, ![1, 4096, 256]⟩
abbrev S4096x256 : Shape := ⟨2, ![4096, 256]⟩
abbrev S1x64x64x256 : Shape := ⟨4, ![1, 64, 64, 256]⟩
abbrev S64x64x256 : Shape := ⟨3, ![64, 64, 256]⟩
abbrev S1x256x256 : Shape := ⟨3, ![1, 256, 256]⟩
abbrev S256x256 : Shape := ⟨2, ![256, 256]⟩
abbrev S12x256 : Shape := ⟨2, ![12, 256]⟩
abbrev S256x12 : Shape := ⟨2, ![256, 12]⟩
abbrev S3x256 : Shape := ⟨2, ![3, 256]⟩
abbrev S256x3 : Shape := ⟨2, ![256, 3]⟩
abbrev S256x15 : Shape := ⟨2, ![256, 15]⟩
abbrev S15 : Shape := ⟨1, ![15]⟩
abbrev S1x15 : Shape := ⟨2, ![1, 15]⟩
abbrev S240x256 : Shape := ⟨2, ![240, 256]⟩
abbrev S256x240 : Shape := ⟨2, ![256, 240]⟩
abbrev S1x240 : Shape := ⟨2, ![1, 240]⟩
abbrev S65536x15 : Shape := ⟨2, ![65536, 15]⟩
abbrev S65536x240 : Shape := ⟨2, ![65536, 240]⟩
abbrev S512x15 : Shape := ⟨2, ![512, 15]⟩
abbrev S512x240 : Shape := ⟨2, ![512, 240]⟩
abbrev S65536x255 : Shape := ⟨2, ![65536, 255]⟩
abbrev S16x64x64x255 : Shape := ⟨4, ![16, 64, 64, 255]⟩
abbrev S16x255x64x64 : Shape := ⟨4, ![16, 255, 64, 64]⟩

abbrev nBuf : Space → Nat
  | .hbm => 138
  | .vmem => 42
  | .smem => 0
  | _ => 0

abbrev hbmTy0_0 (i : Nat) : BufTy := match i % 128 with
  | 0 => ⟨S16x128x64x64, .f32⟩
  | 1 => ⟨S256x128x1x1, .f32⟩
  | 2 => ⟨S256, .f32⟩
  | 3 => ⟨S256, .f32⟩
  | 4 => ⟨S256, .f32⟩
  | 5 => ⟨S256, .f32⟩
  | 6 => ⟨S256x256x3x3, .f32⟩
  | 7 => ⟨S256, .f32⟩
  | 8 => ⟨S256, .f32⟩
  | 9 => ⟨S256, .f32⟩
  | 10 => ⟨S256, .f32⟩
  | 11 => ⟨S256x256x3x3, .f32⟩
  | 12 => ⟨S256, .f32⟩
  | 13 => ⟨S256, .f32⟩
  | 14 => ⟨S256, .f32⟩
  | 15 => ⟨S256, .f32⟩
  | 16 => ⟨S256x256x3x3, .f32⟩
  | 17 => ⟨S256, .f32⟩
  | 18 => ⟨S256, .f32⟩
  | 19 => ⟨S256, .f32⟩
  | 20 => ⟨S256, .f32⟩
  | 21 => ⟨S256x256x3x3, .f32⟩
  | 22 => ⟨S256, .f32⟩
  | 23 => ⟨S256, .f32⟩
  | 24 => ⟨S256, .f32⟩
  | 25 => ⟨S256, .f32⟩
  | 26 => ⟨S240x256x1x1, .f32⟩
  | 27 => ⟨S240, .f32⟩
  | 28 => ⟨S12x256x1x1, .f32⟩
  | 29 => ⟨S12, .f32⟩
  | 30 => ⟨S3x256x1x1, .f32⟩
  | 31 => ⟨S3, .f32⟩
  | 32 => ⟨S16x64x64x128, .f32⟩
  | 33 => ⟨S65536x128, .f32⟩
  | 34 => ⟨S_, .f32⟩
  | 35 => ⟨S256, .f32⟩
  | 36 => ⟨S256, .f32⟩
  | 37 => ⟨S256, .f32⟩
  | 38 => ⟨S256, .f32⟩
  | 39 => ⟨S256x1x1x1, .f32⟩
  | 40 => ⟨S256x128x1x1, .f32⟩
  | 41 => ⟨S256x128x1x1, .f32⟩
  | 42 => ⟨S256, .f32⟩
  | 43 => ⟨S256, .f32⟩
  | 44 => ⟨S256x128, .f32⟩
  | 45 => ⟨S128x256, .f32⟩
  | 46 => ⟨S1x256, .f32⟩
  | 47 => ⟨S65536x256, .f32⟩
  | 48 => ⟨S16x64x64x256, .f32⟩
  | 49 => ⟨S_, .f32⟩
  | 50 => ⟨S256, .f32⟩
  | 51 => ⟨S256, .f32⟩
  | 52 => ⟨S256, .f32⟩
  | 53 => ⟨S256, .f32⟩
  | 54 => ⟨S256x1x1x1, .f32⟩
  | 55 => ⟨S256x256x3x3, .f32⟩
  | 56 => ⟨S256x256x3x3, .f32⟩
  | 57 => ⟨S256, .f32⟩
  | 58 => ⟨S256, .f32⟩
  | 59 => ⟨S_, .f32⟩
  | 60 => ⟨S256, .f32⟩
  | 61 => ⟨S256, .f32⟩
  | 62 => ⟨S256, .f32⟩
  | 63 => ⟨S256, .f32⟩
  | 64 => ⟨S256x1x1x1, .f32⟩
  | 65 => ⟨S256x256x3x3, .f32⟩
  | 66 => ⟨S256x256x3x3, .f32⟩
  | 67 => ⟨S256, .f32⟩
  | 68 => ⟨S256, .f32⟩
  | 69 => ⟨S3x3x256x256, .f32⟩
  | 70 => ⟨S9x256x256, .f32⟩
  | 71 => ⟨S1x256, .f32⟩
  | 72 => ⟨S_, .i32⟩
  | 73 => ⟨S_, .f32⟩
  | 74 => ⟨S16x66x66x256, .f32⟩
  | 75 => ⟨S16x4096x256, .f32⟩
  | 76 => ⟨S16x64x64x256, .f32⟩
  | 77 => ⟨S3x3x256x256, .f32⟩
  | 78 => ⟨S9x256x256, .f32⟩
  | 79 => ⟨S1x256, .f32⟩
  | 80 => ⟨S_, .i32⟩
  | 81 => ⟨S_, .f32⟩
  | 82 => ⟨S16x66x66x256, .f32⟩
  | 83 => ⟨S16x4096x256, .f32⟩
  | 84 => ⟨S16x64x64x256, .f32⟩
  | 85 => ⟨S_, .f32⟩
  | 86 => ⟨S256, .f32⟩
  | 87 => ⟨S256, .f32⟩
  | 88 => ⟨S256, .f32⟩
  | 89 => ⟨S256, .f32⟩
  | 90 => ⟨S256x1x1x1, .f32⟩
  | 91 => ⟨S256x256x3x3, .f32⟩
  | 92 => ⟨S256x256x3x3, .f32⟩
  | 93 => ⟨S256, .f32⟩
  | 94 => ⟨S256, .f32⟩
  | 95 => ⟨S_, .f32⟩
  | 96 => ⟨S256, .f32⟩
  | 97 => ⟨S256, .f32⟩
  | 98 => ⟨S256, .f32⟩
  | 99 => ⟨S256, .f32⟩
  | 100 => ⟨S256x1x1x1, .f32⟩
  | 101 => ⟨S256x256x3x3, .f32⟩
  | 102 => ⟨S256x256x3x3, .f32⟩
  | 103 => ⟨S256, .f32⟩
  | 104 => ⟨S256, .f32⟩
  | 105 => ⟨S3x3x256x256, .f32⟩
  | 106 => ⟨S9x256x256, .f32⟩
  | 107 => ⟨S1x256, .f32⟩
  | 108 => ⟨S_, .i32⟩
  | 109 => ⟨S_, .f32⟩
  | 110 => ⟨S16x66x66x256, .f32⟩
  | 111 => ⟨S16x4096x256, .f32⟩
  | 112 => ⟨S16x64x64x256, .f32⟩
  | 113 => ⟨S3x3x256x256, .f32⟩
  | 114 => ⟨S9x256x256, .f32⟩
  | 115 => ⟨S1x256, .f32⟩
  | 116 => ⟨S_, .i32⟩
  | 117 => ⟨S_, .f32⟩
  | 118 => ⟨S16x66x66x256, .f32⟩
  | 119 => ⟨S16x4096x256, .f32⟩
  | 120 => ⟨S16x64x64x256, .f32⟩
  | 121 => ⟨S12x256, .f32⟩
  | 122 => ⟨S256x12, .f32⟩
  | 123 => ⟨S3x256, .f32⟩
  | 124 => ⟨S256x3, .f32⟩
  | 125 => ⟨S256x15, .f32⟩
  | 126 => ⟨S15, .f32⟩
  | 127 => ⟨S1x15, .f32⟩
  | _ => ⟨S16x128x64x64, .f32⟩

abbrev hbmTy0_1 (i : Nat) : BufTy := match i % 128 with
  | 0 => ⟨S240x256, .f32⟩
  | 1 => ⟨S256x240, .f32⟩
  | 2 => ⟨S1x240, .f32⟩
  | 3 => ⟨S65536x256, .f32⟩
  | 4 => ⟨S65536x256, .f32⟩
  | 5 => ⟨S65536x15, .f32⟩
  | 6 => ⟨S65536x240, .f32⟩
  | 7 => ⟨S65536x255, .f32⟩
  | 8 => ⟨S16x64x64x255, .f32⟩
  | 9 => ⟨S16x255x64x64, .f32⟩
  | _ => ⟨S16x128x64x64, .f32⟩

abbrev hbmTy (i : Nat) : BufTy := match i / 128 with
  | 0 => hbmTy0_0 i
  | 1 => hbmTy0_1 i
  | _ => ⟨S16x128x64x64, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S128x256, .f32⟩
  | .local _ .vmem, ⟨3, _⟩ => ⟨S1x256, .f32⟩
  | .local _ .vmem, ⟨4, _⟩ => ⟨S512x256, .f32⟩
  | .local _ .vmem, ⟨5, _⟩ => ⟨S512x256, .f32⟩
  | .local _ .vmem, ⟨6, _⟩ => ⟨S1x66x66x256, .f32⟩
  | .local _ .vmem, ⟨7, _⟩ => ⟨S1x66x66x256, .f32⟩
  | .local _ .vmem, ⟨8, _⟩ => ⟨S9x256x256, .f32⟩
  | .local _ .vmem, ⟨9, _⟩ => ⟨S1x256, .f32⟩
  | .local _ .vmem, ⟨10, _⟩ => ⟨S1x4096x256, .f32⟩
  | .local _ .vmem, ⟨11, _⟩ => ⟨S1x4096x256, .f32⟩
  | .local _ .vmem, ⟨12, _⟩ => ⟨S1x66x66x256, .f32⟩
  | .local _ .vmem, ⟨13, _⟩ => ⟨S1x66x66x256, .f32⟩
  | .local _ .vmem, ⟨14, _⟩ => ⟨S9x256x256, .f32⟩
  | .local _ .vmem, ⟨15, _⟩ => ⟨S1x256, .f32⟩
  | .local _ .vmem, ⟨16, _⟩ => ⟨S1x4096x256, .f32⟩
  | .local _ .vmem, ⟨17, _⟩ => ⟨S1x4096x256, .f32⟩
  | .local _ .vmem, ⟨18, _⟩ => ⟨S1x66x66x256, .f32⟩
  | .local _ .vmem, ⟨19, _⟩ => ⟨S1x66x66x256, .f32⟩
  | .local _ .vmem, ⟨20, _⟩ => ⟨S9x256x256, .f32⟩
  | .local _ .vmem, ⟨21, _⟩ => ⟨S1x256, .f32⟩
  | .local _ .vmem, ⟨22, _⟩ => ⟨S1x4096x256, .f32⟩
  | .local _ .vmem, ⟨23, _⟩ => ⟨S1x4096x256, .f32⟩
  | .local _ .vmem, ⟨24, _⟩ => ⟨S1x66x66x256, .f32⟩
  | .local _ .vmem, ⟨25, _⟩ => ⟨S1x66x66x256, .f32⟩
  | .local _ .vmem, ⟨26, _⟩ => ⟨S9x256x256, .f32⟩
  | .local _ .vmem, ⟨27, _⟩ => ⟨S1x256, .f32⟩
  | .local _ .vmem, ⟨28, _⟩ => ⟨S1x4096x256, .f32⟩
  | .local _ .vmem, ⟨29, _⟩ => ⟨S1x4096x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S256x15, .f32⟩
  | .local _ .vmem, ⟨35, _⟩ => ⟨S1x15, .f32⟩
  | .local _ .vmem, ⟨36, _⟩ => ⟨S256x240, .f32⟩
  | .local _ .vmem, ⟨37, _⟩ => ⟨S1x240, .f32⟩
  | .local _ .vmem, ⟨38, _⟩ => ⟨S512x15, .f32⟩
  | .local _ .vmem, ⟨39, _⟩ => ⟨S512x15, .f32⟩
  | .local _ .vmem, ⟨40, _⟩ => ⟨S512x240, .f32⟩
  | .local _ .vmem, ⟨41, _⟩ => ⟨S512x240, .f32⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_cst : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_0 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_1 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c : Ref sig .tc := ⟨.hbm, 72, rfl⟩
abbrev main_call0_v0 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_c_2 : Ref sig .tc := ⟨.hbm, 80, rfl⟩
abbrev main_call1_v0 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_3 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_4 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_5 : Ref sig .tc := ⟨.hbm, 108, rfl⟩
abbrev main_call2_v0 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_c_6 : Ref sig .tc := ⟨.hbm, 116, rfl⟩
abbrev main_call3_v0 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88_0 : Ref sig .tc := ⟨.hbm, 133, rfl⟩
abbrev main_v88_1 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg6_0 : Ref sig .tc := ⟨.vmem, 38, rfl⟩
abbrev cc5_stg6_1 : Ref sig .tc := ⟨.vmem, 39, rfl⟩
abbrev cc5_stg7_0 : Ref sig .tc := ⟨.vmem, 40, rfl⟩
abbrev cc5_stg7_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem6_1 : DmaSem sig := 39
abbrev cc5_sem7_0 : DmaSem sig := 40
abbrev cc5_sem7_1 : DmaSem sig := 41

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x66x66x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x66x66x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x4096x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x66x66x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x4096x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x66x66x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S9x256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x4096x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![128], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x15 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x15 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x240 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x240 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S512x15 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S512x240 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  transposes_S16x128x64x64_S16x64x64x128_0_2_3_1 : S16x128x64x64.Transposes [0, 2, 3, 1] S16x64x64x128
  shapeCasts_S16x64x64x128_S65536x128 : S16x64x64x128.ShapeCasts S65536x128
  bcast_S_S256 : S_.BroadcastsInDim S256 (![] : Fin 0 → Fin S256.rank)
  bcast_S256_S256x1x1x1_0 : S256.BroadcastsInDim S256x1x1x1 (![0] : Fin 1 → Fin S256x1x1x1.rank)
  bcast_S256x1x1x1_S256x128x1x1_0_1_2_3 : S256x1x1x1.BroadcastsInDim S256x128x1x1 (![0, 1, 2, 3] : Fin 4 → Fin S256x128x1x1.rank)
  shapeCasts_S256x128x1x1_S256x128 : S256x128x1x1.ShapeCasts S256x128
  transposes_S256x128_S128x256_1_0 : S256x128.Transposes [1, 0] S128x256
  bcast_S256_S1x256_1 : S256.BroadcastsInDim S1x256 (![1] : Fin 1 → Fin S1x256.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S65536x256_S16x64x64x256 : S65536x256.ShapeCasts S16x64x64x256
  bcast_S256x1x1x1_S256x256x3x3_0_1_2_3 : S256x1x1x1.BroadcastsInDim S256x256x3x3 (![0, 1, 2, 3] : Fin 4 → Fin S256x256x3x3.rank)
  transposes_S256x256x3x3_S3x3x256x256_2_3_1_0 : S256x256x3x3.Transposes [2, 3, 1, 0] S3x3x256x256
  shapeCasts_S3x3x256x256_S9x256x256 : S3x3x256x256.ShapeCasts S9x256x256
  pads_S16x64x64x256_S16x66x66x256_000_110_110_000 : S16x64x64x256.Pads (![0, 1, 1, 0] : Fin 4 → Nat) ![0, 1, 1, 0] ![0, 0, 0, 0] S16x66x66x256
  h_S_ : 0 < S_.numel
  inb_S1x66x66x256_S1x64x64x256_0_0_0_0 : ∀ a, (![0, 0, 0, 0] : Fin 4 → Nat) a + S1x64x64x256.size a ≤ S1x66x66x256.size a
  h_S1x64x64x256 : 0 < S1x64x64x256.numel
  shapeCasts_S1x64x64x256_S64x64x256 : S1x64x64x256.ShapeCasts S64x64x256
  shapeCasts_S64x64x256_S4096x256 : S64x64x256.ShapeCasts S4096x256
  inb_S9x256x256_S1x256x256_0_0_0 : ∀ a, (![0, 0, 0] : Fin 3 → Nat) a + S1x256x256.size a ≤ S9x256x256.size a
  h_S1x256x256 : 0 < S1x256x256.numel
  shapeCasts_S1x256x256_S256x256 : S1x256x256.ShapeCasts S256x256
  inb_S1x66x66x256_S1x64x64x256_0_0_1_0 : ∀ a, (![0, 0, 1, 0] : Fin 4 → Nat) a + S1x64x64x256.size a ≤ S1x66x66x256.size a
  inb_S9x256x256_S1x256x256_1_0_0 : ∀ a, (![1, 0, 0] : Fin 3 → Nat) a + S1x256x256.size a ≤ S9x256x256.size a
  inb_S1x66x66x256_S1x64x64x256_0_0_2_0 : ∀ a, (![0, 0, 2, 0] : Fin 4 → Nat) a + S1x64x64x256.size a ≤ S1x66x66x256.size a
  inb_S9x256x256_S1x256x256_2_0_0 : ∀ a, (![2, 0, 0] : Fin 3 → Nat) a + S1x256x256.size a ≤ S9x256x256.size a
  inb_S1x66x66x256_S1x64x64x256_0_1_0_0 : ∀ a, (![0, 1, 0, 0] : Fin 4 → Nat) a + S1x64x64x256.size a ≤ S1x66x66x256.size a
  inb_S9x256x256_S1x256x256_3_0_0 : ∀ a, (![3, 0, 0] : Fin 3 → Nat) a + S1x256x256.size a ≤ S9x256x256.size a
  inb_S1x66x66x256_S1x64x64x256_0_1_1_0 : ∀ a, (![0, 1, 1, 0] : Fin 4 → Nat) a + S1x64x64x256.size a ≤ S1x66x66x256.size a
  inb_S9x256x256_S1x256x256_4_0_0 : ∀ a, (![4, 0, 0] : Fin 3 → Nat) a + S1x256x256.size a ≤ S9x256x256.size a
  inb_S1x66x66x256_S1x64x64x256_0_1_2_0 : ∀ a, (![0, 1, 2, 0] : Fin 4 → Nat) a + S1x64x64x256.size a ≤ S1x66x66x256.size a
  inb_S9x256x256_S1x256x256_5_0_0 : ∀ a, (![5, 0, 0] : Fin 3 → Nat) a + S1x256x256.size a ≤ S9x256x256.size a
  inb_S1x66x66x256_S1x64x64x256_0_2_0_0 : ∀ a, (![0, 2, 0, 0] : Fin 4 → Nat) a + S1x64x64x256.size a ≤ S1x66x66x256.size a
  inb_S9x256x256_S1x256x256_6_0_0 : ∀ a, (![6, 0, 0] : Fin 3 → Nat) a + S1x256x256.size a ≤ S9x256x256.size a
  inb_S1x66x66x256_S1x64x64x256_0_2_1_0 : ∀ a, (![0, 2, 1, 0] : Fin 4 → Nat) a + S1x64x64x256.size a ≤ S1x66x66x256.size a
  inb_S9x256x256_S1x256x256_7_0_0 : ∀ a, (![7, 0, 0] : Fin 3 → Nat) a + S1x256x256.size a ≤ S9x256x256.size a
  inb_S1x66x66x256_S1x64x64x256_0_2_2_0 : ∀ a, (![0, 2, 2, 0] : Fin 4 → Nat) a + S1x64x64x256.size a ≤ S1x66x66x256.size a
  inb_S9x256x256_S1x256x256_8_0_0 : ∀ a, (![8, 0, 0] : Fin 3 → Nat) a + S1x256x256.size a ≤ S9x256x256.size a
  broadcasts_S1x256_S4096x256 : S1x256.Broadcasts S4096x256
  shapeCasts_S4096x256_S1x4096x256 : S4096x256.ShapeCasts S1x4096x256
  inb_S1x4096x256_S1x4096x256_0_0_0 : ∀ a, (![0, 0, 0] : Fin 3 → Nat) a + S1x4096x256.size a ≤ S1x4096x256.size a
  h_S1x4096x256 : 0 < S1x4096x256.numel
  shapeCasts_S16x4096x256_S16x64x64x256 : S16x4096x256.ShapeCasts S16x64x64x256
  shapeCasts_S12x256x1x1_S12x256 : S12x256x1x1.ShapeCasts S12x256
  transposes_S12x256_S256x12_1_0 : S12x256.Transposes [1, 0] S256x12
  shapeCasts_S3x256x1x1_S3x256 : S3x256x1x1.ShapeCasts S3x256
  transposes_S3x256_S256x3_1_0 : S3x256.Transposes [1, 0] S256x3
  concatenates_S256x12_S256x3_S256x15_d1 : Shape.Concatenates [S256x12, S256x3] S256x15 1
  concatenates_S12_S3_S15_d0 : Shape.Concatenates [S12, S3] S15 0
  bcast_S15_S1x15_1 : S15.BroadcastsInDim S1x15 (![1] : Fin 1 → Fin S1x15.rank)
  shapeCasts_S240x256x1x1_S240x256 : S240x256x1x1.ShapeCasts S240x256
  transposes_S240x256_S256x240_1_0 : S240x256.Transposes [1, 0] S256x240
  bcast_S240_S1x240_1 : S240.BroadcastsInDim S1x240 (![1] : Fin 1 → Fin S1x240.rank)
  shapeCasts_S16x64x64x256_S65536x256 : S16x64x64x256.ShapeCasts S65536x256
  shapeCasts_S512x256_S512x256 : S512x256.ShapeCasts S512x256
  inb_S256x15_S256x15_0_0 : ∀ a, (![0, 0] : Fin 2 → Nat) a + S256x15.size a ≤ S256x15.size a
  h_S256x15 : 0 < S256x15.numel
  shapeCasts_S256x15_S256x15 : S256x15.ShapeCasts S256x15
  inb_S256x240_S256x240_0_0 : ∀ a, (![0, 0] : Fin 2 → Nat) a + S256x240.size a ≤ S256x240.size a
  h_S256x240 : 0 < S256x240.numel
  shapeCasts_S256x240_S256x240 : S256x240.ShapeCasts S256x240
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S512x15 : S1x15.Broadcasts S512x15
  inb_S512x15_S512x15_0_0 : ∀ a, (![0, 0] : Fin 2 → Nat) a + S512x15.size a ≤ S512x15.size a
  h_S512x15 : 0 < S512x15.numel
  inb_S1x240_S1x240_0_0 : ∀ a, (![0, 0] : Fin 2 → Nat) a + S1x240.size a ≤ S1x240.size a
  h_S1x240 : 0 < S1x240.numel
  shapeCasts_S1x240_S1x240 : S1x240.ShapeCasts S1x240
  broadcasts_S1x240_S512x240 : S1x240.Broadcasts S512x240
  inb_S512x240_S512x240_0_0 : ∀ a, (![0, 0] : Fin 2 → Nat) a + S512x240.size a ≤ S512x240.size a
  h_S512x240 : 0 < S512x240.numel
  concatenates_S65536x15_S65536x240_S65536x255_d1 : Shape.Concatenates [S65536x15, S65536x240] S65536x255 1
  shapeCasts_S65536x255_S16x64x64x255 : S65536x255.ShapeCasts S16x64x64x255
  transposes_S16x64x64x255_S16x255x64x64_0_3_1_2 : S16x64x64x255.Transposes [0, 3, 1, 2] S16x255x64x64
  dot_S512x128_S128x256_S512x256_1_0_0_1_n_n_wf : DotDims.WF S512x128 S128x256 S512x256 [1] [0] [0] [1] [] []
  dot_S4096x256_S256x256_S4096x256_1_0_0_1_n_n_wf : DotDims.WF S4096x256 S256x256 S4096x256 [1] [0] [0] [1] [] []
  dot_S512x256_S256x15_S512x15_1_0_0_1_n_n_wf : DotDims.WF S512x256 S256x15 S512x15 [1] [0] [0] [1] [] []
  dot_S512x256_S256x240_S512x240_1_0_0_1_n_n_wf : DotDims.WF S512x256 S256x240 S512x240 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S65536x128.size a
  hwx0_0 : ∀ i : grid0.Coords, EltTy.bits .f32 = 32 ∨ (Rect.block (s := S65536x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S65536x256.size a
  hwx0_3 : ∀ i : grid0.Coords, EltTy.bits .f32 = 32 ∨ (Rect.block (s := S65536x256) S512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x66x66x256.size a ≤ S16x66x66x256.size a
  hwx1_0 : ∀ i : grid1.Coords, EltTy.bits .f32 = 32 ∨ (Rect.block (s := S16x66x66x256) S1x66x66x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9x256x256.size a ≤ S9x256x256.size a
  hwx1_1 : ∀ i : grid1.Coords, EltTy.bits .f32 = 32 ∨ (Rect.block (s := S9x256x256) S9x256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x256.size a ≤ S16x4096x256.size a
  hwx1_3 : ∀ i : grid1.Coords, EltTy.bits .f32 = 32 ∨ (Rect.block (s := S16x4096x256) S1x4096x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x66x66x256.size a ≤ S16x66x66x256.size a
  hwx2_0 : ∀ i : grid2.Coords, EltTy.bits .f32 = 32 ∨ (Rect.block (s := S16x66x66x256) S1x66x66x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S9x256x256.size a ≤ S9x256x256.size a
  hwx2_1 : ∀ i : grid2.Coords, EltTy.bits .f32 = 32 ∨ (Rect.block (s := S9x256x256) S9x256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x4096x256.size a ≤ S16x4096x256.size a
  hwx2_3 : ∀ i : grid2.Coords, EltTy.bits .f32 = 32 ∨ (Rect.block (s := S16x4096x256) S1x4096x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x66x66x256.size a ≤ S16x66x66x256.size a
  hwx3_0 : ∀ i : grid3.Coords, EltTy.bits .f32 = 32 ∨ (Rect.block (s := S16x66x66x256) S1x66x66x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S9x256x256.size a ≤ S9x256x256.size a
  hwx3_1 : ∀ i : grid3.Coords, EltTy.bits .f32 = 32 ∨ (Rect.block (s := S9x256x256) S9x256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x4096x256.size a ≤ S16x4096x256.size a
  hwx3_3 : ∀ i : grid3.Coords, EltTy.bits .f32 = 32 ∨ (Rect.block (s := S16x4096x256) S1x4096x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x66x66x256.size a ≤ S16x66x66x256.size a
  hwx4_0 : ∀ i : grid4.Coords, EltTy.bits .f32 = 32 ∨ (Rect.block (s := S16x66x66x256) S1x66x66x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S9x256x256.size a ≤ S9x256x256.size a
  hwx4_1 : ∀ i : grid4.Coords, EltTy.bits .f32 = 32 ∨ (Rect.block (s := S9x256x256) S9x256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x4096x256.size a ≤ S16x4096x256.size a
  hwx4_3 : ∀ i : grid4.Coords, EltTy.bits .f32 = 32 ∨ (Rect.block (s := S16x4096x256) S1x4096x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x256.size a ≤ S65536x256.size a
  hwx5_0 : ∀ i : grid5.Coords, EltTy.bits .f32 = 32 ∨ (Rect.block (s := S65536x256) S512x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S65536x256.size a
  hwx5_1 : ∀ i : grid5.Coords, EltTy.bits .f32 = 32 ∨ (Rect.block (s := S65536x256) S512x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x15.size a ≤ S256x15.size a
  hwx5_2 : ∀ i : grid5.Coords, EltTy.bits .f32 = 32 ∨ (Rect.block (s := S256x15) S256x15.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x15.size a ≤ S1x15.size a
  hwx5_3 : ∀ i : grid5.Coords, EltTy.bits .f32 = 32 ∨ (Rect.block (s := S1x15) S1x15.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x240.size a ≤ S256x240.size a
  hwx5_4 : ∀ i : grid5.Coords, EltTy.bits .f32 = 32 ∨ (Rect.block (s := S256x240) S256x240.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x240.size a ≤ S1x240.size a
  hwx5_5 : ∀ i : grid5.Coords, EltTy.bits .f32 = 32 ∨ (Rect.block (s := S1x240) S1x240.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S512x15.size a ≤ S65536x15.size a
  hwx5_6 : ∀ i : grid5.Coords, EltTy.bits .f32 = 32 ∨ (Rect.block (s := S65536x15) S512x15.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S512x240.size a ≤ S65536x240.size a
  hwx5_7 : ∀ i : grid5.Coords, EltTy.bits .f32 = 32 ∨ (Rect.block (s := S65536x240) S512x240.size (cc5_transform_7 i) (hinb5_7 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x256_S256x15_S512x15_1_0_0_1_n_n : DotDims S512x256 S256x15 S512x15 where
  lhsContracting := [1]
  rhsContracting := [0]
  lhsNonContracting := [0]
  rhsNonContracting := [1]
  lhsBatch := []
  rhsBatch := []
  wf := dot_S512x256_S256x15_S512x15_1_0_0_1_n_n_wf
def dot_S512x256_S256x240_S512x240_1_0_0_1_n_n : DotDims S512x256 S256x240 S512x240 where
  lhsContracting := [1]
  rhsContracting := [0]
  lhsNonContracting := [0]
  rhsNonContracting := [1]
  lhsBatch := []
  rhsBatch := []
  wf := dot_S512x256_S256x240_S512x240_1_0_0_1_n_n_wf

abbrev win0_0 : Pipeline.Window sig grid0 :=
  Pipeline.Window.ofSpec (Memref.whole main_v1) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S1x66x66x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S9x256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S1x66x66x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S9x256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x4096x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v67) S1x66x66x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S9x256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x4096x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v73) S1x66x66x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S9x256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x4096x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v86) S512x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S512x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v80) S256x15.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x15.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S256x240.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S1x240.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v88_0) S512x15.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v88_1) S512x240.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== Proof.KBody.lean ====
import proofs.«145920_g2000606511304043_pallasbulk_952_2_alg».proof.Proof.Gen.Kernel.Skeleton
import proofs.«145920_g2000606511304043_pallasbulk_952_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def bodyRun (c : Dev nD) (i : grid0.Coords) (arg1 : Memref sig .tc .vmem S1x4356x128 .bf16) (harg1 : arg1.IsWhole) (arg2 : Memref sig .tc .vmem S4356x1 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S9x256x512 .bf16) (harg5 : arg5.IsWhole) (arg6 : Memref sig .tc .vmem S1x512 .f32) (harg6 : arg6.IsWhole) (arg7 : Memref sig .tc .vmem S9x256x256 .bf16) (harg7 : arg7.IsWhole) (arg8 : Memref sig .tc .vmem S1x256 .f32) (harg8 : arg8.IsWhole) (arg9 : Memref sig .tc .vmem S9x256x256 .bf16) (harg9 : arg9.IsWhole) (arg10 : Memref sig .tc .vmem S1x256 .f32) (harg10 : arg10.IsWhole) (arg11 : Memref sig .tc .vmem S256x255 .bf16) (harg11 : arg11.IsWhole) (arg12 : Memref sig .tc .vmem S256x255 .bf16) (harg12 : arg12.IsWhole) (arg13 : Memref sig .tc .vmem S1x255 .f32) (harg13 : arg13.IsWhole) (arg14 : Memref sig .tc .vmem S1x4356x255 .f32) (harg14 : arg14.IsWhole) (arg15 : Memref sig .tc .vmem S4528x256 .bf16) (harg15 : arg15.IsWhole) (arg16 : Memref sig .tc .vmem S4528x256 .bf16) (harg16 : arg16.IsWhole) (arg17 : Memref sig .tc .vmem S4528x256 .bf16) (harg17 : arg17.IsWhole)
    (x0 : Vec F S1x4356x128 .bf16) (x1 : Vec F S4356x1 .f32) (x2 : Vec F S128x256 .bf16) (x3 : Vec F S1x256 .f32) (x4 : Vec F S9x256x512 .bf16) (x5 : Vec F S1x512 .f32) (x6 : Vec F S9x256x256 .bf16) (x7 : Vec F S1x256 .f32) (x8 : Vec F S9x256x256 .bf16) (x9 : Vec F S1x256 .f32) (x10 : Vec F S256x255 .bf16) (x11 : Vec F S256x255 .bf16) (x12 : Vec F S1x255 .f32) :
    { L : List (View.Piece (Elt F) S1x4356x255 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
                ∗ (∃ f, arg14.view.loc (c : Thread nD τ) ↦[arg14.view.set]{fullShare} arg14.view.writes (Elt F) f L)
                ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0__fused_head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0__fused_head_kernel_eq_skeleton]; unfold cc0__fused_head_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec_parts
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

end Cert.Kernel.Fused

end
-- ==== Proof.KLaunch.lean ====
import proofs.«145920_g2000606511304043_pallasbulk_952_2_alg».proof.Proof.KBody
import proofs.«145920_g2000606511304043_pallasbulk_952_2_alg».proof.Proof.KLaunchKit
import Idealize.ShloMosaic.Lib.Pipeline.RegionsLoop
import Idealize.ShloMosaic.Lib.Pipeline.FrameSuffix

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev VO13 : View sig .tc .vmem S1x4356x255 .f32 := (Memref.whole cc0_stg13_0 : Memref sig .tc .vmem S1x4356x255 .f32).view
abbrev scM0 : Memref sig .tc .vmem S4528x256 .bf16 := Memref.whole cc0_scratch0
abbrev scM1 : Memref sig .tc .vmem S4528x256 .bf16 := Memref.whole cc0_scratch1
abbrev scM2 : Memref sig .tc .vmem S4528x256 .bf16 := Memref.whole cc0_scratch2

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

abbrev runAt (c : Dev nD) (t : Fin cfg0.N) :=
  bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) scM0 (Memref.isWhole_whole _) scM1 (Memref.isWhole_whole _) scM2 (Memref.isWhole_whole _)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)

-- the body stores the whole output block once
theorem cover13 (c : Dev nD) (t : Fin cfg0.N) (y : S1x4356x255.Idx) : ∃ pc ∈ (runAt V c t).1, y ∈ pc.1.set :=
  View.cover_of_tiledL _ S1x4356x255.size (by sl_kernel_rfl) y

def outAt (c : Dev nD) (t : Fin cfg0.N) : Vec F S1x4356x255 .f32 :=
  VO13.read (Elt F) (VO13.writes (Elt F) VO13.junk (runAt V c t).1)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => outAt V c t
  Φ _ := Pipeline.ΦA spec0 c
  q _ := fullShare
  owed _ := 0

theorem after0_13 (c : Dev nD) (t : Fin cfg0.N) : (dat0 V c).after 13 t = outAt V c t := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) ∧ (∀ d, (dat0 V c).before 9 t d = iblk0 V c 9 t) ∧ (∀ d, (dat0 V c).before 10 t d = iblk0 V c 10 t) ∧ (∀ d, (dat0 V c).before 11 t d = iblk0 V c 11 t) ∧ (∀ d, (dat0 V c).before 12 t d = iblk0 V c 12 t) := by
  refine ⟨?_, ?_, ?_, ?_, ?_, ?_, ?_, ?_, ?_, ?_, ?_, ?_, ?_⟩ <;> exact fun d =>
    ((dat0 V c).before_in_eq_fetched _ rfl (fun _ => rfl) (fun _ _ _ => rfl) (fun _ => rfl) t d).trans rfl

def bodyPre0 (c : Dev nD) (t : Fin cfg0.N) : sProp 𝕄 :=
  iprop(Pipeline.ΦA spec0 c ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d))
    ∗ (∃ d, owns (c : Thread nD τ) (win0_9.stage (cfg0.slots t 9)) fullShare ((dat0 V c).before 9 t d))
    ∗ (∃ d, owns (c : Thread nD τ) (win0_10.stage (cfg0.slots t 10)) fullShare ((dat0 V c).before 10 t d))
    ∗ (∃ d, owns (c : Thread nD τ) (win0_11.stage (cfg0.slots t 11)) fullShare ((dat0 V c).before 11 t d))
    ∗ (∃ d, owns (c : Thread nD τ) (win0_12.stage (cfg0.slots t 12)) fullShare ((dat0 V c).before 12 t d))
    ∗ (∃ d, owns (c : Thread nD τ) (win0_13.stage (cfg0.slots t 13)) fullShare ((dat0 V c).before 13 t d)))

def bodyPost0 (c : Dev nD) (t : Fin cfg0.N) : sProp 𝕄 :=
  iprop(Pipeline.ΦA spec0 c ∗ (dat0 V c).owesAt () t.succ
    ∗ owns (c : Thread nD τ) (win0_0.stage (cfg0.slots t 0)) fullShare (iblk0 V c 0 t)
    ∗ owns (c : Thread nD τ) (win0_1.stage (cfg0.slots t 1)) fullShare (iblk0 V c 1 t)
    ∗ owns (c : Thread nD τ) (win0_2.stage (cfg0.slots t 2)) fullShare (iblk0 V c 2 t)
    ∗ owns (c : Thread nD τ) (win0_3.stage (cfg0.slots t 3)) fullShare (iblk0 V c 3 t)
    ∗ owns (c : Thread nD τ) (win0_4.stage (cfg0.slots t 4)) fullShare (iblk0 V c 4 t)
    ∗ owns (c : Thread nD τ) (win0_5.stage (cfg0.slots t 5)) fullShare (iblk0 V c 5 t)
    ∗ owns (c : Thread nD τ) (win0_6.stage (cfg0.slots t 6)) fullShare (iblk0 V c 6 t)
    ∗ owns (c : Thread nD τ) (win0_7.stage (cfg0.slots t 7)) fullShare (iblk0 V c 7 t)
    ∗ owns (c : Thread nD τ) (win0_8.stage (cfg0.slots t 8)) fullShare (iblk0 V c 8 t)
    ∗ owns (c : Thread nD τ) (win0_9.stage (cfg0.slots t 9)) fullShare (iblk0 V c 9 t)
    ∗ owns (c : Thread nD τ) (win0_10.stage (cfg0.slots t 10)) fullShare (iblk0 V c 10 t)
    ∗ owns (c : Thread nD τ) (win0_11.stage (cfg0.slots t 11)) fullShare (iblk0 V c 11 t)
    ∗ owns (c : Thread nD τ) (win0_12.stage (cfg0.slots t 12)) fullShare (iblk0 V c 12 t)
    ∗ owns (c : Thread nD τ) (win0_13.stage (cfg0.slots t 13)) fullShare (outAt V c t))

theorem sound_body0 (c : Dev nD) (t : Fin cfg0.N) :
    bodyPre0 V c t ⊢ wp frame (wpE (defs₀ (F := F)) Variants.none c none) Set.univ (bodyAt0 t) (fun _ => bodyPost0 V c t) := by
  obtain ⟨b0, b1, b2, b3, b4, b5, b6, b7, b8, b9, b10, b11, b12⟩ := before0 V c t
  unfold bodyPre0 bodyPost0 bodyAt0
  simp only [b0, b1, b2, b3, b4, b5, b6, b7, b8, b9, b10, b11, b12]
  rw [show (dat0 V c).owesAt () t.succ = (dat0 V c).owesAt () t.castSucc from rfl, PhiA0_eq]
  unfold outAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runAt V c t).2 Set.univ _)
  iframe H0 H1 H2 H3 H4 H5 H6 H7 H8 H9 H10 H11 H12 HS0 HS1 HS2
  isplitl [H13]; · iexists _; iexact H13
  iintro ⟨H0, H1, H2, H3, H4, H5, H6, H7, H8, H9, H10, H11, H12, ⟨%e13, H13⟩, HS0, HS1, HS2⟩
  iframe HS0 HS1 HS2 Hg Ho H0 H1 H2 H3 H4 H5 H6 H7 H8 H9 H10 H11 H12
  unfold owns; iexists _; isplitr
  swap; · iexact H13
  ipureintro; exact View.read_writes_of_cover _ _ _ _ _ (cover13 V c t)

theorem body_obligation0 (c : Dev nD) : BodyObligation (dat0 (F := F) V c) (defs₀ (F := F)) Variants.none () Set.univ := fun t => by
  rw [bigSep_W0, bigSep_W0]
  dsimp only [dat0]
  exact sound_body0 V c t

end Region

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev Wentry : Dev nD → Valuation τ sig (Elt F) := W7 m ρ
abbrev Ventry : (c : Dev nD) → (b : Ref sig .tc) → Buf (Elt F) ((c : Thread nD τ).loc b) := fun c b => Wentry m ρ c b
def Wexit (c : Dev nD) : Valuation τ sig (Elt F) :=
  Pipeline.withArrays spec0 c (Wentry m ρ c) fun w => (dat0 (Ventry m ρ) c).arrAt w cfg0.N
theorem Wexit_arr (c : Dev nD) (w : Fin cfg0.W) :
    Wexit m ρ c (Proc.devRef .tc (Pipeline.arrRef spec0 w)) = (dat0 (Ventry m ρ) c).arrAt w cfg0.N := by
  unfold Wexit; exact Pipeline.withArrays_arr spec0 launch0.win.arr_inj c _ _ w
theorem Wexit_of_ne (c : Dev nD) (b : Ref sig .tc) (hb : ∀ w, Pipeline.arrRef spec0 w ≠ b) :
    Wexit m ρ c (Proc.devRef .tc b) = Wentry m ρ c (Proc.devRef .tc b) := by
  unfold Wexit; exact Pipeline.withArrays_of_ne spec0 c _ _ b hb
abbrev Vexit : (c : Dev nD) → (b : Ref sig .tc) → Buf (Elt F) ((c : Thread nD τ).loc b) := fun c b => Wexit m ρ c b
theorem hF0 (c : Dev nD) (w : Fin cfg0.W) : (dat0 (Ventry m ρ) c).arrAt w cfg0.N = Vexit m ρ c (Pipeline.arrRef spec0 w) :=
  (Wexit_arr m ρ c w).symm
theorem hrest0 (c : Dev nD) : ∀ b, b ∉ Finset.univ.image (Pipeline.arrRef spec0) → Vexit m ρ c b = Ventry m ρ c b :=
  fun b hb => Wexit_of_ne m ρ c b fun w e => hb (Finset.mem_image.mpr ⟨w, Finset.mem_univ _, e⟩)
abbrev Wfin : Dev nD → Valuation τ sig (Elt F) := fun c => StableHlo.after hostOps1 (Wexit m ρ c)

-- the operations `ops` leave buffer `b` as it was
abbrev Keeps (b : Ref sig .tc) (ops : List (HloOp τ sig (Elt F))) : Prop :=
  ∀ W, StableHlo.after ops W (Proc.devRef .tc b) = W (Proc.devRef .tc b)

-- every reference one of these operations writes has index at least 32
theorem keep_all (b : Ref sig .tc) (hb : b.idx.val < 32) :
    Keeps b (hostOps0 (F := F)) ∧ Keeps b (hostOps0_1 (F := F)) ∧ Keeps b (hostOps0_2 (F := F)) ∧ Keeps b (hostOps0_3 (F := F)) ∧ Keeps b (hostOps0_4 (F := F)) ∧ Keeps b (hostOps0_5 (F := F)) ∧ Keeps b (hostOps0_6 (F := F)) ∧ Keeps b (hostOps1 (F := F)) := by
  refine ⟨?_, ?_, ?_, ?_, ?_, ?_, ?_, ?_⟩
  all_goals
    intro W
    refine StableHlo.after_of_forall_not_mem (b := Proc.devRef .tc b) _ _ (List.forall_iff_forall_mem.mp ?_)
    simp only [hostOps0, hostOps0_1, hostOps0_2, hostOps0_3, hostOps0_4, hostOps0_5, hostOps0_6, hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (fun e => by subst e; exact absurd hb (by decide))

section Keep
variable (W : Valuation τ sig (Elt F)) (b : Ref sig .tc) (hb : b.idx.val < 32)
include hb
theorem keep_hostOps0 : StableHlo.after (hostOps0 (F := F)) W (Proc.devRef .tc b) = W (Proc.devRef .tc b) := (keep_all b hb).1 W
theorem keep_hostOps0_1 : StableHlo.after (hostOps0_1 (F := F)) W (Proc.devRef .tc b) = W (Proc.devRef .tc b) := (keep_all b hb).2.1 W
theorem keep_hostOps0_2 : StableHlo.after (hostOps0_2 (F := F)) W (Proc.devRef .tc b) = W (Proc.devRef .tc b) := (keep_all b hb).2.2.1 W
theorem keep_hostOps0_3 : StableHlo.after (hostOps0_3 (F := F)) W (Proc.devRef .tc b) = W (Proc.devRef .tc b) := (keep_all b hb).2.2.2.1 W
theorem keep_hostOps0_4 : StableHlo.after (hostOps0_4 (F := F)) W (Proc.devRef .tc b) = W (Proc.devRef .tc b) := (keep_all b hb).2.2.2.2.1 W
theorem keep_hostOps0_5 : StableHlo.after (hostOps0_5 (F := F)) W (Proc.devRef .tc b) = W (Proc.devRef .tc b) := (keep_all b hb).2.2.2.2.2.1 W
theorem keep_hostOps0_6 : StableHlo.after (hostOps0_6 (F := F)) W (Proc.devRef .tc b) = W (Proc.devRef .tc b) := (keep_all b hb).2.2.2.2.2.2.1 W
theorem keep_hostOps1 : StableHlo.after (hostOps1 (F := F)) W (Proc.devRef .tc b) = W (Proc.devRef .tc b) := (keep_all b hb).2.2.2.2.2.2.2 W
end Keep

theorem Wfin_of_arg (c : Dev nD) (b : Ref sig .tc) (hb : b.idx.val < 32) (hw : ∀ w, Pipeline.arrRef spec0 w ≠ b) :
    Wfin m ρ c (Proc.devRef .tc b) = m ((c : Thread nD τ).loc b) :=
  calc Wfin m ρ c (Proc.devRef .tc b)
    _ = Wexit m ρ c (Proc.devRef .tc b) := keep_hostOps1 _ b hb
    _ = W7 m ρ c (Proc.devRef .tc b) := Wexit_of_ne m ρ c b hw
    _ = W6 m ρ c (Proc.devRef .tc b) := keep_hostOps0_6 _ b hb
    _ = W5 m ρ c (Proc.devRef .tc b) := keep_hostOps0_5 _ b hb
    _ = W4 m ρ c (Proc.devRef .tc b) := keep_hostOps0_4 _ b hb
    _ = W3 m ρ c (Proc.devRef .tc b) := keep_hostOps0_3 _ b hb
    _ = W2 m ρ c (Proc.devRef .tc b) := keep_hostOps0_2 _ b hb
    _ = W1 m ρ c (Proc.devRef .tc b) := keep_hostOps0_1 _ b hb
    _ = W0 m ρ c (Proc.devRef .tc b) := keep_hostOps0 _ b hb
    _ = m ((c : Thread nD τ).loc b) := rfl

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (Ventry m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wfin m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ventry m ρ) c).loose
  hwaits := Pipeline.hwaits_of_owed_zero _ _ _ _ L lv 0 fun _ _ => rfl
  pre c := iprop(StableHlo.held (c : Thread nD τ) (Pipeline.ucRefs τ sig) (Wentry m ρ c) ∗ R c)
  post c := iprop(StableHlo.held (c : Thread nD τ) (Pipeline.ucRefs τ sig) (Wexit m ρ c) ∗ R c)
  X c := iprop(∃ r, prngReg c r)
  Y c := iprop(∃ r, prngReg c r)
  Z c := Pipeline.unscopedRest (Ix := Unit) (Name := ℕ) (U := UR sig nD τ) (Lvl := ℕ) spec0 c (Ventry m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ventry m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ventry m ρ c) (Vexit m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub (W0 m ρ)),
    .host (hseg hostOps0_1 hostOps0_1_sub (W1 m ρ)),
    .host (hseg hostOps0_2 hostOps0_2_sub (W2 m ρ)),
    .host (hseg hostOps0_3 hostOps0_3_sub (W3 m ρ)),
    .host (hseg hostOps0_4 hostOps0_4_sub (W4 m ρ)),
    .host (hseg hostOps0_5 hostOps0_5_sub (W5 m ρ)),
    .host (hseg hostOps0_6 hostOps0_6_sub (W6 m ρ)),
    .region (reg0 m ρ),
    .host (hseg hostOps1 hostOps1_sub (Wexit m ρ)) ]
theorem main_run (c : Dev nD) : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c => by
    repeat' apply And.intro
    all_goals exact (h c _ (mem_uc _ (by decide))).trans (Wfin_of_arg m ρ c _ (by decide) (by decide))) (run_all m ρ)

end Cert.Kernel.Fused

end
-- ==== Proof.KIBody.lean ====
import proofs.«145920_g2000606511304043_pallasbulk_952_2_alg».proof.Proof.Gen.KernelIdeal.Skeleton
import proofs.«145920_g2000606511304043_pallasbulk_952_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def bodyRun (c : Dev nD) (i : grid0.Coords) (arg1 : Memref sig .tc .vmem S1x4356x128 .bf16) (harg1 : arg1.IsWhole) (arg2 : Memref sig .tc .vmem S4356x1 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S9x256x512 .bf16) (harg5 : arg5.IsWhole) (arg6 : Memref sig .tc .vmem S1x512 .f32) (harg6 : arg6.IsWhole) (arg7 : Memref sig .tc .vmem S9x256x256 .bf16) (harg7 : arg7.IsWhole) (arg8 : Memref sig .tc .vmem S1x256 .f32) (harg8 : arg8.IsWhole) (arg9 : Memref sig .tc .vmem S9x256x256 .bf16) (harg9 : arg9.IsWhole) (arg10 : Memref sig .tc .vmem S1x256 .f32) (harg10 : arg10.IsWhole) (arg11 : Memref sig .tc .vmem S256x255 .bf16) (harg11 : arg11.IsWhole) (arg12 : Memref sig .tc .vmem S256x255 .bf16) (harg12 : arg12.IsWhole) (arg13 : Memref sig .tc .vmem S1x255 .f32) (harg13 : arg13.IsWhole) (arg14 : Memref sig .tc .vmem S1x4356x255 .f32) (harg14 : arg14.IsWhole) (arg15 : Memref sig .tc .vmem S4528x256 .bf16) (harg15 : arg15.IsWhole) (arg16 : Memref sig .tc .vmem S4528x256 .bf16) (harg16 : arg16.IsWhole) (arg17 : Memref sig .tc .vmem S4528x256 .bf16) (harg17 : arg17.IsWhole)
    (x0 : Vec F S1x4356x128 .bf16) (x1 : Vec F S4356x1 .f32) (x2 : Vec F S128x256 .bf16) (x3 : Vec F S1x256 .f32) (x4 : Vec F S9x256x512 .bf16) (x5 : Vec F S1x512 .f32) (x6 : Vec F S9x256x256 .bf16) (x7 : Vec F S1x256 .f32) (x8 : Vec F S9x256x256 .bf16) (x9 : Vec F S1x256 .f32) (x10 : Vec F S256x255 .bf16) (x11 : Vec F S256x255 .bf16) (x12 : Vec F S1x255 .f32) :
    { L : List (View.Piece (Elt F) S1x4356x255 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
                ∗ (∃ f, arg14.view.loc (c : Thread nD τ) ↦[arg14.view.set]{fullShare} arg14.view.writes (Elt F) f L)
                ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0__fused_head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0__fused_head_kernel_eq_skeleton]; unfold cc0__fused_head_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec_parts
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

end Cert.KernelIdeal.Fused

end
-- ==== Proof.KILaunch.lean ====
import proofs.«145920_g2000606511304043_pallasbulk_952_2_alg».proof.Proof.KIBody
import proofs.«145920_g2000606511304043_pallasbulk_952_2_alg».proof.Proof.KILaunchKit
import Idealize.ShloMosaic.Lib.Pipeline.RegionsLoop
import Idealize.ShloMosaic.Lib.Pipeline.FrameSuffix

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev VO13 : View sig .tc .vmem S1x4356x255 .f32 := (Memref.whole cc0_stg13_0 : Memref sig .tc .vmem S1x4356x255 .f32).view
abbrev scM0 : Memref sig .tc .vmem S4528x256 .bf16 := Memref.whole cc0_scratch0
abbrev scM1 : Memref sig .tc .vmem S4528x256 .bf16 := Memref.whole cc0_scratch1
abbrev scM2 : Memref sig .tc .vmem S4528x256 .bf16 := Memref.whole cc0_scratch2

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

abbrev runAt (c : Dev nD) (t : Fin cfg0.N) :=
  bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) scM0 (Memref.isWhole_whole _) scM1 (Memref.isWhole_whole _) scM2 (Memref.isWhole_whole _)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)

-- the body stores the whole output block once
theorem cover13 (c : Dev nD) (t : Fin cfg0.N) (y : S1x4356x255.Idx) : ∃ pc ∈ (runAt V c t).1, y ∈ pc.1.set :=
  View.cover_of_tiledL _ S1x4356x255.size (by sl_kernel_rfl) y

def outAt (c : Dev nD) (t : Fin cfg0.N) : Vec F S1x4356x255 .f32 :=
  VO13.read (Elt F) (VO13.writes (Elt F) VO13.junk (runAt V c t).1)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => outAt V c t
  Φ _ := Pipeline.ΦA spec0 c
  q _ := fullShare
  owed _ := 0

theorem after0_13 (c : Dev nD) (t : Fin cfg0.N) : (dat0 V c).after 13 t = outAt V c t := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) ∧ (∀ d, (dat0 V c).before 9 t d = iblk0 V c 9 t) ∧ (∀ d, (dat0 V c).before 10 t d = iblk0 V c 10 t) ∧ (∀ d, (dat0 V c).before 11 t d = iblk0 V c 11 t) ∧ (∀ d, (dat0 V c).before 12 t d = iblk0 V c 12 t) := by
  refine ⟨?_, ?_, ?_, ?_, ?_, ?_, ?_, ?_, ?_, ?_, ?_, ?_, ?_⟩ <;> exact fun d =>
    ((dat0 V c).before_in_eq_fetched _ rfl (fun _ => rfl) (fun _ _ _ => rfl) (fun _ => rfl) t d).trans rfl

def bodyPre0 (c : Dev nD) (t : Fin cfg0.N) : sProp 𝕄 :=
  iprop(Pipeline.ΦA spec0 c ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d))
    ∗ (∃ d, owns (c : Thread nD τ) (win0_9.stage (cfg0.slots t 9)) fullShare ((dat0 V c).before 9 t d))
    ∗ (∃ d, owns (c : Thread nD τ) (win0_10.stage (cfg0.slots t 10)) fullShare ((dat0 V c).before 10 t d))
    ∗ (∃ d, owns (c : Thread nD τ) (win0_11.stage (cfg0.slots t 11)) fullShare ((dat0 V c).before 11 t d))
    ∗ (∃ d, owns (c : Thread nD τ) (win0_12.stage (cfg0.slots t 12)) fullShare ((dat0 V c).before 12 t d))
    ∗ (∃ d, owns (c : Thread nD τ) (win0_13.stage (cfg0.slots t 13)) fullShare ((dat0 V c).before 13 t d)))

def bodyPost0 (c : Dev nD) (t : Fin cfg0.N) : sProp 𝕄 :=
  iprop(Pipeline.ΦA spec0 c ∗ (dat0 V c).owesAt () t.succ
    ∗ owns (c : Thread nD τ) (win0_0.stage (cfg0.slots t 0)) fullShare (iblk0 V c 0 t)
    ∗ owns (c : Thread nD τ) (win0_1.stage (cfg0.slots t 1)) fullShare (iblk0 V c 1 t)
    ∗ owns (c : Thread nD τ) (win0_2.stage (cfg0.slots t 2)) fullShare (iblk0 V c 2 t)
    ∗ owns (c : Thread nD τ) (win0_3.stage (cfg0.slots t 3)) fullShare (iblk0 V c 3 t)
    ∗ owns (c : Thread nD τ) (win0_4.stage (cfg0.slots t 4)) fullShare (iblk0 V c 4 t)
    ∗ owns (c : Thread nD τ) (win0_5.stage (cfg0.slots t 5)) fullShare (iblk0 V c 5 t)
    ∗ owns (c : Thread nD τ) (win0_6.stage (cfg0.slots t 6)) fullShare (iblk0 V c 6 t)
    ∗ owns (c : Thread nD τ) (win0_7.stage (cfg0.slots t 7)) fullShare (iblk0 V c 7 t)
    ∗ owns (c : Thread nD τ) (win0_8.stage (cfg0.slots t 8)) fullShare (iblk0 V c 8 t)
    ∗ owns (c : Thread nD τ) (win0_9.stage (cfg0.slots t 9)) fullShare (iblk0 V c 9 t)
    ∗ owns (c : Thread nD τ) (win0_10.stage (cfg0.slots t 10)) fullShare (iblk0 V c 10 t)
    ∗ owns (c : Thread nD τ) (win0_11.stage (cfg0.slots t 11)) fullShare (iblk0 V c 11 t)
    ∗ owns (c : Thread nD τ) (win0_12.stage (cfg0.slots t 12)) fullShare (iblk0 V c 12 t)
    ∗ owns (c : Thread nD τ) (win0_13.stage (cfg0.slots t 13)) fullShare (outAt V c t))

theorem sound_body0 (c : Dev nD) (t : Fin cfg0.N) :
    bodyPre0 V c t ⊢ wp frame (wpE (defs₀ (F := F)) Variants.none c none) Set.univ (bodyAt0 t) (fun _ => bodyPost0 V c t) := by
  obtain ⟨b0, b1, b2, b3, b4, b5, b6, b7, b8, b9, b10, b11, b12⟩ := before0 V c t
  unfold bodyPre0 bodyPost0 bodyAt0
  simp only [b0, b1, b2, b3, b4, b5, b6, b7, b8, b9, b10, b11, b12]
  rw [show (dat0 V c).owesAt () t.succ = (dat0 V c).owesAt () t.castSucc from rfl, PhiA0_eq]
  unfold outAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runAt V c t).2 Set.univ _)
  iframe H0 H1 H2 H3 H4 H5 H6 H7 H8 H9 H10 H11 H12 HS0 HS1 HS2
  isplitl [H13]; · iexists _; iexact H13
  iintro ⟨H0, H1, H2, H3, H4, H5, H6, H7, H8, H9, H10, H11, H12, ⟨%e13, H13⟩, HS0, HS1, HS2⟩
  iframe HS0 HS1 HS2 Hg Ho H0 H1 H2 H3 H4 H5 H6 H7 H8 H9 H10 H11 H12
  unfold owns; iexists _; isplitr
  swap; · iexact H13
  ipureintro; exact View.read_writes_of_cover _ _ _ _ _ (cover13 V c t)

theorem body_obligation0 (c : Dev nD) : BodyObligation (dat0 (F := F) V c) (defs₀ (F := F)) Variants.none () Set.univ := fun t => by
  rw [bigSep_W0, bigSep_W0]
  dsimp only [dat0]
  exact sound_body0 V c t

end Region

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev Wentry : Dev nD → Valuation τ sig (Elt F) := W7 m ρ
abbrev Ventry : (c : Dev nD) → (b : Ref sig .tc) → Buf (Elt F) ((c : Thread nD τ).loc b) := fun c b => Wentry m ρ c b
def Wexit (c : Dev nD) : Valuation τ sig (Elt F) :=
  Pipeline.withArrays spec0 c (Wentry m ρ c) fun w => (dat0 (Ventry m ρ) c).arrAt w cfg0.N
theorem Wexit_arr (c : Dev nD) (w : Fin cfg0.W) :
    Wexit m ρ c (Proc.devRef .tc (Pipeline.arrRef spec0 w)) = (dat0 (Ventry m ρ) c).arrAt w cfg0.N := by
  unfold Wexit; exact Pipeline.withArrays_arr spec0 launch0.win.arr_inj c _ _ w
theorem Wexit_of_ne (c : Dev nD) (b : Ref sig .tc) (hb : ∀ w, Pipeline.arrRef spec0 w ≠ b) :
    Wexit m ρ c (Proc.devRef .tc b) = Wentry m ρ c (Proc.devRef .tc b) := by
  unfold Wexit; exact Pipeline.withArrays_of_ne spec0 c _ _ b hb
abbrev Vexit : (c : Dev nD) → (b : Ref sig .tc) → Buf (Elt F) ((c : Thread nD τ).loc b) := fun c b => Wexit m ρ c b
theorem hF0 (c : Dev nD) (w : Fin cfg0.W) : (dat0 (Ventry m ρ) c).arrAt w cfg0.N = Vexit m ρ c (Pipeline.arrRef spec0 w) :=
  (Wexit_arr m ρ c w).symm
theorem hrest0 (c : Dev nD) : ∀ b, b ∉ Finset.univ.image (Pipeline.arrRef spec0) → Vexit m ρ c b = Ventry m ρ c b :=
  fun b hb => Wexit_of_ne m ρ c b fun w e => hb (Finset.mem_image.mpr ⟨w, Finset.mem_univ _, e⟩)
abbrev Wfin : Dev nD → Valuation τ sig (Elt F) := fun c => StableHlo.after hostOps1 (Wexit m ρ c)

-- the operations `ops` leave buffer `b` as it was
abbrev Keeps (b : Ref sig .tc) (ops : List (HloOp τ sig (Elt F))) : Prop :=
  ∀ W, StableHlo.after ops W (Proc.devRef .tc b) = W (Proc.devRef .tc b)

-- every reference one of these operations writes has index at least 32
theorem keep_all (b : Ref sig .tc) (hb : b.idx.val < 32) :
    Keeps b (hostOps0 (F := F)) ∧ Keeps b (hostOps0_1 (F := F)) ∧ Keeps b (hostOps0_2 (F := F)) ∧ Keeps b (hostOps0_3 (F := F)) ∧ Keeps b (hostOps0_4 (F := F)) ∧ Keeps b (hostOps0_5 (F := F)) ∧ Keeps b (hostOps0_6 (F := F)) ∧ Keeps b (hostOps1 (F := F)) := by
  refine ⟨?_, ?_, ?_, ?_, ?_, ?_, ?_, ?_⟩
  all_goals
    intro W
    refine StableHlo.after_of_forall_not_mem (b := Proc.devRef .tc b) _ _ (List.forall_iff_forall_mem.mp ?_)
    simp only [hostOps0, hostOps0_1, hostOps0_2, hostOps0_3, hostOps0_4, hostOps0_5, hostOps0_6, hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (fun e => by subst e; exact absurd hb (by decide))

section Keep
variable (W : Valuation τ sig (Elt F)) (b : Ref sig .tc) (hb : b.idx.val < 32)
include hb
theorem keep_hostOps0 : StableHlo.after (hostOps0 (F := F)) W (Proc.devRef .tc b) = W (Proc.devRef .tc b) := (keep_all b hb).1 W
theorem keep_hostOps0_1 : StableHlo.after (hostOps0_1 (F := F)) W (Proc.devRef .tc b) = W (Proc.devRef .tc b) := (keep_all b hb).2.1 W
theorem keep_hostOps0_2 : StableHlo.after (hostOps0_2 (F := F)) W (Proc.devRef .tc b) = W (Proc.devRef .tc b) := (keep_all b hb).2.2.1 W
theorem keep_hostOps0_3 : StableHlo.after (hostOps0_3 (F := F)) W (Proc.devRef .tc b) = W (Proc.devRef .tc b) := (keep_all b hb).2.2.2.1 W
theorem keep_hostOps0_4 : StableHlo.after (hostOps0_4 (F := F)) W (Proc.devRef .tc b) = W (Proc.devRef .tc b) := (keep_all b hb).2.2.2.2.1 W
theorem keep_hostOps0_5 : StableHlo.after (hostOps0_5 (F := F)) W (Proc.devRef .tc b) = W (Proc.devRef .tc b) := (keep_all b hb).2.2.2.2.2.1 W
theorem keep_hostOps0_6 : StableHlo.after (hostOps0_6 (F := F)) W (Proc.devRef .tc b) = W (Proc.devRef .tc b) := (keep_all b hb).2.2.2.2.2.2.1 W
theorem keep_hostOps1 : StableHlo.after (hostOps1 (F := F)) W (Proc.devRef .tc b) = W (Proc.devRef .tc b) := (keep_all b hb).2.2.2.2.2.2.2 W
end Keep

theorem Wfin_of_arg (c : Dev nD) (b : Ref sig .tc) (hb : b.idx.val < 32) (hw : ∀ w, Pipeline.arrRef spec0 w ≠ b) :
    Wfin m ρ c (Proc.devRef .tc b) = m ((c : Thread nD τ).loc b) :=
  calc Wfin m ρ c (Proc.devRef .tc b)
    _ = Wexit m ρ c (Proc.devRef .tc b) := keep_hostOps1 _ b hb
    _ = W7 m ρ c (Proc.devRef .tc b) := Wexit_of_ne m ρ c b hw
    _ = W6 m ρ c (Proc.devRef .tc b) := keep_hostOps0_6 _ b hb
    _ = W5 m ρ c (Proc.devRef .tc b) := keep_hostOps0_5 _ b hb
    _ = W4 m ρ c (Proc.devRef .tc b) := keep_hostOps0_4 _ b hb
    _ = W3 m ρ c (Proc.devRef .tc b) := keep_hostOps0_3 _ b hb
    _ = W2 m ρ c (Proc.devRef .tc b) := keep_hostOps0_2 _ b hb
    _ = W1 m ρ c (Proc.devRef .tc b) := keep_hostOps0_1 _ b hb
    _ = W0 m ρ c (Proc.devRef .tc b) := keep_hostOps0 _ b hb
    _ = m ((c : Thread nD τ).loc b) := rfl

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (Ventry m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wfin m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ventry m ρ) c).loose
  hwaits := Pipeline.hwaits_of_owed_zero _ _ _ _ L lv 0 fun _ _ => rfl
  pre c := iprop(StableHlo.held (c : Thread nD τ) (Pipeline.ucRefs τ sig) (Wentry m ρ c) ∗ R c)
  post c := iprop(StableHlo.held (c : Thread nD τ) (Pipeline.ucRefs τ sig) (Wexit m ρ c) ∗ R c)
  X c := iprop(∃ r, prngReg c r)
  Y c := iprop(∃ r, prngReg c r)
  Z c := Pipeline.unscopedRest (Ix := Unit) (Name := ℕ) (U := UR sig nD τ) (Lvl := ℕ) spec0 c (Ventry m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ventry m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ventry m ρ c) (Vexit m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub (W0 m ρ)),
    .host (hseg hostOps0_1 hostOps0_1_sub (W1 m ρ)),
    .host (hseg hostOps0_2 hostOps0_2_sub (W2 m ρ)),
    .host (hseg hostOps0_3 hostOps0_3_sub (W3 m ρ)),
    .host (hseg hostOps0_4 hostOps0_4_sub (W4 m ρ)),
    .host (hseg hostOps0_5 hostOps0_5_sub (W5 m ρ)),
    .host (hseg hostOps0_6 hostOps0_6_sub (W6 m ρ)),
    .region (reg0 m ρ),
    .host (hseg hostOps1 hostOps1_sub (Wexit m ρ)) ]
theorem main_run (c : Dev nD) : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c => by
    repeat' apply And.intro
    all_goals exact (h c _ (mem_uc _ (by decide))).trans (Wfin_of_arg m ρ c _ (by decide) (by decide))) (run_all m ρ)

end Cert.KernelIdeal.Fused

end
-- ==== Proof.Spec.lean ====
import Idealize.ShloMosaic.PureOps.Ideal
import Idealize.ShloMosaic.Lib.ValueIdx

noncomputable section

open scoped BigOperators

namespace Cert.HeadSpec

open Idealize.ShloMosaic Idealize.ShloMosaic.ValueIdx

abbrev Arr (s : Shape) := FVec Ideal s .f32

def silu (y : EReal) : EReal :=
  Ideal.div y (Ideal.ofBits .f32 0x3F800000#32 + Ideal.exp (Ideal.ofBits .f32 0x00000000#32 - y))

structure Weights where
  wm : Arr ⟨2, ![128, 256]⟩
  bm : Arr ⟨2, ![1, 256]⟩
  w1c : Arr ⟨3, ![9, 256, 256]⟩
  b1c : Arr ⟨2, ![1, 256]⟩
  w1r : Arr ⟨3, ![9, 256, 256]⟩
  b1r : Arr ⟨2, ![1, 256]⟩
  w2c : Arr ⟨3, ![9, 256, 256]⟩
  b2c : Arr ⟨2, ![1, 256]⟩
  w2r : Arr ⟨3, ![9, 256, 256]⟩
  b2r : Arr ⟨2, ![1, 256]⟩
  wro : Arr ⟨2, ![256, 15]⟩
  bro : Arr ⟨2, ![1, 15]⟩
  wcl : Arr ⟨2, ![256, 240]⟩
  bcl : Arr ⟨2, ![1, 240]⟩

abbrev Fmap := Fin 64 → Fin 64 → Fin 256 → EReal

def feat (x : Arr ⟨4, ![16, 128, 64, 64]⟩) (W : Weights) (n : Fin 16) : Fmap := fun i j c =>
  silu ((∑ ch : Fin 128, x (ix4 n ch i j) * W.wm (ix2 ch c)) + W.bm (ix2 0 c))

def pad1 (f : Fmap) (a b : Fin 66) (c : Fin 256) : EReal :=
  if h : 1 ≤ a.val ∧ a.val ≤ 64 ∧ 1 ≤ b.val ∧ b.val ≤ 64 then
    f ⟨a.val - 1, by omega⟩ ⟨b.val - 1, by omega⟩ c
  else 0

def tap (w : Arr ⟨3, ![9, 256, 256]⟩) (f : Fmap) (k : Fin 9) (i j : Fin 64) (c : Fin 256) : EReal :=
  ∑ c' : Fin 256, pad1 f ⟨i.val + k.val / 3, by omega⟩ ⟨j.val + k.val % 3, by omega⟩ c' * w (ix3 k c' c)

def taps (w : Arr ⟨3, ![9, 256, 256]⟩) (f : Fmap) (i j : Fin 64) (c : Fin 256) : EReal :=
  tap w f 0 i j c + tap w f 1 i j c + tap w f 2 i j c + tap w f 3 i j c + tap w f 4 i j c
    + tap w f 5 i j c + tap w f 6 i j c + tap w f 7 i j c + tap w f 8 i j c

def conv3 (w : Arr ⟨3, ![9, 256, 256]⟩) (b : Arr ⟨2, ![1, 256]⟩) (f : Fmap) : Fmap := fun i j c =>
  silu (taps w f i j c + b (ix2 0 c))

def clsF (x : Arr ⟨4, ![16, 128, 64, 64]⟩) (W : Weights) (n : Fin 16) : Fmap :=
  conv3 W.w2c W.b2c (conv3 W.w1c W.b1c (feat x W n))
def regF (x : Arr ⟨4, ![16, 128, 64, 64]⟩) (W : Weights) (n : Fin 16) : Fmap :=
  conv3 W.w2r W.b2r (conv3 W.w1r W.b1r (feat x W n))

def out (x : Arr ⟨4, ![16, 128, 64, 64]⟩) (W : Weights) (n : Fin 16) (k : Fin 255) (i j : Fin 64) : EReal :=
  if h : k.val < 15 then
    (∑ c : Fin 256, regF x W n i j c * W.wro (ix2 c ⟨k.val, h⟩)) + W.bro (ix2 0 ⟨k.val, h⟩)
  else
    (∑ c : Fin 256, clsF x W n i j c * W.wcl (ix2 c ⟨k.val - 15, by omega⟩)) + W.bcl (ix2 0 ⟨k.val - 15, by omega⟩)

def headArr (x : Arr ⟨4, ![16, 128, 64, 64]⟩) (W : Weights) : Arr ⟨4, ![16, 255, 64, 64]⟩ := fun idx =>
  out x W (idx 0) (idx 1) (idx 2) (idx 3)

theorem silu_apply {s : Shape} (y : FVec Ideal s .f32) (i : s.Idx) :
    divf y (addf (broadcast s (Scalar.ofBits (F := Ideal) .f32 0x3F800000#32))
      (exp (subf (broadcast s (Scalar.ofBits (F := Ideal) .f32 0x00000000#32)) y))) i = silu (y i) := rfl

namespace K

structure In where
  xp : Arr ⟨3, ![16, 4356, 128]⟩
  mask : Arr ⟨2, ![4356, 1]⟩
  wm : Arr ⟨2, ![128, 256]⟩
  bm : Arr ⟨2, ![1, 256]⟩
  w1 : Arr ⟨3, ![9, 256, 512]⟩
  b1 : Arr ⟨2, ![1, 512]⟩
  w2c : Arr ⟨3, ![9, 256, 256]⟩
  b2c : Arr ⟨2, ![1, 256]⟩
  w2r : Arr ⟨3, ![9, 256, 256]⟩
  b2r : Arr ⟨2, ![1, 256]⟩
  whr : Arr ⟨2, ![256, 255]⟩
  whc : Arr ⟨2, ![256, 255]⟩
  bh : Arr ⟨2, ![1, 255]⟩

abbrev Rows (N : Nat) := Fin 4356 → Fin N → EReal

def off (k : Fin 9) : Nat := 13 + 66 * (k.val / 3) + k.val % 3

theorem off_le (k : Fin 9) : off k ≤ 147 := by have := k.isLt; unfold off; omega

def scr (f : Rows 256) (r : Fin 4528) (c : Fin 256) : EReal :=
  if h : 80 ≤ r.val ∧ r.val < 4436 then f ⟨r.val - 80, by omega⟩ c else 0

def tap {N : Nat} (w : Arr ⟨3, ![9, 256, N]⟩) (f : Rows 256) (k : Fin 9) (q : Fin 4356) (c : Fin N) : EReal :=
  ∑ c' : Fin 256, scr f ⟨q.val + off k, by have := off_le k; omega⟩ c' * w (ix3 k c' c)

def taps {N : Nat} (w : Arr ⟨3, ![9, 256, N]⟩) (f : Rows 256) (q : Fin 4356) (c : Fin N) : EReal :=
  tap w f 0 q c + tap w f 1 q c + tap w f 2 q c + tap w f 3 q c + tap w f 4 q c
    + tap w f 5 q c + tap w f 6 q c + tap w f 7 q c + tap w f 8 q c

def fe (I : In) (n : Fin 16) : Rows 256 := fun q c =>
  silu ((∑ ch : Fin 128, I.xp (ix3 n q ch) * I.wm (ix2 ch c)) + I.bm (ix2 0 c)) * I.mask (ix2 q 0)

def s1 (I : In) (n : Fin 16) : Rows 512 := fun q c =>
  silu (taps I.w1 (fe I n) q c + I.b1 (ix2 0 c)) * I.mask (ix2 q 0)
def cb (I : In) (n : Fin 16) : Rows 256 := fun q c => s1 I n q ⟨c.val, by omega⟩
def rb (I : In) (n : Fin 16) : Rows 256 := fun q c => s1 I n q ⟨256 + c.val, by omega⟩

def clsK (I : In) (n : Fin 16) : Rows 256 := fun q c =>
  silu (taps I.w2c (cb I n) q c + I.b2c (ix2 0 c)) * I.mask (ix2 q 0)
def regK (I : In) (n : Fin 16) : Rows 256 := fun q c =>
  silu (taps I.w2r (rb I n) q c + I.b2r (ix2 0 c)) * I.mask (ix2 q 0)

def outK (I : In) (n : Fin 16) (q : Fin 4356) (k : Fin 255) : EReal :=
  (∑ c : Fin 256, regK I n q c * I.whr (ix2 c k)) + (∑ c : Fin 256, clsK I n q c * I.whc (ix2 c k)) + I.bh (ix2 0 k)

def row (i j : Fin 64) : Fin 4356 := ⟨(i.val + 1) * 66 + (j.val + 1), by omega⟩

structure Layout (x : Arr ⟨4, ![16, 128, 64, 64]⟩) (W : Weights) (I : In) : Prop where
  xp : ∀ (n : Fin 16) (i j : Fin 64) (ch : Fin 128), I.xp (ix3 n (row i j) ch) = x (ix4 n ch i j)
  mask : ∀ q : Fin 4356, I.mask (ix2 q 0) =
    if 1 ≤ q.val / 66 ∧ q.val / 66 ≤ 64 ∧ 1 ≤ q.val % 66 ∧ q.val % 66 ≤ 64 then 1 else 0
  wm : I.wm = W.wm
  bm : I.bm = W.bm
  w1 : ∀ (k : Fin 9) (c' : Fin 256) (c : Fin 512), I.w1 (ix3 k c' c) =
    if h : c.val < 256 then W.w1c (ix3 k c' ⟨c.val, h⟩) else W.w1r (ix3 k c' ⟨c.val - 256, by omega⟩)
  b1 : ∀ c : Fin 512, I.b1 (ix2 0 c) =
    if h : c.val < 256 then W.b1c (ix2 0 ⟨c.val, h⟩) else W.b1r (ix2 0 ⟨c.val - 256, by omega⟩)
  w2c : I.w2c = W.w2c
  b2c : I.b2c = W.b2c
  w2r : I.w2r = W.w2r
  b2r : I.b2r = W.b2r
  whr : ∀ (c : Fin 256) (k : Fin 255), I.whr (ix2 c k) = if h : k.val < 15 then W.wro (ix2 c ⟨k.val, h⟩) else 0
  whc : ∀ (c : Fin 256) (k : Fin 255), I.whc (ix2 c k) =
    if h : k.val < 15 then 0 else W.wcl (ix2 c ⟨k.val - 15, by omega⟩)
  bh : ∀ k : Fin 255, I.bh (ix2 0 k) =
    if h : k.val < 15 then W.bro (ix2 0 ⟨k.val, h⟩) else W.bcl (ix2 0 ⟨k.val - 15, by omega⟩)

end K

namespace R

def pointwise (x2d : Arr ⟨2, ![65536, 128]⟩) (w : Arr ⟨2, ![128, 256]⟩) (b : Arr ⟨2, ![1, 256]⟩)
    (r : Fin 65536) (c : Fin 256) : EReal :=
  silu ((∑ ch : Fin 128, x2d (ix2 r ch) * w (ix2 ch c)) + b (ix2 0 c))

def tap (xp : Arr ⟨4, ![16, 66, 66, 256]⟩) (w : Arr ⟨3, ![9, 256, 256]⟩) (k : Fin 9) (n : Fin 16) (p : Fin 4096)
    (c : Fin 256) : EReal :=
  ∑ c' : Fin 256, xp (ix4 n ⟨p.val / 64 + k.val / 3, by omega⟩ ⟨p.val % 64 + k.val % 3, by omega⟩ c') * w (ix3 k c' c)

def conv (xp : Arr ⟨4, ![16, 66, 66, 256]⟩) (w : Arr ⟨3, ![9, 256, 256]⟩) (b : Arr ⟨2, ![1, 256]⟩)
    (n : Fin 16) (p : Fin 4096) (c : Fin 256) : EReal :=
  silu ((Ideal.ofBits .f32 0x00000000#32 + tap xp w 0 n p c + tap xp w 1 n p c + tap xp w 2 n p c + tap xp w 3 n p c
    + tap xp w 4 n p c + tap xp w 5 n p c + tap xp w 6 n p c + tap xp w 7 n p c + tap xp w 8 n p c) + b (ix2 0 c))

def head {N : Nat} (f2d : Arr ⟨2, ![65536, 256]⟩) (w : Arr ⟨2, ![256, N]⟩) (b : Arr ⟨2, ![1, N]⟩)
    (r : Fin 65536) (k : Fin N) : EReal :=
  (∑ c : Fin 256, f2d (ix2 r c) * w (ix2 c k)) + b (ix2 0 k)

def prow (n : Fin 16) (i j : Fin 64) : Fin 65536 := ⟨n.val * 4096 + i.val * 64 + j.val, by omega⟩
def pix (i j : Fin 64) : Fin 4096 := ⟨i.val * 64 + j.val, by omega⟩

def IsPad (f : Fin 16 → Fin 4096 → Fin 256 → EReal) (P : Arr ⟨4, ![16, 66, 66, 256]⟩) : Prop :=
  ∀ (n : Fin 16) (a b : Fin 66) (c : Fin 256), P (ix4 n a b c) =
    if h : 1 ≤ a.val ∧ a.val ≤ 64 ∧ 1 ≤ b.val ∧ b.val ≤ 64 then
      f n (pix ⟨a.val - 1, by omega⟩ ⟨b.val - 1, by omega⟩) c else 0

structure Chain (x : Arr ⟨4, ![16, 128, 64, 64]⟩) (W : Weights) where
  x2d : Arr ⟨2, ![65536, 128]⟩
  featP : Arr ⟨4, ![16, 66, 66, 256]⟩
  c1P : Arr ⟨4, ![16, 66, 66, 256]⟩
  r1P : Arr ⟨4, ![16, 66, 66, 256]⟩
  cls2d : Arr ⟨2, ![65536, 256]⟩
  reg2d : Arr ⟨2, ![65536, 256]⟩
  res : Arr ⟨4, ![16, 255, 64, 64]⟩
  hx : ∀ (n : Fin 16) (i j : Fin 64) (ch : Fin 128), x2d (ix2 (prow n i j) ch) = x (ix4 n ch i j)
  hfeat : IsPad (fun n p c => pointwise x2d W.wm W.bm ⟨n.val * 4096 + p.val, by omega⟩ c) featP
  hc1 : IsPad (fun n p c => conv featP W.w1c W.b1c n p c) c1P
  hr1 : IsPad (fun n p c => conv featP W.w1r W.b1r n p c) r1P
  hcls : ∀ (n : Fin 16) (p : Fin 4096) (c : Fin 256),
    cls2d (ix2 ⟨n.val * 4096 + p.val, by omega⟩ c) = conv c1P W.w2c W.b2c n p c
  hreg : ∀ (n : Fin 16) (p : Fin 4096) (c : Fin 256),
    reg2d (ix2 ⟨n.val * 4096 + p.val, by omega⟩ c) = conv r1P W.w2r W.b2r n p c
  hres : ∀ (n : Fin 16) (k : Fin 255) (i j : Fin 64), res (ix4 n k i j) =
    if h : k.val < 15 then head reg2d W.wro W.bro (prow n i j) ⟨k.val, h⟩
    else head cls2d W.wcl W.bcl (prow n i j) ⟨k.val - 15, by omega⟩

end R

end Cert.HeadSpec

end
-- ==== Proof.HostW.lean ====
import proofs.«145920_g2000606511304043_pallasbulk_952_2_alg».proof.ReferenceIdeal
import proofs.«145920_g2000606511304043_pallasbulk_952_2_alg».proof.Proof.Spec

noncomputable section

namespace Cert.HostW

open Idealize.ShloMosaic
open Cert.ReferenceIdeal
open Cert.HeadSpec (Arr Weights)

theorem bc_eps : S_.BroadcastsInDim S256 (![] : Fin 0 → Fin S256.rank) := by decide
theorem bc_col : S256.BroadcastsInDim S256x1x1x1 (![0] : Fin 1 → Fin S256x1x1x1.rank) := by decide
theorem bc_w1 : S256x1x1x1.BroadcastsInDim S256x128x1x1 (![0, 1, 2, 3] : Fin 4 → Fin S256x128x1x1.rank) := by decide
theorem bc_w3 : S256x1x1x1.BroadcastsInDim S256x256x3x3 (![0, 1, 2, 3] : Fin 4 → Fin S256x256x3x3.rank) := by decide
theorem bc_row : S256.BroadcastsInDim S1x256 (![1] : Fin 1 → Fin S1x256.rank) := by decide
theorem bc_row15 : S15.BroadcastsInDim S1x15 (![1] : Fin 1 → Fin S1x15.rank) := by decide
theorem bc_row240 : S240.BroadcastsInDim S1x240 (![1] : Fin 1 → Fin S1x240.rank) := by decide
theorem sc_w1 : S256x128x1x1.ShapeCasts S256x128 := by decide
theorem tr_w1 : S256x128.Transposes [1, 0] S128x256 := by decide
theorem tr_w3 : S256x256x3x3.Transposes [2, 3, 1, 0] S3x3x256x256 := by decide
theorem sc_w3 : S3x3x256x256.ShapeCasts S9x256x256 := by decide
theorem sc_12 : S12x256x1x1.ShapeCasts S12x256 := by decide
theorem tr_12 : S12x256.Transposes [1, 0] S256x12 := by decide
theorem sc_3 : S3x256x1x1.ShapeCasts S3x256 := by decide
theorem tr_3 : S3x256.Transposes [1, 0] S256x3 := by decide
theorem cat_w : Shape.Concatenates [S256x12, S256x3] S256x15 1 := by decide
theorem cat_b : Shape.Concatenates [S12, S3] S15 0 := by decide
theorem sc_240 : S240x256x1x1.ShapeCasts S240x256 := by decide
theorem tr_240 : S240x256.Transposes [1, 0] S256x240 := by decide

def scale (g v : Arr S256) : Arr S256 :=
  Host.divf g (Host.sqrt (addf v (broadcastInDim S256 ![] bc_eps (constant (F := Ideal) S_ .f32 0x3727C5AC#32))))

def shift (g b mu v : Arr S256) : Arr S256 := subf b (mulf mu (scale g v))
def shiftRow (g b mu v : Arr S256) : Arr S1x256 := broadcastInDim S1x256 ![1] bc_row (shift g b mu v)

def conv3s (w : Arr S256x256x3x3) (g v : Arr S256) : Arr S256x256x3x3 :=
  mulf w (broadcastInDim S256x256x3x3 ![0, 1, 2, 3] bc_w3 (broadcastInDim S256x1x1x1 ![0] bc_col (scale g v)))

def conv3t (ws : Arr S256x256x3x3) : Arr S9x256x256 :=
  shapeCast S9x256x256 (transpose S3x3x256x256 [2, 3, 1, 0] ws tr_w3) sc_w3

def conv3w (w : Arr S256x256x3x3) (g v : Arr S256) : Arr S9x256x256 := conv3t (conv3s w g v)

def wm (a1 : Arr S256x128x1x1) (a2 a5 : Arr S256) : Arr ⟨2, ![128, 256]⟩ :=
  transpose S128x256 [1, 0]
    (shapeCast S256x128
      (mulf a1 (broadcastInDim S256x128x1x1 ![0, 1, 2, 3] bc_w1 (broadcastInDim S256x1x1x1 ![0] bc_col (scale a2 a5))))
      sc_w1)
    tr_w1

def bm (a2 a3 a4 a5 : Arr S256) : Arr ⟨2, ![1, 256]⟩ := shiftRow a2 a3 a4 a5

def w1c (a6 : Arr S256x256x3x3) (a7 a10 : Arr S256) : Arr ⟨3, ![9, 256, 256]⟩ := conv3w a6 a7 a10
def b1c (a7 a8 a9 a10 : Arr S256) : Arr ⟨2, ![1, 256]⟩ := shiftRow a7 a8 a9 a10
def w2c (a11 : Arr S256x256x3x3) (a12 a15 : Arr S256) : Arr ⟨3, ![9, 256, 256]⟩ := conv3w a11 a12 a15
def b2c (a12 a13 a14 a15 : Arr S256) : Arr ⟨2, ![1, 256]⟩ := shiftRow a12 a13 a14 a15

def w1r (a16 : Arr S256x256x3x3) (a17 a20 : Arr S256) : Arr ⟨3, ![9, 256, 256]⟩ := conv3w a16 a17 a20
def b1r (a17 a18 a19 a20 : Arr S256) : Arr ⟨2, ![1, 256]⟩ := shiftRow a17 a18 a19 a20
def w2r (a21 : Arr S256x256x3x3) (a22 a25 : Arr S256) : Arr ⟨3, ![9, 256, 256]⟩ := conv3w a21 a22 a25
def b2r (a22 a23 a24 a25 : Arr S256) : Arr ⟨2, ![1, 256]⟩ := shiftRow a22 a23 a24 a25

def wro (a28 : Arr S12x256x1x1) (a30 : Arr S3x256x1x1) : Arr ⟨2, ![256, 15]⟩ :=
  concatenate S256x15 1
    [⟨S256x12, transpose S256x12 [1, 0] (shapeCast S12x256 a28 sc_12) tr_12⟩,
     ⟨S256x3, transpose S256x3 [1, 0] (shapeCast S3x256 a30 sc_3) tr_3⟩]
    cat_w

def bro (a29 : Arr S12) (a31 : Arr S3) : Arr ⟨2, ![1, 15]⟩ :=
  broadcastInDim S1x15 ![1] bc_row15 (concatenate S15 0 [⟨S12, a29⟩, ⟨S3, a31⟩] cat_b)

def wcl (a26 : Arr S240x256x1x1) : Arr ⟨2, ![256, 240]⟩ :=
  transpose S256x240 [1, 0] (shapeCast S240x256 a26 sc_240) tr_240
def bcl (a27 : Arr S240) : Arr ⟨2, ![1, 240]⟩ := broadcastInDim S1x240 ![1] bc_row240 a27

def wts (a1 : Arr S256x128x1x1) (a2 a3 a4 a5 : Arr S256)
    (a6 : Arr S256x256x3x3) (a7 a8 a9 a10 : Arr S256)
    (a11 : Arr S256x256x3x3) (a12 a13 a14 a15 : Arr S256)
    (a16 : Arr S256x256x3x3) (a17 a18 a19 a20 : Arr S256)
    (a21 : Arr S256x256x3x3) (a22 a23 a24 a25 : Arr S256)
    (a26 : Arr S240x256x1x1) (a27 : Arr S240) (a28 : Arr S12x256x1x1) (a29 : Arr S12)
    (a30 : Arr S3x256x1x1) (a31 : Arr S3) : Weights :=
  { wm := wm a1 a2 a5, bm := bm a2 a3 a4 a5
    w1c := w1c a6 a7 a10, b1c := b1c a7 a8 a9 a10
    w1r := w1r a16 a17 a20, b1r := b1r a17 a18 a19 a20
    w2c := w2c a11 a12 a15, b2c := b2c a12 a13 a14 a15
    w2r := w2r a21 a22 a25, b2r := b2r a22 a23 a24 a25
    wro := wro a28 a30, bro := bro a29 a31
    wcl := wcl a26, bcl := bcl a27 }

end Cert.HostW

end
-- ==== Proof.KIHostA.lean ====
import proofs.«145920_g2000606511304043_pallasbulk_952_2_alg».proof.Proof.KILaunch
import proofs.«145920_g2000606511304043_pallasbulk_952_2_alg».proof.Proof.Spec
import proofs.«145920_g2000606511304043_pallasbulk_952_2_alg».proof.Proof.HostW
import Idealize.ShloMosaic.Lib.StableHlo.Run
import Idealize.ShloMosaic.Lib.ValueIdx
import Idealize.ShloMosaic.Lib.Pipeline.Value
import Idealize.ShloMosaic.Lib.KernelVsHost

set_option maxRecDepth 16384

noncomputable section

namespace Cert.KernelIdeal.Fused

open Cert.KernelIdeal Cert.KernelIdeal.Gen
open Idealize.ShloMosaic Idealize.ShloMosaic.TcCoe Idealize.ShloMosaic.ValueIdx

-- A vector made a one-row matrix has, at column k, the vector's entry k.
theorem hc_row_apply {α : Type} {n : ℕ} (x : (⟨1, ![n]⟩ : Shape).Idx → α)
    (h : (⟨1, ![n]⟩ : Shape).BroadcastsInDim ⟨2, ![1, n]⟩ ![1]) (k : Fin n) :
    broadcastInDim ⟨2, ![1, n]⟩ ![1] h x (ix2 (0 : Fin 1) k) = x (ix1 k) := by
  refine broadcastInDim_apply ![1] h x (ix2 (0 : Fin 1) k) (ix1 k) fun ax => ?_
  match ax with
  | ⟨0, _⟩ =>
    show k.val = if n = 1 then 0 else k.val
    split
    · have := k.isLt; omega
    · rfl

-- Two vectors end to end: entry k is the first's below its length, the second's after.
theorem hc_cat2_axis0_apply {α : Type} {n₁ n₂ n : ℕ} (x₁ : (⟨1, ![n₁]⟩ : Shape).Idx → α) (x₂ : (⟨1, ![n₂]⟩ : Shape).Idx → α)
    (hc : Shape.Concatenates [⟨1, ![n₁]⟩, ⟨1, ![n₂]⟩] ⟨1, ![n]⟩ 0) (hn : n = n₁ + n₂) (k : Fin n) :
    concatenate ⟨1, ![n]⟩ 0 [⟨⟨1, ![n₁]⟩, x₁⟩, ⟨⟨1, ![n₂]⟩, x₂⟩] hc (ix1 k)
      = if h : k.val < n₁ then x₁ (ix1 ⟨k.val, h⟩) else x₂ (ix1 ⟨k.val - n₁, by have := k.isLt; omega⟩) := by
  by_cases h : k.val < n₁
  · rw [dif_pos h]
    exact concatenate_pair_apply_left 0 x₁ x₂ hc (ix1 k) rfl (ix1 ⟨k.val, h⟩) (fun b => by
      match b with
      | ⟨0, _⟩ => rfl)
  · rw [dif_neg h]
    exact concatenate_pair_apply_right 0 x₁ x₂ hc (ix1 k) rfl rfl (ix1 ⟨k.val - n₁, by have := k.isLt; omega⟩) (fun b hb => by
      match b with
      | ⟨0, _⟩ => exact absurd rfl hb) (by show (k.val - n₁) + n₁ = k.val; omega)

section Skip
variable {F : FTy → Type} [FloatOps F]

variable (m : (ℓ : Loc nD τ sig) → Buf (Elt F) ℓ) (ρ : Dev nD → PrngReg) (c : Dev nD)

-- No host stretch before the last writes an argument (one of the first 32 buffers), so it still holds its launch contents.
theorem W6_arg (r : Ref sig .tc) (hr : r.idx.val < 32 := by decide) : W6 m ρ c (Proc.devRef .tc r) = m ((c : Thread nD τ).loc r) :=
  (keep_hostOps0_5 (W5 m ρ c) r hr).trans <| (keep_hostOps0_4 (W4 m ρ c) r hr).trans <|
    (keep_hostOps0_3 (W3 m ρ c) r hr).trans <| (keep_hostOps0_2 (W2 m ρ c) r hr).trans <|
    (keep_hostOps0_1 (W1 m ρ c) r hr).trans <| keep_hostOps0 (W0 m ρ c) r hr

end Skip

theorem v3_read (V0 : Valuation τ sig (Elt Ideal)) :
    @Eq (FVec Ideal S16x4356x128 .bf16)
      (StableHlo.after hostOps0_6 (StableHlo.after hostOps0_5 (StableHlo.after hostOps0_4 (StableHlo.after hostOps0_3
        (StableHlo.after hostOps0_2 (StableHlo.after hostOps0_1 (StableHlo.after hostOps0 V0)))))) (Proc.devRef .tc main_v3))
      (shapeCast S16x4356x128
        (pad S16x66x66x128 ![0, 1, 1, 0] ![0, 1, 1, 0] ![0, 0, 0, 0]
          (truncf (F := Ideal) .bf16 (transpose S16x64x64x128 [0, 2, 3, 1]
            (V0 (Proc.devRef .tc main_arg0) : FVec Ideal S16x128x64x64 .f32)
            Facts₀.transposes_S16x128x64x64_S16x64x64x128_0_2_3_1) Facts₀.bitsLt_bf16_f32)
          (sitofp (F := Ideal) .bf16 (constantI S_ 32 0#32))
          Facts₀.pads_S16x64x64x128_S16x66x66x128_000_110_110_000 Facts₀.h_S_)
        Facts₀.shapeCasts_S16x66x66x128_S16x4356x128) := by
  simp only [hostOps0, hostOps0_1, hostOps0_2, hostOps0_3, hostOps0_4, hostOps0_5, hostOps0_6]
  after_results_simp
  simp only [StableHlo.TRef.ofBuf, StableHlo.TRef.toBuf, cast_eq]
  rfl

theorem v103_read (V0 : Valuation τ sig (Elt Ideal)) :
    @Eq (FVec Ideal S16x255x64x64 .f32) (StableHlo.after hostOps1 V0 (Proc.devRef .tc main_v103))
      (transpose S16x255x64x64 [0, 3, 1, 2]
        (extractStridedSlice S16x64x64x255 ![0, 1, 1, 0]
          (shapeCast S16x66x66x255 (V0 (Proc.devRef .tc main_v100) : FVec Ideal S16x4356x255 .f32)
            Facts₀.shapeCasts_S16x4356x255_S16x66x66x255)
          Facts₀.slices_S16x66x66x255_S16x64x64x255_0_1_1_0)
        Facts₀.transposes_S16x64x64x255_S16x255x64x64_0_3_1_2) := by
  simp only [hostOps1]
  after_results
  rfl

variable (m : (ℓ : Loc nD τ sig) → Buf (Elt Ideal) ℓ) (ρ : Dev nD → PrngReg) (c : Dev nD)

-- The reference's folded weights, computed from the 31 weight arguments as launched.
abbrev argW : Cert.HeadSpec.Weights :=
  Cert.HostW.wts
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19)) (m ((c : Thread nD τ).loc main_arg20)) (m ((c : Thread nD τ).loc main_arg21))
    (m ((c : Thread nD τ).loc main_arg22)) (m ((c : Thread nD τ).loc main_arg23)) (m ((c : Thread nD τ).loc main_arg24))
    (m ((c : Thread nD τ).loc main_arg25)) (m ((c : Thread nD τ).loc main_arg26)) (m ((c : Thread nD τ).loc main_arg27))
    (m ((c : Thread nD τ).loc main_arg28)) (m ((c : Thread nD τ).loc main_arg29)) (m ((c : Thread nD τ).loc main_arg30))
    (m ((c : Thread nD τ).loc main_arg31))

theorem xp_layout (n : Fin 16) (i j : Fin 64) (ch : Fin 128) :
    (Ventry m ρ c main_v3 : Vec Ideal S16x4356x128 .bf16) (ix3 n (Cert.HeadSpec.K.row i j) ch)
      = (m ((c : Thread nD τ).loc main_arg0) : Cert.HeadSpec.Arr ⟨4, ![16, 128, 64, 64]⟩) (ix4 n ch i j) := by
  refine (congrFun (v3_read (W0 m ρ c)) _).trans ?_
  rw [shapeCast_apply _ _ (ix3 n (Cert.HeadSpec.K.row i j) ch)
    (ix4 n (⟨i.val + 1, by omega⟩ : Fin 66) (⟨j.val + 1, by omega⟩ : Fin 66) ch) (by
    rw [Shape.rowMajor_val_three, Shape.rowMajor_val_four]
    show ((n.val * 66 + (i.val + 1)) * 66 + (j.val + 1)) * 128 + ch.val
      = (n.val * 4356 + ((i.val + 1) * 66 + (j.val + 1))) * 128 + ch.val
    ring)]
  rw [pad_apply_of_inside _ _ _ _ _ _ _ _ (ix4 n i j ch) (by
    intro a
    match a with
    | ⟨0, _⟩ => show n.val = 0 + n.val * (0 + 1); omega
    | ⟨1, _⟩ => show i.val + 1 = 1 + i.val * (0 + 1); omega
    | ⟨2, _⟩ => show j.val + 1 = 1 + j.val * (0 + 1); omega
    | ⟨3, _⟩ => show ch.val = 0 + ch.val * (0 + 1); omega)]
  rw [truncf_apply]
  exact transpose_apply _ _ _ (ix4 n i j ch) (ix4 n ch i j) (by
    intro b
    match b with
    | ⟨0, _⟩ => rfl
    | ⟨1, _⟩ => rfl
    | ⟨2, _⟩ => rfl
    | ⟨3, _⟩ => rfl)

theorem tail_apply (n : Fin 16) (k : Fin 255) (i j : Fin 64) :
    (Wfin m ρ c (Proc.devRef .tc main_v103) : Vec Ideal S16x255x64x64 .f32) (ix4 n k i j)
      = (Wexit m ρ c (Proc.devRef .tc main_v100) : Vec Ideal S16x4356x255 .f32) (ix3 n (Cert.HeadSpec.K.row i j) k) := by
  refine (congrFun (v103_read (Wexit m ρ c)) _).trans ?_
  rw [transpose_apply _ _ _ (ix4 n k i j) (ix4 n i j k) (by
    intro b
    match b with
    | ⟨0, _⟩ => rfl
    | ⟨1, _⟩ => rfl
    | ⟨2, _⟩ => rfl
    | ⟨3, _⟩ => rfl)]
  rw [extractStridedSlice_apply _ _ _ (ix4 n i j k)
    (ix4 n (⟨i.val + 1, by omega⟩ : Fin 66) (⟨j.val + 1, by omega⟩ : Fin 66) k) (by
    intro a
    match a with
    | ⟨0, _⟩ => show n.val = 0 + n.val; omega
    | ⟨1, _⟩ => show i.val + 1 = 1 + i.val; omega
    | ⟨2, _⟩ => show j.val + 1 = 1 + j.val; omega
    | ⟨3, _⟩ => show k.val = 0 + k.val; omega)]
  refine shapeCast_apply _ _ _ _ ?_
  show (S16x4356x255.rowMajor (ix3 n (Cert.HeadSpec.K.row i j) k)).val = _
  rw [Shape.rowMajor_val_three, Shape.rowMajor_val_four]
  show (n.val * 4356 + ((i.val + 1) * 66 + (j.val + 1))) * 255 + k.val
    = ((n.val * 66 + (i.val + 1)) * 66 + (j.val + 1)) * 255 + k.val
  ring

end Cert.KernelIdeal.Fused

end
-- ==== Proof.KIHostB.lean ====
import proofs.«145920_g2000606511304043_pallasbulk_952_2_alg».proof.Proof.KIHostA
import Idealize.ShloMosaic.Lib.StableHlo.Predicate
import Idealize.ShloMosaic.Lib.Affine
import Idealize.ShloMosaic.Lib.IdealHost
import Idealize.ShloMosaic.Lib.ValueLayout

set_option maxRecDepth 16384

noncomputable section
namespace Cert.KernelIdeal.Fused.HbWords

open Idealize.ShloMosaic Idealize.ShloMosaic.StableHlo.Predicate

theorem toNat_divsi_66 (u : ArithUnit) (w : BitVec 32) (hw : w.toNat < 2 ^ 31) :
    (IntOp.divsi u w 66#32).toNat = w.toNat / 66 := by
  have hcorner : ¬ IntOp.SDivCorner w 66#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (66#32 : BitVec 32).msb = false from by decide, BitVec.udiv_eq,
    BitVec.toNat_udiv, BitVec.toNat_ofNat]

theorem select_of_ne {α : Type} (c : BitVec 1) (a b : α) (h : c ≠ 1#1) : Scalar.select c a b = b := if_neg h

def sgn (x : BitVec 32) : BitVec 32 := if x = 0 then 0 else if x.msb then -1 else 1

def fdiv (x : BitVec 32) : BitVec 32 :=
  Scalar.select (IntOp.andi (IntOp.cmpi .ne (sgn x) (sgn 66#32)) (IntOp.cmpi .ne (IntOp.remsi .host x 66#32) 0#32))
    (IntOp.subi (IntOp.divsi .host x 66#32) 1#32) (IntOp.divsi .host x 66#32)

def frem (x : BitVec 32) : BitVec 32 :=
  let d : BitVec 32 := Scalar.select (IntOp.cmpi .eq 66#32 0#32) 1#32 66#32
  let r := IntOp.remsi .host x d
  Scalar.select (IntOp.andi (IntOp.cmpi .ne (IntOp.cmpi .slt r 0#32) (IntOp.cmpi .slt d 0#32)) (IntOp.cmpi .ne r 0#32))
    (IntOp.addi r d) r

theorem fdiv_toNat (x : BitVec 32) (hx : x.toNat < 2 ^ 31) : (fdiv x).toNat = x.toNat / 66 := by
  have hsel : IntOp.andi (IntOp.cmpi .ne (sgn x) (sgn 66#32)) (IntOp.cmpi .ne (IntOp.remsi .host x 66#32) 0#32) ≠ 1#1 := by
    rw [Ne, IntOp.andi_eq_one, IntOp.cmpi_ne, IntOp.cmpi_ne]
    rintro ⟨h1, h2⟩
    by_cases h0 : x = 0
    · subst h0; exact h2 (by decide)
    · apply h1
      have hm : x.msb = false := BitVec.msb_eq_false_iff_two_mul_lt.mpr (by omega)
      unfold sgn; rw [if_neg h0, hm]; decide
  unfold fdiv
  rw [select_of_ne _ _ _ hsel]
  exact toNat_divsi_66 .host x hx

theorem frem_toNat (x : BitVec 32) (hx : x.toNat < 2 ^ 31) : (frem x).toNat = x.toNat % 66 := by
  have hd : (Scalar.select (IntOp.cmpi .eq 66#32 0#32) 1#32 66#32 : BitVec 32) = 66#32 := by decide
  have hr : (IntOp.remsi .host x 66#32).toNat = x.toNat % 66 := IntOp.toNat_remsi .host (by omega) 66 (by omega) (by omega)
  have hlt : IntOp.cmpi .slt (IntOp.remsi .host x 66#32) 0#32 = 0#1 := by
    have : ¬ (IntOp.cmpi .slt (IntOp.remsi .host x 66#32) 0#32 = 1#1) := by
      rw [slt_iff_toNat (by rw [hr]; omega) (by decide)]
      simp
    rcases BitVec.eq_zero_or_eq_one (IntOp.cmpi .slt (IntOp.remsi .host x 66#32) 0#32) with h | h
    · exact h
    · exact absurd h this
  unfold frem
  simp only [hd]
  have hsel : IntOp.andi (IntOp.cmpi .ne (IntOp.cmpi .slt (IntOp.remsi .host x 66#32) 0#32) (IntOp.cmpi .slt (66#32 : BitVec 32) 0#32))
      (IntOp.cmpi .ne (IntOp.remsi .host x 66#32) 0#32) ≠ 1#1 := by
    rw [Ne, IntOp.andi_eq_one, IntOp.cmpi_ne, hlt]
    rintro ⟨h1, -⟩
    exact h1 (by decide)
  rw [select_of_ne _ _ _ hsel]
  exact hr

def inside (x : BitVec 32) : BitVec 1 :=
  IntOp.andi (IntOp.andi (IntOp.andi (IntOp.cmpi .sge (fdiv x) 1#32) (IntOp.cmpi .sle (fdiv x) 64#32))
    (IntOp.cmpi .sge (frem x) 1#32)) (IntOp.cmpi .sle (frem x) 64#32)

theorem inside_eq_one_iff (x : BitVec 32) (hx : x.toNat < 2 ^ 31) :
    inside x = 1#1 ↔ (1 ≤ x.toNat / 66 ∧ x.toNat / 66 ≤ 64 ∧ 1 ≤ x.toNat % 66 ∧ x.toNat % 66 ≤ 64) := by
  have hq := fdiv_toNat x hx
  have hr := frem_toNat x hx
  have hq' : (fdiv x).toNat < 2 ^ 31 := by rw [hq]; omega
  have hr' : (frem x).toNat < 2 ^ 31 := by rw [hr]; omega
  unfold inside
  rw [IntOp.andi_eq_one, IntOp.andi_eq_one, IntOp.andi_eq_one,
    sge_iff_toNat hq' (by decide), sle_iff_toNat hq' (by decide), sge_iff_toNat hr' (by decide), sle_iff_toNat hr' (by decide),
    hq, hr]
  simp only [show (1#32 : BitVec 32).toNat = 1 from rfl, show (64#32 : BitVec 32).toNat = 64 from rfl]
  tauto

theorem inside_toReal (x : BitVec 32) (hx : x.toNat < 2 ^ 31) :
    (((inside x).toNat : ℝ) : EReal) = if 1 ≤ x.toNat / 66 ∧ x.toNat / 66 ≤ 64 ∧ 1 ≤ x.toNat % 66 ∧ x.toNat % 66 ≤ 64 then 1 else 0 := by
  have hiff := inside_eq_one_iff x hx
  rcases BitVec.eq_zero_or_eq_one (inside x) with h | h
  · have hn : ¬ (1 ≤ x.toNat / 66 ∧ x.toNat / 66 ≤ 64 ∧ 1 ≤ x.toNat % 66 ∧ x.toNat % 66 ≤ 64) := fun hc => by
      have h1 := hiff.mpr hc; rw [h] at h1; exact absurd h1 (by decide)
    rw [h, if_neg hn]; simp
  · rw [h, if_pos (hiff.mp h)]; simp

end Cert.KernelIdeal.Fused.HbWords

namespace Cert.KernelIdeal.Fused
open Cert.KernelIdeal Cert.KernelIdeal.Gen
open Idealize.ShloMosaic Idealize.ShloMosaic.TcCoe Idealize.ShloMosaic.ValueIdx
variable {F : FTy → Type} [FloatOps F]

abbrev hb_splat {w : Nat} (d : IVec S_ w) : IVec S4356 w := broadcastInDim S4356 ![] bcast_S_S4356 d

def hb_fdivV (x : IVec S4356 32) (d : IVec S_ 32) : IVec S4356 32 :=
  select (andi (cmpi .ne (signi x) (hb_splat (signi d))) (cmpi .ne (Host.remsi x (hb_splat d)) (hb_splat (constantI S_ 32 0#32))))
    (subi (Host.divsi x (hb_splat d)) (hb_splat (constantI S_ 32 1#32))) (Host.divsi x (hb_splat d))

def hb_fremV (x : IVec S4356 32) (d0 : IVec S_ 32) : IVec S4356 32 :=
  let d : IVec S_ 32 := select (cmpi .eq d0 (constantI S_ 32 0#32)) (constantI S_ 32 1#32) d0
  let r : IVec S4356 32 := Host.remsi x (hb_splat d)
  select (andi (cmpi .ne (cmpi .slt r (hb_splat (constantI S_ 32 0#32))) (hb_splat (cmpi .slt d (constantI S_ 32 0#32))))
      (cmpi .ne r (hb_splat (constantI S_ 32 0#32))))
    (addi r (hb_splat d)) r

def hb_maskV (D R : IVec S4356 32) : FVec F S4356x1 .f32 :=
  broadcastInDim S4356x1 ![0] bcast_S4356_S4356x1_0
    (uitofp .f32 (andi (andi (andi (cmpi .sge D (hb_splat (constantI S_ 32 1#32))) (cmpi .sle D (hb_splat (constantI S_ 32 64#32))))
      (cmpi .sge R (hb_splat (constantI S_ 32 1#32)))) (cmpi .sle R (hb_splat (constantI S_ 32 64#32)))))

variable (m : (ℓ : Loc nD τ sig) → Buf (Elt F) ℓ) (ρ : Dev nD → PrngReg)

theorem hb_mask_after (V : Valuation τ sig (Elt F)) :
    (StableHlo.after hostOps0_6 (StableHlo.after hostOps0_5 (StableHlo.after hostOps0_4 (StableHlo.after hostOps0_3
      (StableHlo.after hostOps0_2 V)))) (Proc.devRef .tc main_v19) : FVec F S4356x1 .f32)
    = hb_maskV (hb_fdivV (iotaInDim S4356 32 0) (constantI S_ 32 66#32)) (hb_fremV (iotaInDim S4356 32 0) (constantI S_ 32 66#32)) := by
  dsimp only [hostOps0_2, hostOps0_3, hostOps0_4, hostOps0_5, hostOps0_6]; after_results_simp
  simp only [StableHlo.TRef.ofBuf, StableHlo.TRef.toBuf, cast_eq]
  rfl

theorem hb_entry_v19 (d : Dev nD) : (Ventry m ρ d main_v19 : FVec F S4356x1 .f32)
    = hb_maskV (hb_fdivV (iotaInDim S4356 32 0) (constantI S_ 32 66#32)) (hb_fremV (iotaInDim S4356 32 0) (constantI S_ 32 66#32)) :=
  hb_mask_after (W2 m ρ d)

open HbWords in
theorem hb_maskV_apply (q : Fin 4356) :
    (hb_maskV (F := Ideal) (hb_fdivV (iotaInDim S4356 32 0) (constantI S_ 32 66#32)) (hb_fremV (iotaInDim S4356 32 0) (constantI S_ 32 66#32)))
      (ix2 q 0) = (((inside (BitVec.ofNat 32 q.val)).toNat : ℝ) : EReal) := rfl

theorem mask_layout (m : (ℓ : Loc nD τ sig) → Buf (Elt Ideal) ℓ) (ρ : Dev nD → PrngReg) (d : Dev nD) (q : Fin 4356) :
    (Ventry m ρ d main_v19 : Vec Ideal S4356x1 .f32) (ix2 q 0)
      = if 1 ≤ q.val / 66 ∧ q.val / 66 ≤ 64 ∧ 1 ≤ q.val % 66 ∧ q.val % 66 ≤ 64 then (1 : EReal) else 0 := by
  have hq : (BitVec.ofNat 32 q.val).toNat = q.val := by
    rw [BitVec.toNat_ofNat]; exact Nat.mod_eq_of_lt (by have := q.isLt; omega)
  rw [hb_entry_v19, hb_maskV_apply, HbWords.inside_toReal _ (by rw [hq]; have := q.isLt; omega), hq]

section Weights
variable (X : Valuation τ sig (Elt Ideal))

theorem hb_s6_v55 : (StableHlo.after hostOps0_6 X (Proc.devRef .tc main_v55) : FVec Ideal S9x256x512 .bf16)
    = truncf .bf16 (concatenate S9x256x512 2
        [⟨S9x256x256, Cert.HostW.w1c (X (Proc.devRef .tc main_arg6)) (X (Proc.devRef .tc main_arg7)) (X (Proc.devRef .tc main_arg10))⟩,
         ⟨S9x256x256, Cert.HostW.w1r (X (Proc.devRef .tc main_arg16)) (X (Proc.devRef .tc main_arg17)) (X (Proc.devRef .tc main_arg20))⟩]
        concatenates_S9x256x256_S9x256x256_S9x256x512_d2) bitsLt_bf16_f32 := by
  dsimp only [hostOps0_6]; after_results_simp
  rfl

theorem hb_s6_v57 : (StableHlo.after hostOps0_6 X (Proc.devRef .tc main_v57) : FVec Ideal S1x512 .f32)
    = broadcastInDim S1x512 ![1] bcast_S512_S1x512_1 (concatenate S512 0
        [⟨S256, Cert.HostW.shift (X (Proc.devRef .tc main_arg7)) (X (Proc.devRef .tc main_arg8)) (X (Proc.devRef .tc main_arg9)) (X (Proc.devRef .tc main_arg10))⟩,
         ⟨S256, Cert.HostW.shift (X (Proc.devRef .tc main_arg17)) (X (Proc.devRef .tc main_arg18)) (X (Proc.devRef .tc main_arg19)) (X (Proc.devRef .tc main_arg20))⟩]
        concatenates_S256_S256_S512_d0) := by
  dsimp only [hostOps0_6]; after_results_simp
  rfl

end Weights

section Layouts
variable (m : (ℓ : Loc nD τ sig) → Buf (Elt Ideal) ℓ) (ρ : Dev nD → PrngReg) (d : Dev nD)

theorem w1_layout (k : Fin 9) (c' : Fin 256) (c : Fin 512) :
    (Ventry m ρ d main_v55 : Vec Ideal S9x256x512 .bf16) (ix3 k c' c)
      = if h : c.val < 256 then (argW m d).w1c (ix3 k c' ⟨c.val, h⟩)
        else (argW m d).w1r (ix3 k c' ⟨c.val - 256, by have := c.isLt; omega⟩) := by
  refine (congrFun (hb_s6_v55 (W6 m ρ d)) (ix3 k c' c)).trans ?_
  repeat rw [W6_arg m ρ d _]
  rw [truncf_apply]
  by_cases h : c.val < 256
  · rw [dif_pos h]
    exact concatenate_pair_apply_left (t := S9x256x512) (s₁ := S9x256x256) (s₂ := S9x256x256) 2 (argW m d).w1c (argW m d).w1r
      concatenates_S9x256x256_S9x256x256_S9x256x512_d2 (ix3 k c' c) rfl (ix3 k c' ⟨c.val, h⟩) (fun b => by
      match b with
      | ⟨0, _⟩ => rfl
      | ⟨1, _⟩ => rfl
      | ⟨2, _⟩ => rfl)
  · rw [dif_neg h]
    exact concatenate_pair_apply_right (t := S9x256x512) (s₁ := S9x256x256) (s₂ := S9x256x256) 2 (argW m d).w1c (argW m d).w1r
      concatenates_S9x256x256_S9x256x256_S9x256x512_d2 (ix3 k c' c) rfl rfl (ix3 k c' ⟨c.val - 256, by have := c.isLt; omega⟩)
      (fun b hb => by
        match b with
        | ⟨0, _⟩ => rfl
        | ⟨1, _⟩ => rfl
        | ⟨2, _⟩ => exact absurd rfl hb)
      (by show c.val - 256 + 256 = c.val; omega)

theorem b1_layout (c : Fin 512) :
    (Ventry m ρ d main_v57 : Vec Ideal S1x512 .f32) (ix2 0 c)
      = if h : c.val < 256 then (argW m d).b1c (ix2 0 ⟨c.val, h⟩)
        else (argW m d).b1r (ix2 0 ⟨c.val - 256, by have := c.isLt; omega⟩) := by
  refine (congrFun (hb_s6_v57 (W6 m ρ d)) (ix2 0 c)).trans ?_
  repeat rw [W6_arg m ρ d _]
  rw [hc_row_apply, hc_cat2_axis0_apply (n₁ := 256) (n₂ := 256) (n := 512) _ _ _ rfl]
  by_cases h : c.val < 256
  · rw [dif_pos h, dif_pos h]; exact (hc_row_apply _ Cert.HostW.bc_row _).symm
  · rw [dif_neg h, dif_neg h]; exact (hc_row_apply _ Cert.HostW.bc_row _).symm

end Layouts

end Cert.KernelIdeal.Fused
end
-- ==== Proof.KIHostC.lean ====
import proofs.«145920_g2000606511304043_pallasbulk_952_2_alg».proof.Proof.KIHostA
import Idealize.ShloMosaic.PureOps.Ideal.Laws
import Idealize.ShloMosaic.Lib.ValueLayout
import Idealize.ShloMosaic.Lib.IdealHost

set_option maxRecDepth 16384

noncomputable section

open scoped BigOperators

namespace Cert.KernelIdeal.Fused

open Cert.KernelIdeal Cert.KernelIdeal.Gen Cert.HeadSpec
open Idealize.ShloMosaic Idealize.ShloMosaic.TcCoe Idealize.SL.Sem Idealize.ShloMosaic.ValueIdx

-- Two matrices side by side: column k is the first's below its width, the second's after.
theorem hc_cat2_axis1_apply {α : Type} {a n₁ n₂ n : ℕ} (P : (⟨2, ![a, n₁]⟩ : Shape).Idx → α) (Q : (⟨2, ![a, n₂]⟩ : Shape).Idx → α)
    (hc : Shape.Concatenates [⟨2, ![a, n₁]⟩, ⟨2, ![a, n₂]⟩] ⟨2, ![a, n]⟩ 1) (hn : n = n₁ + n₂) (p : Fin a) (k : Fin n) :
    concatenate ⟨2, ![a, n]⟩ 1 [⟨⟨2, ![a, n₁]⟩, P⟩, ⟨⟨2, ![a, n₂]⟩, Q⟩] hc (ix2 p k)
      = if h : k.val < n₁ then P (ix2 p ⟨k.val, h⟩) else Q (ix2 p ⟨k.val - n₁, by have := k.isLt; omega⟩) := by
  by_cases h : k.val < n₁
  · rw [dif_pos h]
    exact concatenate_pair_apply_left 1 P Q hc (ix2 p k) rfl (ix2 p ⟨k.val, h⟩) (fun b => by
      match b with
      | ⟨0, _⟩ => rfl
      | ⟨1, _⟩ => rfl)
  · rw [dif_neg h]
    exact concatenate_pair_apply_right 1 P Q hc (ix2 p k) rfl rfl (ix2 p ⟨k.val - n₁, by have := k.isLt; omega⟩) (fun b hb => by
      match b with
      | ⟨0, _⟩ => rfl
      | ⟨1, _⟩ => exact absurd rfl hb) (by show (k.val - n₁) + n₁ = k.val; omega)

-- Three vectors of 12, 3 and 240 entries end to end.
theorem hc_cat3_apply {α : Type} (x₁ : (⟨1, ![12]⟩ : Shape).Idx → α) (x₂ : (⟨1, ![3]⟩ : Shape).Idx → α)
    (x₃ : (⟨1, ![240]⟩ : Shape).Idx → α)
    (hc : Shape.Concatenates [⟨1, ![12]⟩, ⟨1, ![3]⟩, ⟨1, ![240]⟩] ⟨1, ![255]⟩ 0) (k : Fin 255) :
    concatenate ⟨1, ![255]⟩ 0 [⟨⟨1, ![12]⟩, x₁⟩, ⟨⟨1, ![3]⟩, x₂⟩, ⟨⟨1, ![240]⟩, x₃⟩] hc (ix1 k)
      = if h₁ : k.val < 12 then x₁ (ix1 ⟨k.val, h₁⟩)
        else if h₂ : k.val < 15 then x₂ (ix1 ⟨k.val - 12, by omega⟩)
        else x₃ (ix1 ⟨k.val - 15, by have := k.isLt; omega⟩) := by
  by_cases h₁ : k.val < 12
  · rw [dif_pos h₁]
    exact concatenate_apply_piece (t := ⟨1, ![255]⟩) 0 [⟨⟨1, ![12]⟩, x₁⟩, ⟨⟨1, ![3]⟩, x₂⟩, ⟨⟨1, ![240]⟩, x₃⟩] hc (ix1 k) 0 (by simp) _ x₁ rfl rfl 0 rfl (ix1 ⟨k.val, h₁⟩)
      (fun b hb => by match b with | ⟨0, _⟩ => exact absurd rfl hb) (by show 0 + k.val = k.val; omega)
  · rw [dif_neg h₁]
    by_cases h₂ : k.val < 15
    · rw [dif_pos h₂]
      exact concatenate_apply_piece (t := ⟨1, ![255]⟩) 0 [⟨⟨1, ![12]⟩, x₁⟩, ⟨⟨1, ![3]⟩, x₂⟩, ⟨⟨1, ![240]⟩, x₃⟩] hc (ix1 k) 1 (by simp) _ x₂ rfl rfl 12 rfl (ix1 ⟨k.val - 12, by omega⟩)
        (fun b hb => by match b with | ⟨0, _⟩ => exact absurd rfl hb) (by show 12 + (k.val - 12) = k.val; omega)
    · rw [dif_neg h₂]
      exact concatenate_apply_piece (t := ⟨1, ![255]⟩) 0 [⟨⟨1, ![12]⟩, x₁⟩, ⟨⟨1, ![3]⟩, x₂⟩, ⟨⟨1, ![240]⟩, x₃⟩] hc (ix1 k) 2 (by simp) _ x₃ rfl rfl 15 rfl (ix1 ⟨k.val - 15, by have := k.isLt; omega⟩)
        (fun b hb => by match b with | ⟨0, _⟩ => exact absurd rfl hb) (by show 15 + (k.val - 15) = k.val; omega)

-- The three bias vectors end to end are the two small biases' row followed by the class biases' row.
theorem hc_v96_term_apply (a29 : Arr S12) (a31 : Arr S3) (a27 : Arr S240) (k : Fin 255) :
    (broadcastInDim S1x255 ![1] bcast_S255_S1x255_1 (concatenate S255 0 [⟨S12, a29⟩, ⟨S3, a31⟩, ⟨S240, a27⟩] concatenates_S12_S3_S240_S255_d0) : S1x255.Idx → EReal) (ix2 (0 : Fin 1) k)
      = if h : k.val < 15 then Cert.HostW.bro a29 a31 (ix2 (0 : Fin 1) ⟨k.val, h⟩)
        else Cert.HostW.bcl a27 (ix2 (0 : Fin 1) ⟨k.val - 15, by have := k.isLt; omega⟩) := by
  rw [hc_row_apply, hc_cat3_apply]
  by_cases h : k.val < 15
  · rw [dif_pos h]
    unfold Cert.HostW.bro
    rw [hc_row_apply, hc_cat2_axis0_apply (n₁ := 12) (n₂ := 3) (n := 15) _ _ _ rfl]
    by_cases h₁ : k.val < 12
    · rw [dif_pos h₁, dif_pos h₁]
    · rw [dif_neg h₁, dif_neg h₁, dif_pos h]
  · rw [dif_neg h, dif_neg (fun h₁ : k.val < 12 => h (by omega)), dif_neg h]
    unfold Cert.HostW.bcl
    rw [hc_row_apply]

theorem hc_v91_after (X : Valuation τ sig (Elt Ideal)) :
    (StableHlo.after (hostOps0_6 (F := Ideal)) X (Proc.devRef .tc main_v91) : S256x255.Idx → EReal)
      = truncf .bf16 (concatenate S256x255 1 [⟨S256x15, Cert.HostW.wro (X (Proc.devRef .tc main_arg28)) (X (Proc.devRef .tc main_arg30))⟩, ⟨S256x240, broadcastInDim S256x240 ![] bcast_S_S256x240 (constant (F := Ideal) S_ .f32 0x00000000#32)⟩] concatenates_S256x15_S256x240_S256x255_d1) bitsLt_bf16_f32 := by
  dsimp only [hostOps0_6]; after_results_simp; rfl

theorem hc_v94_after (X : Valuation τ sig (Elt Ideal)) :
    (StableHlo.after (hostOps0_6 (F := Ideal)) X (Proc.devRef .tc main_v94) : S256x255.Idx → EReal)
      = truncf .bf16 (concatenate S256x255 1 [⟨S256x15, broadcastInDim S256x15 ![] bcast_S_S256x15 (constant (F := Ideal) S_ .f32 0x00000000#32)⟩, ⟨S256x240, Cert.HostW.wcl (X (Proc.devRef .tc main_arg26))⟩] concatenates_S256x15_S256x240_S256x255_d1) bitsLt_bf16_f32 := by
  dsimp only [hostOps0_6]; after_results_simp; rfl

theorem hc_v96_after (X : Valuation τ sig (Elt Ideal)) :
    (StableHlo.after (hostOps0_6 (F := Ideal)) X (Proc.devRef .tc main_v96) : S1x255.Idx → EReal)
      = broadcastInDim S1x255 ![1] bcast_S255_S1x255_1 (concatenate S255 0 [⟨S12, (X (Proc.devRef .tc main_arg29) : S12.Idx → EReal)⟩, ⟨S3, (X (Proc.devRef .tc main_arg31) : S3.Idx → EReal)⟩, ⟨S240, (X (Proc.devRef .tc main_arg27) : S240.Idx → EReal)⟩] concatenates_S12_S3_S240_S255_d0) := by
  dsimp only [hostOps0_6]; after_results_simp; rfl

variable (m : (ℓ : Loc nD τ sig) → Buf (Elt Ideal) ℓ) (ρ : Dev nD → PrngReg)

theorem whr_layout (c : Dev nD) (c' : Fin 256) (k : Fin 255) :
    (Ventry m ρ c main_v91 : S256x255.Idx → EReal) (ix2 c' k)
      = if h : k.val < 15 then (argW m c).wro (ix2 c' ⟨k.val, h⟩) else 0 := by
  refine (congrFun (hc_v91_after (W6 m ρ c)) (ix2 c' k)).trans ?_
  repeat rw [W6_arg m ρ c _]
  rw [truncf_apply,
    hc_cat2_axis1_apply (a := 256) (n₁ := 15) (n₂ := 240) (n := 255) _ _ _ rfl c' k]
  by_cases h : k.val < 15
  · rw [dif_pos h, dif_pos h]; rfl
  · rw [dif_neg h, dif_neg h, broadcastInDim_scalar_apply]; exact Ideal.ofBits_zero_f32

theorem whc_layout (c : Dev nD) (c' : Fin 256) (k : Fin 255) :
    (Ventry m ρ c main_v94 : S256x255.Idx → EReal) (ix2 c' k)
      = if h : k.val < 15 then 0 else (argW m c).wcl (ix2 c' ⟨k.val - 15, by have := k.isLt; omega⟩) := by
  refine (congrFun (hc_v94_after (W6 m ρ c)) (ix2 c' k)).trans ?_
  repeat rw [W6_arg m ρ c _]
  rw [truncf_apply,
    hc_cat2_axis1_apply (a := 256) (n₁ := 15) (n₂ := 240) (n := 255) _ _ _ rfl c' k]
  by_cases h : k.val < 15
  · rw [dif_pos h, dif_pos h, broadcastInDim_scalar_apply]; exact Ideal.ofBits_zero_f32
  · rw [dif_neg h, dif_neg h]; rfl

theorem bh_layout (c : Dev nD) (k : Fin 255) :
    (Ventry m ρ c main_v96 : S1x255.Idx → EReal) (ix2 (0 : Fin 1) k)
      = if h : k.val < 15 then (argW m c).bro (ix2 (0 : Fin 1) ⟨k.val, h⟩)
        else (argW m c).bcl (ix2 (0 : Fin 1) ⟨k.val - 15, by have := k.isLt; omega⟩) := by
  refine (congrFun (hc_v96_after (W6 m ρ c)) (ix2 (0 : Fin 1) k)).trans ?_
  repeat rw [W6_arg m ρ c _]
  exact hc_v96_term_apply _ _ _ k

end Cert.KernelIdeal.Fused

end
-- ==== Proof.KIHostD.lean ====
import proofs.«145920_g2000606511304043_pallasbulk_952_2_alg».proof.Proof.KIHostA

set_option maxRecDepth 16384

noncomputable section

namespace Cert.KernelIdeal.Fused

open Cert.KernelIdeal Cert.KernelIdeal.Gen
open Idealize.ShloMosaic Idealize.ShloMosaic.TcCoe Idealize.ShloMosaic.StableHlo

section Ops
variable (X : Valuation τ sig (Elt Ideal))

theorem ops6_wm : (StableHlo.after hostOps0_6 X (Proc.devRef .tc main_v31) : S128x256.Idx → EReal)
    = Cert.HostW.wm (X (Proc.devRef .tc main_arg1)) (X (Proc.devRef .tc main_arg2)) (X (Proc.devRef .tc main_arg5)) := by
  dsimp only [hostOps0_6]; after_results_simp; rfl

theorem ops6_bm : (StableHlo.after hostOps0_6 X (Proc.devRef .tc main_v97) : S1x256.Idx → EReal)
    = Cert.HostW.bm (X (Proc.devRef .tc main_arg2)) (X (Proc.devRef .tc main_arg3)) (X (Proc.devRef .tc main_arg4)) (X (Proc.devRef .tc main_arg5)) := by
  dsimp only [hostOps0_6]; after_results_simp; rfl

theorem ops6_w2c : (StableHlo.after hostOps0_6 X (Proc.devRef .tc main_v78) : S9x256x256.Idx → EReal)
    = Cert.HostW.w2c (X (Proc.devRef .tc main_arg11)) (X (Proc.devRef .tc main_arg12)) (X (Proc.devRef .tc main_arg15)) := by
  dsimp only [hostOps0_6]; after_results_simp; rfl

theorem ops6_w2r : (StableHlo.after hostOps0_6 X (Proc.devRef .tc main_v81) : S9x256x256.Idx → EReal)
    = Cert.HostW.w2r (X (Proc.devRef .tc main_arg21)) (X (Proc.devRef .tc main_arg22)) (X (Proc.devRef .tc main_arg25)) := by
  dsimp only [hostOps0_6]; after_results_simp; rfl

-- The stretch run in two parts: its first 58 operations, then the other 46.
theorem cut58 (y : Ref sig .tc) : StableHlo.after (hostOps0_6 (F := Ideal)) X (Proc.devRef .tc y)
    = StableHlo.after (hostOps0_6.drop 58) (StableHlo.after (hostOps0_6.take 58) X) (Proc.devRef .tc y) := by
  rw [← StableHlo.after_append, List.take_append_drop]

-- The second convolutions' shift rows are made by the last 46 operations alone.
theorem tail_b2c (Y : Valuation τ sig (Elt Ideal)) :
    (StableHlo.after ((hostOps0_6 (F := Ideal)).drop 58) Y (Proc.devRef .tc main_v98) : S1x256.Idx → EReal)
      = Cert.HostW.b2c (Y (Proc.devRef .tc main_arg12)) (Y (Proc.devRef .tc main_arg13)) (Y (Proc.devRef .tc main_arg14)) (Y (Proc.devRef .tc main_arg15)) := by
  dsimp only [hostOps0_6, List.drop]; after_results_simp; rfl

theorem tail_b2r (Y : Valuation τ sig (Elt Ideal)) :
    (StableHlo.after ((hostOps0_6 (F := Ideal)).drop 58) Y (Proc.devRef .tc main_v99) : S1x256.Idx → EReal)
      = Cert.HostW.b2r (Y (Proc.devRef .tc main_arg22)) (Y (Proc.devRef .tc main_arg23)) (Y (Proc.devRef .tc main_arg24)) (Y (Proc.devRef .tc main_arg25)) := by
  dsimp only [hostOps0_6, List.drop]; after_results_simp; rfl

-- None of the first 58 operations writes an argument.
theorem head_keep (r : Ref sig .tc) (hr : r.idx.val < 32) :
    StableHlo.after ((hostOps0_6 (F := Ideal)).take 58) X (Proc.devRef .tc r) = X (Proc.devRef .tc r) :=
  StableHlo.after_of_forall_not_mem (b := Proc.devRef .tc r) _ _ (List.forall_iff_forall_mem.mp (by
    simp only [hostOps0_6, List.take, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (fun e => by subst e; exact absurd hr (by decide))))

theorem ops6_b2c : (StableHlo.after hostOps0_6 X (Proc.devRef .tc main_v98) : S1x256.Idx → EReal)
    = Cert.HostW.b2c (X (Proc.devRef .tc main_arg12)) (X (Proc.devRef .tc main_arg13)) (X (Proc.devRef .tc main_arg14)) (X (Proc.devRef .tc main_arg15)) :=
  (cut58 X _).trans <| (tail_b2c _).trans <| by
    rw [head_keep X main_arg12 (by decide), head_keep X main_arg13 (by decide), head_keep X main_arg14 (by decide), head_keep X main_arg15 (by decide)]

theorem ops6_b2r : (StableHlo.after hostOps0_6 X (Proc.devRef .tc main_v99) : S1x256.Idx → EReal)
    = Cert.HostW.b2r (X (Proc.devRef .tc main_arg22)) (X (Proc.devRef .tc main_arg23)) (X (Proc.devRef .tc main_arg24)) (X (Proc.devRef .tc main_arg25)) :=
  (cut58 X _).trans <| (tail_b2r _).trans <| by
    rw [head_keep X main_arg22 (by decide), head_keep X main_arg23 (by decide), head_keep X main_arg24 (by decide), head_keep X main_arg25 (by decide)]

end Ops

variable (m : (ℓ : Loc nD τ sig) → Buf (Elt Ideal) ℓ) (ρ : Dev nD → PrngReg) (c : Dev nD)

theorem wm_eq : Ventry m ρ c main_v31 = (argW m c).wm :=
  (ops6_wm (W6 m ρ c)).trans <| by
    repeat rw [W6_arg m ρ c _]
    rfl
theorem bm_eq : Ventry m ρ c main_v97 = (argW m c).bm :=
  (ops6_bm (W6 m ρ c)).trans <| by
    repeat rw [W6_arg m ρ c _]
    rfl
theorem w2c_eq : Ventry m ρ c main_v78 = (argW m c).w2c :=
  (ops6_w2c (W6 m ρ c)).trans <| by
    repeat rw [W6_arg m ρ c _]
    rfl
theorem b2c_eq : Ventry m ρ c main_v98 = (argW m c).b2c :=
  (ops6_b2c (W6 m ρ c)).trans <| by
    repeat rw [W6_arg m ρ c _]
    rfl
theorem w2r_eq : Ventry m ρ c main_v81 = (argW m c).w2r :=
  (ops6_w2r (W6 m ρ c)).trans <| by
    repeat rw [W6_arg m ρ c _]
    rfl
theorem b2r_eq : Ventry m ρ c main_v99 = (argW m c).b2r :=
  (ops6_b2r (W6 m ρ c)).trans <| by
    repeat rw [W6_arg m ρ c _]
    rfl

end Cert.KernelIdeal.Fused

end
-- ==== Proof.KIForm.lean ====
import proofs.«145920_g2000606511304043_pallasbulk_952_2_alg».proof.Proof.Gen.KernelIdeal.Skeleton
import proofs.«145920_g2000606511304043_pallasbulk_952_2_alg».proof.Proof.Spec
import Idealize.ShloMosaic.Lib.ValueIdx

noncomputable section

namespace Cert.KernelIdeal.Fused

open Cert.KernelIdeal Cert.KernelIdeal.Gen
open Idealize.ShloMosaic Idealize.ShloMosaic.ValueIdx

/-- Rows 80 to 4435 carry `f`; every other row is zero. -/
def buf (f : Vec Ideal S4356x256 .bf16) : Vec Ideal S4528x256 .bf16 := fun r =>
  if h : 80 ≤ (r 0).val ∧ (r 0).val < 4436 then f (ix2 (⟨(r 0).val - 80, by omega⟩ : Fin 4356) (r 1 : Fin 256)) else (0 : EReal)

/-- Rows `o` to `o + 4355` of `b`. -/
def win (o : Nat) (ho : o + 4356 ≤ 4528) (b : Vec Ideal S4528x256 .bf16) : Vec Ideal S4356x256 .bf16 := fun j =>
  b (ix2 (⟨(j 0).val + o, by have : (j 0).val < 4356 := (j 0).isLt; omega⟩ : Fin 4528) (j 1 : Fin 256))

/-- Matrix `k` of nine, with a leading axis of length one. -/
def tapW {N : Nat} (w : Vec Ideal ⟨3, ![9, 256, N]⟩ .bf16) (k : Fin 9) : Vec Ideal ⟨3, ![1, 256, N]⟩ .bf16 := fun j =>
  w (ix3 k (j 1 : Fin 256) (j 2 : Fin N))

def feRows (x0 : Vec Ideal S1x4356x128 .bf16) (x1 : Vec Ideal S4356x1 .f32) (x2 : Vec Ideal S128x256 .bf16)
    (x3 : Vec Ideal S1x256 .f32) : Vec Ideal S4356x256 .bf16 :=
  k0_pay10 (k0_pay2 x1) (k0_pay9 x0) x2 x3

/-- Taps 0 to 7 of the 512-channel convolution, summed. -/
def acc1 (fe : Vec Ideal S4528x256 .bf16) (x4 : Vec Ideal S9x256x512 .bf16) : FVec Ideal S4356x512 .f32 :=
  k0_pay12 (k0_pay11 (win 13 (by omega) fe) (tapW x4 0) (win 14 (by omega) fe) (tapW x4 1) (win 15 (by omega) fe) (tapW x4 2))
    (win 79 (by omega) fe) (tapW x4 3) (win 80 (by omega) fe) (tapW x4 4) (win 81 (by omega) fe) (tapW x4 5)
    (win 145 (by omega) fe) (tapW x4 6) (win 146 (by omega) fe) (tapW x4 7)

/-- All nine taps of the cls branch's second convolution, with shift, SiLU and mask. -/
def clsRows (v1 : FVec Ideal S4356x1 .f32) (cb : Vec Ideal S4528x256 .bf16) (x6 : Vec Ideal S9x256x256 .bf16)
    (x7 : Vec Ideal S1x256 .f32) : FVec Ideal S4356x256 .bf16 :=
  k0_pay18 v1
    (k0_pay17 (k0_pay16 (win 13 (by omega) cb) (tapW x6 0) (win 14 (by omega) cb) (tapW x6 1))
      (win 15 (by omega) cb) (tapW x6 2) (win 79 (by omega) cb) (tapW x6 3) (win 80 (by omega) cb) (tapW x6 4)
      (win 81 (by omega) cb) (tapW x6 5) (win 145 (by omega) cb) (tapW x6 6))
    (win 146 (by omega) cb) (tapW x6 7) (win 147 (by omega) cb) (tapW x6 8) x7

/-- Taps 0 to 7 of the reg branch's second convolution, summed. -/
def acc2r (rb : Vec Ideal S4528x256 .bf16) (x8 : Vec Ideal S9x256x256 .bf16) : FVec Ideal S4356x256 .f32 :=
  k0_pay20 (k0_pay19 (win 13 (by omega) rb) (tapW x8 0) (win 14 (by omega) rb) (tapW x8 1))
    (win 15 (by omega) rb) (tapW x8 2) (win 79 (by omega) rb) (tapW x8 3) (win 80 (by omega) rb) (tapW x8 4)
    (win 81 (by omega) rb) (tapW x8 5) (win 145 (by omega) rb) (tapW x8 6) (win 146 (by omega) rb) (tapW x8 7)

/-- The zero-extended rows of one half `P` of the 512-channel convolution. -/
def mid (P : FVec Ideal S4356x1 .f32 → FVec Ideal S4356x512 .f32 → Vec Ideal S4356x256 .bf16 → Vec Ideal S1x256x512 .bf16 →
      Vec Ideal S1x512 .f32 → FVec Ideal S4356x256 .bf16)
    (x0 : Vec Ideal S1x4356x128 .bf16) (x1 : Vec Ideal S4356x1 .f32) (x2 : Vec Ideal S128x256 .bf16)
    (x3 : Vec Ideal S1x256 .f32) (x4 : Vec Ideal S9x256x512 .bf16) (x5 : Vec Ideal S1x512 .f32) : Vec Ideal S4528x256 .bf16 :=
  buf (P (k0_pay2 x1) (acc1 (buf (feRows x0 x1 x2 x3)) x4) (win 147 (by omega) (buf (feRows x0 x1 x2 x3))) (tapW x4 8) x5)

/-- The output block as a function of the thirteen input blocks. -/
def bodyOut (x0 : Vec Ideal S1x4356x128 .bf16) (x1 : Vec Ideal S4356x1 .f32) (x2 : Vec Ideal S128x256 .bf16)
    (x3 : Vec Ideal S1x256 .f32) (x4 : Vec Ideal S9x256x512 .bf16) (x5 : Vec Ideal S1x512 .f32)
    (x6 : Vec Ideal S9x256x256 .bf16) (x7 : Vec Ideal S1x256 .f32) (x8 : Vec Ideal S9x256x256 .bf16)
    (x9 : Vec Ideal S1x256 .f32) (x10 : Vec Ideal S256x255 .bf16) (x11 : Vec Ideal S256x255 .bf16)
    (x12 : Vec Ideal S1x255 .f32) : Vec Ideal S1x4356x255 .f32 :=
  k0_pay1 (k0_pay2 x1) (clsRows (k0_pay2 x1) (mid k0_pay14 x0 x1 x2 x3 x4 x5) x6 x7) (acc2r (mid k0_pay15 x0 x1 x2 x3 x4 x5) x8)
    (win 147 (by omega) (mid k0_pay15 x0 x1 x2 x3 x4 x5)) (tapW x8 8) x9 x10 x11 x12

end Cert.KernelIdeal.Fused

end
-- ==== Proof.KIPay1.lean ====
import proofs.«145920_g2000606511304043_pallasbulk_952_2_alg».proof.Proof.KIForm
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

open scoped BigOperators

namespace Cert.KernelIdeal.Fused

open Cert.KernelIdeal Cert.KernelIdeal.Gen
open Idealize.ShloMosaic Idealize.ShloMosaic.ValueIdx
open Cert.HeadSpec

/-- Entry (q, c) of an [m, k] × [k, n] product added to zero is ∑ⱼ A q j * B j c. -/
theorem mm_apply {m k n : ℕ} {φ₁ φ₂ : FTy} (A : FVec Ideal ⟨2, ![m, k]⟩ φ₁) (B : FVec Ideal ⟨2, ![k, n]⟩ φ₂) (q : Fin m) (c : Fin n) :
    matmul (DotDims.plain m k n) none A B (constant (F := Ideal) ⟨2, ![m, n]⟩ .f32 0x00000000#32) (ix2 q c)
      = ∑ j : Fin k, A (ix2 q j) * B (ix2 j c) := by
  rw [matmul_zero_eq_dotGeneral]; exact StackMember.dotGeneral_plain_apply none A B q c

/-- All four products contract axis 1 of the left factor with axis 0 of the right. -/
theorem dotm_eq : dot_S4356x128_S128x256_S4356x256_1_0_0_1_n_n = DotDims.plain 4356 128 256 := rfl
theorem dot512_eq : dot_S4356x256_S256x512_S4356x512_1_0_0_1_n_n = DotDims.plain 4356 256 512 := rfl
theorem dot256_eq : dot_S4356x256_S256x256_S4356x256_1_0_0_1_n_n = DotDims.plain 4356 256 256 := rfl
theorem dot255_eq : dot_S4356x256_S256x255_S4356x255_1_0_0_1_n_n = DotDims.plain 4356 256 255 := rfl

/-- Entry (p, c) of a column repeated along axis 1 is the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Image `n` of the padded batch, with a leading axis of length one. -/
def xb (I : K.In) (n : Fin 16) : Vec Ideal S1x4356x128 .bf16 := fun j =>
  I.xp (ix3 n (j 1 : Fin 4356) (j 2 : Fin 128))

/-- Row q + off k of the zero-extended rows is what tap k reads at q, so the product is the specification's tap. -/
theorem tap_apply {N : ℕ} (f : Vec Ideal S4356x256 .bf16) (W : Vec Ideal ⟨3, ![9, 256, N]⟩ .bf16) (k : Fin 9) (o : Nat)
    (ho : o + 4356 ≤ 4528) (hk : K.off k = o) {h : (⟨3, ![1, 256, N]⟩ : Shape).ShapeCasts ⟨2, ![256, N]⟩} (q : Fin 4356) (c : Fin N) :
    matmul (φ₁ := .bf16) (φ₂ := .bf16) (DotDims.plain 4356 256 N) none (win o ho (buf f)) (shapeCast ⟨2, ![256, N]⟩ (tapW W k) h)
      (constant (F := Ideal) ⟨2, ![4356, N]⟩ .f32 0x00000000#32) (ix2 q c)
    = K.tap W (fun q c => f (ix2 q c)) k q c := by
  subst hk
  rw [mm_apply]
  unfold K.tap
  refine Finset.sum_congr rfl fun c' _ => ?_
  rw [shapeCast_1ab_ab_apply]
  rfl

/-- The merge stage entrywise: the sum over 128 channels, shift, SiLU, mask. -/
theorem feRows_fun (I : K.In) (n : Fin 16) :
    (fun (q : Fin 4356) (c : Fin 256) => feRows (xb I n) I.mask I.wm I.bm (ix2 q c)) = K.fe I n := by
  funext q c
  unfold feRows k0_pay10 k0_pay9 k0_pay2
  simp only [shapeCast_self]
  show silu (_ + _) * _ = _
  rw [dotm_eq, mm_apply, broadcastTo_1b_ab_apply, broadcastTo_a1_ab_apply]
  unfold K.fe
  simp only [shapeCast_1ab_ab_apply]
  rfl

/-- Tap 8 added to any accumulator, then shift, SiLU and mask, entrywise. -/
theorem pay13_apply (mask : FVec Ideal S4356x1 .f32) (A : FVec Ideal S4356x512 .f32) (f : Vec Ideal S4356x256 .bf16)
    (W : Vec Ideal S9x256x512 .bf16) (b : Vec Ideal S1x512 .f32) (q : Fin 4356) (c : Fin 512) :
    k0_pay13 mask A (win 147 (by omega) (buf f)) (tapW W 8) b (ix2 q c)
      = silu (A (ix2 q c) + K.tap (N := 512) W (fun q c => f (ix2 q c)) 8 q c + b (ix2 (0 : Fin 1) c))
          * mask (ix2 q (0 : Fin 1)) := by
  unfold k0_pay13
  simp only [shapeCast_self]
  show silu (_ + _ + _) * _ = _
  rw [dot512_eq, tap_apply f W 8 147 (by omega) rfl q c, broadcastTo_1b_ab_apply, broadcastTo_a1_ab_apply]

/-- The 512-channel convolution entrywise: its nine taps are the specification's. -/
theorem s1_apply (I : K.In) (n : Fin 16) (q : Fin 4356) (c : Fin 512) :
    k0_pay13 (k0_pay2 (F := Ideal) I.mask) (acc1 (buf (feRows (xb I n) I.mask I.wm I.bm)) I.w1) (win 147 (by omega) (buf (feRows (xb I n) I.mask I.wm I.bm))) (tapW I.w1 8) I.b1 (ix2 q c)
      = K.s1 I n q c := by
  rw [pay13_apply]
  unfold acc1 k0_pay12 k0_pay11 k0_pay2
  simp only [addf_apply]
  rw [dot512_eq, tap_apply _ I.w1 0 13 (by omega) rfl q c, tap_apply _ I.w1 1 14 (by omega) rfl q c,
    tap_apply _ I.w1 2 15 (by omega) rfl q c, tap_apply _ I.w1 3 79 (by omega) rfl q c,
    tap_apply _ I.w1 4 80 (by omega) rfl q c, tap_apply _ I.w1 5 81 (by omega) rfl q c,
    tap_apply _ I.w1 6 145 (by omega) rfl q c, tap_apply _ I.w1 7 146 (by omega) rfl q c, feRows_fun, shapeCast_self]
  rfl

/-- Channels 0 to 255 of the 512 are the cls half, channels 256 to 511 the reg half. -/
theorem cb_apply (I : K.In) (n : Fin 16) (q : Fin 4356) (c : Fin 256) :
    k0_pay14 (k0_pay2 (F := Ideal) I.mask) (acc1 (buf (feRows (xb I n) I.mask I.wm I.bm)) I.w1) (win 147 (by omega) (buf (feRows (xb I n) I.mask I.wm I.bm))) (tapW I.w1 8) I.b1 (ix2 q c)
      = K.cb I n q c := by
  unfold k0_pay14
  simp only [shapeCast_self]
  rw [truncf_apply, slice2_axis1_apply 0 _ _ q c (⟨c.val, by have := c.isLt; omega⟩ : Fin 512) (Nat.zero_add _).symm, s1_apply]
  rfl

theorem rb_apply (I : K.In) (n : Fin 16) (q : Fin 4356) (c : Fin 256) :
    k0_pay15 (k0_pay2 (F := Ideal) I.mask) (acc1 (buf (feRows (xb I n) I.mask I.wm I.bm)) I.w1) (win 147 (by omega) (buf (feRows (xb I n) I.mask I.wm I.bm))) (tapW I.w1 8) I.b1 (ix2 q c)
      = K.rb I n q c := by
  unfold k0_pay15
  simp only [shapeCast_self]
  rw [truncf_apply, slice2_axis1_apply 256 _ _ q c (⟨256 + c.val, by have := c.isLt; omega⟩ : Fin 512) rfl, s1_apply]
  rfl

end Cert.KernelIdeal.Fused

end
-- ==== Proof.KIPay2.lean ====
import proofs.«145920_g2000606511304043_pallasbulk_952_2_alg».proof.Proof.KIForm
import proofs.«145920_g2000606511304043_pallasbulk_952_2_alg».proof.Proof.KIPay1
import Idealize.ShloMosaic.Lib.ValueLayout
import Idealize.ShloMosaic.PureOps.Ideal.Laws

noncomputable section

open scoped BigOperators

namespace Cert.KernelIdeal.Fused

open Cert.KernelIdeal Cert.KernelIdeal.Gen
open Idealize.ShloMosaic Idealize.ShloMosaic.ValueIdx
open Cert.HeadSpec

namespace Second

/-- A 4356 × 256 by 256 × 256 product added to zero. -/
def mm (A : FVec Ideal S4356x256 .bf16) (W : FVec Ideal S1x256x256 .bf16) : FVec Ideal S4356x256 .f32 :=
  matmul dot_S4356x256_S256x256_S4356x256_1_0_0_1_n_n none A (shapeCast S256x256 W shapeCasts_S1x256x256_S256x256)
    (constant (F := Ideal) S4356x256 .f32 0x00000000#32)

/-- `tap_apply` for rows `f` known entrywise as `g`. -/
theorem mm_tap_apply (f : Vec Ideal S4356x256 .bf16) (g : K.Rows 256) (hf : ∀ q c, f (ix2 q c) = g q c)
    (w : Vec Ideal S9x256x256 .bf16) (k : Fin 9) (o : Nat) (ho : o + 4356 ≤ 4528) (hok : o = K.off k)
    (q : Fin 4356) (c : Fin 256) :
    mm (win o ho (buf f)) (tapW w k) (ix2 q c) = K.tap w g k q c := by
  obtain rfl : (fun q c => f (ix2 q c)) = g := funext fun q => funext fun c => hf q c
  unfold mm
  rw [dot256_eq]
  exact tap_apply f w k o ho hok.symm q c

/-- Taps 0 to 7, summed from the left. -/
def acc8 (b : Vec Ideal S4528x256 .bf16) (w : Vec Ideal S9x256x256 .bf16) : FVec Ideal S4356x256 .f32 :=
  addf (addf (addf (addf (addf (addf (addf
    (mm (win 13 (by omega) b) (tapW w 0)) (mm (win 14 (by omega) b) (tapW w 1)))
    (mm (win 15 (by omega) b) (tapW w 2))) (mm (win 79 (by omega) b) (tapW w 3)))
    (mm (win 80 (by omega) b) (tapW w 4))) (mm (win 81 (by omega) b) (tapW w 5)))
    (mm (win 145 (by omega) b) (tapW w 6))) (mm (win 146 (by omega) b) (tapW w 7))

/-- Tap 8 added to `acc`, then shift, SiLU, mask, and rounding to bf16. -/
def stage (v1 : FVec Ideal S4356x1 .f32) (acc : FVec Ideal S4356x256 .f32) (a : FVec Ideal S4356x256 .bf16)
    (W : FVec Ideal S1x256x256 .bf16) (b : FVec Ideal S1x256 .f32) : FVec Ideal S4356x256 .bf16 :=
  let y : FVec Ideal S4356x256 .f32 := addf (addf acc (mm a W))
    (broadcastTo S4356x256 (shapeCast S1x256 b shapeCasts_S1x256_S1x256) broadcasts_S1x256_S4356x256)
  truncf .bf16 (mulf
    (divf y (addf (broadcast S4356x256 (Scalar.ofBits (F := Ideal) .f32 0x3F800000#32))
      (exp (subf (broadcast S4356x256 (Scalar.ofBits (F := Ideal) .f32 0x00000000#32)) y))))
    (broadcastTo S4356x256 v1 broadcasts_S4356x1_S4356x256)) bitsLt_bf16_f32

/-- Nine taps, shift, SiLU and mask entrywise: each tap is the specification's. -/
theorem stage_taps_apply (m : Vec Ideal S4356x1 .f32) (f : Vec Ideal S4356x256 .bf16) (g : K.Rows 256)
    (hf : ∀ q c, f (ix2 q c) = g q c) (w : Vec Ideal S9x256x256 .bf16) (b : Vec Ideal S1x256 .f32)
    (q : Fin 4356) (c : Fin 256) :
    stage (k0_pay2 m) (acc8 (buf f) w) (win 147 (by omega) (buf f)) (tapW w 8) b (ix2 q c)
      = silu (K.taps w g q c + b (ix2 0 c)) * m (ix2 q 0) := by
  show silu (acc8 (buf f) w (ix2 q c) + mm (win 147 (by omega) (buf f)) (tapW w 8) (ix2 q c)
      + broadcastTo S4356x256 (shapeCast S1x256 b shapeCasts_S1x256_S1x256) broadcasts_S1x256_S4356x256 (ix2 q c))
    * broadcastTo S4356x256 (k0_pay2 m) broadcasts_S4356x1_S4356x256 (ix2 q c) = _
  unfold acc8 k0_pay2
  simp only [addf_apply]
  rw [shapeCast_self, shapeCast_self, broadcastTo_1b_ab_apply, broadcastTo_a1_ab_apply,
    mm_tap_apply f g hf w 0 13 _ rfl, mm_tap_apply f g hf w 1 14 _ rfl, mm_tap_apply f g hf w 2 15 _ rfl,
    mm_tap_apply f g hf w 3 79 _ rfl, mm_tap_apply f g hf w 4 80 _ rfl, mm_tap_apply f g hf w 5 81 _ rfl,
    mm_tap_apply f g hf w 6 145 _ rfl, mm_tap_apply f g hf w 7 146 _ rfl, mm_tap_apply f g hf w 8 147 _ rfl]
  rfl

/-- Two products into 255 channels, added, shifted, with a leading axis of length one. -/
def heads (reg cls : FVec Ideal S4356x256 .bf16) (wr wc : FVec Ideal S256x255 .bf16) (bh : FVec Ideal S1x255 .f32) :
    FVec Ideal S1x4356x255 .f32 :=
  shapeCast S1x4356x255
    (addf
      (addf
        (matmul dot_S4356x256_S256x255_S4356x255_1_0_0_1_n_n none reg (shapeCast S256x255 wr shapeCasts_S256x255_S256x255)
          (constant (F := Ideal) S4356x255 .f32 0x00000000#32))
        (matmul dot_S4356x256_S256x255_S4356x255_1_0_0_1_n_n none cls (shapeCast S256x255 wc shapeCasts_S256x255_S256x255)
          (constant (F := Ideal) S4356x255 .f32 0x00000000#32)))
      (broadcastTo S4356x255 (shapeCast S1x255 bh shapeCasts_S1x255_S1x255) broadcasts_S1x255_S4356x255))
    shapeCasts_S4356x255_S1x4356x255

theorem heads_apply (reg cls : FVec Ideal S4356x256 .bf16) (wr wc : FVec Ideal S256x255 .bf16)
    (bh : FVec Ideal S1x255 .f32) (q : Fin 4356) (k : Fin 255) :
    heads reg cls wr wc bh (ix3 0 q k)
      = (∑ c : Fin 256, reg (ix2 q c) * wr (ix2 c k)) + (∑ c : Fin 256, cls (ix2 q c) * wc (ix2 c k))
        + bh (ix2 0 k) := by
  unfold heads
  rw [shapeCast_ab_1ab_apply]
  simp only [addf_apply]
  rw [dot255_eq, mm_apply, mm_apply, shapeCast_self wr, shapeCast_self wc, shapeCast_self bh, broadcastTo_1b_ab_apply]

end Second

/-- `clsRows` is `stage` over `acc8`, so its entries are the specification's second cls convolution. -/
theorem clsRows_apply (I : K.In) (n : Fin 16) (cbf : Vec Ideal S4356x256 .bf16)
    (hcb : ∀ q c, cbf (ix2 q c) = K.cb I n q c) (q : Fin 4356) (c : Fin 256) :
    clsRows (k0_pay2 I.mask) (buf cbf) I.w2c I.b2c (ix2 q c) = K.clsK I n q c :=
  (Second.stage_taps_apply I.mask cbf (K.cb I n) hcb I.w2c I.b2c q c).trans rfl

/-- The last payload is `heads` over `stage`; the sums agree term by term. -/
theorem out_apply (I : K.In) (n : Fin 16) (rbf : Vec Ideal S4356x256 .bf16)
    (hrb : ∀ q c, rbf (ix2 q c) = K.rb I n q c) (v169 : FVec Ideal S4356x256 .bf16)
    (h169 : ∀ q c, v169 (ix2 q c) = K.clsK I n q c) (q : Fin 4356) (k : Fin 255) :
    k0_pay1 (k0_pay2 I.mask) v169 (acc2r (buf rbf) I.w2r) (win 147 (by omega) (buf rbf)) (tapW I.w2r 8) I.b2r
      I.whr I.whc I.bh (ix3 0 q k) = K.outK I n q k := by
  show Second.heads (Second.stage (k0_pay2 I.mask) (Second.acc8 (buf rbf) I.w2r) (win 147 (by omega) (buf rbf)) (tapW I.w2r 8) I.b2r)
      v169 I.whr I.whc I.bh (ix3 0 q k) = _
  rw [Second.heads_apply]
  unfold K.outK
  refine congrArg₂ (· + ·) (congrArg₂ (· + ·) (Finset.sum_congr rfl fun c _ => ?_)
    (Finset.sum_congr rfl fun c _ => ?_)) rfl
  · rw [Second.stage_taps_apply I.mask rbf (K.rb I n) hrb]
    rfl
  · rw [h169]

/-- `bodyOut` of image `n`'s block and the weight arrays is `K.outK` at image `n`. -/
theorem bodyOut_eq (I : K.In) (n : Fin 16) :
    bodyOut (xb I n) I.mask I.wm I.bm I.w1 I.b1 I.w2c I.b2c I.w2r I.b2r I.whr I.whc I.bh
      = fun j => K.outK I n (j 1) (j 2) := by
  funext j
  obtain ⟨u, q, k, rfl⟩ : ∃ (u : Fin 1) (q : Fin 4356) (k : Fin 255), j = ix3 u q k := ⟨j 0, j 1, j 2, eq_ix3 j⟩
  obtain rfl : u = 0 := Subsingleton.elim _ _
  exact out_apply I n _ (fun q c => rb_apply I n q c) _
    (fun q c => clsRows_apply I n _ (fun q c => cb_apply I n q c) q c) q k

end Cert.KernelIdeal.Fused

end
-- ==== Proof.KIOutCore.lean ====
import proofs.«145920_g2000606511304043_pallasbulk_952_2_alg».proof.Proof.KIBody
import proofs.«145920_g2000606511304043_pallasbulk_952_2_alg».proof.Proof.KIForm
import Idealize.ShloMosaic.Lib.Pipeline.Value
import Idealize.ShloMosaic.Lib.WholeRead
import Idealize.ShloMosaic.Lib.ValueIdx
import Idealize.ShloMosaic.Lib.IdealHost
import Idealize.ShloMosaic.Lib.WritesUnit

set_option maxRecDepth 16384

noncomputable section

namespace Cert.KernelIdeal.Fused

open Cert.KernelIdeal Cert.KernelIdeal.Gen
open Idealize.ShloMosaic Idealize.ShloMosaic.TcCoe Idealize.ShloMosaic.ValueIdx
open Idealize.SL.Sem

theorem zeros2 : (![0, 0] : Fin 2 → Nat) = fun _ => 0 := by funext a; fin_cases a <;> rfl
theorem zeros3 : (![0, 0, 0] : Fin 3 → Nat) = fun _ => 0 := by funext a; fin_cases a <;> rfl

/-- Reading all of `X` gives `X`. -/
theorem load_whole {S : Shape} {e : EltTy} {m : Memref sig .tc .vmem S e} (h : m.IsWhole) (X : S.Idx → Elt Ideal e)
    {off : Fin S.rank → Nat} (hoff : off = fun _ => 0) (inb : ∀ a, off a + S.size a ≤ S.size a) :
    View.readAt (Elt Ideal) m.view (Rect.unit off S.size inb).toLoadRect (h.unread X) = X := by
  funext x; rw [h.readAt_unread]; exact congrFun (View.ld_unit_zero hoff inb X) x

/-- Reading block `k` along the first axis gives matrix `k`. -/
theorem load_tap {N : Nat} {m : Memref sig .tc .vmem ⟨3, ![9, 256, N]⟩ .bf16} (h : m.IsWhole) (X : Vec Ideal ⟨3, ![9, 256, N]⟩ .bf16)
    (k : Nat) (k' : Fin 9) (hk : k'.val = k)
    (inb : ∀ a, (![k, 0, 0] : Fin 3 → Nat) a + (⟨3, ![1, 256, N]⟩ : Shape).size a ≤ (⟨3, ![9, 256, N]⟩ : Shape).size a) :
    View.readAt (Elt Ideal) m.view (Rect.unit (s := ⟨3, ![9, 256, N]⟩) ![k, 0, 0] (⟨3, ![1, 256, N]⟩ : Shape).size inb).toLoadRect (h.unread X)
      = tapW X k' := by
  subst hk; funext j; rw [h.readAt_unread]; unfold tapW; congr 1
  funext a; fin_cases a <;> apply Fin.ext <;> simp [LoadRect.idx] <;> (have := (j 0).isLt; simp at this; omega)

/-- Reading 4356 rows from row `o` of what the pieces `L` leave gives those rows. -/
theorem readCov_rows (v : View sig .tc .vmem S4528x256 .bf16) (L : List (View.Piece (Elt Ideal) S4528x256 .bf16))
    (o : Nat) (ho : o + 4356 ≤ 4528) (inb : ∀ a, (![o, 0] : Fin 2 → Nat) a + S4356x256.size a ≤ S4528x256.size a) :
    v.readCov L (Rect.unit (s := S4528x256) ![o, 0] S4356x256.size inb).toLoadRect = win o ho (View.canon L) := by
  rw [View.readCov_eq_canon']; funext j; unfold win; congr 1
  funext a; fin_cases a <;> apply Fin.ext <;> simp [LoadRect.idx] <;> omega

/-- The bf16 word 0 is the number 0, at every index. -/
theorem zero_splat {S : Shape} (h : S.ShapeCasts S) (x : S.Idx) :
    shapeCast S (broadcast S (Scalar.ofBits (F := Ideal) .bf16 0x0000#16)) h x = (0 : EReal) := by
  rw [shapeCast_self]; exact Ideal.ofBits_zero_bf16

/-- Three disjoint row ranges cover the buffer: `f` on [80, 4436), zero on [4436, 4528) and on [0, 80). -/
theorem canon_buf (f : Vec Ideal S4356x256 .bf16) (z1 : FVec Ideal S92x256 .bf16) (z0 : FVec Ideal S80x256 .bf16)
    (hz1 : ∀ x, z1 x = (0 : EReal)) (hz0 : ∀ x, z0 x = (0 : EReal))
    (inb : ∀ a, (![80, 0] : Fin 2 → Nat) a + S4356x256.size a ≤ S4528x256.size a)
    (inb1 : ∀ a, (![4436, 0] : Fin 2 → Nat) a + S92x256.size a ≤ S4528x256.size a)
    (inb0 : ∀ a, (![0, 0] : Fin 2 → Nat) a + S80x256.size a ≤ S4528x256.size a) :
    View.canon (Val := Elt Ideal)
      [(⟨Rect.unit (s := S4528x256) ![80, 0] S4356x256.size inb, f⟩ : View.Piece (Elt Ideal) S4528x256 .bf16),
        ⟨Rect.unit (s := S4528x256) ![4436, 0] S92x256.size inb1, z1⟩,
        ⟨Rect.unit (s := S4528x256) ![0, 0] S80x256.size inb0, z0⟩] = buf f := by
  funext y
  refine View.canon_apply_of_pieces (buf f) _ ?_ y ?_
  · intro p hp x
    simp only [List.mem_cons, List.not_mem_nil, or_false] at hp
    rcases hp with rfl | rfl | rfl
    · show f x = buf f ((Rect.unit (s := S4528x256) ![80, 0] S4356x256.size inb).emb x)
      unfold buf
      have hx : (x 0).val < 4356 := (x 0).isLt
      have he0 : (((Rect.unit (s := S4528x256) ![80, 0] S4356x256.size inb).emb x) 0 : Nat) = 80 + 1 * (x 0).val := rfl
      have hc : 80 ≤ (((Rect.unit (s := S4528x256) ![80, 0] S4356x256.size inb).emb x) 0 : Nat)
          ∧ (((Rect.unit (s := S4528x256) ![80, 0] S4356x256.size inb).emb x) 0 : Nat) < 4436 := by rw [he0]; omega
      rw [dif_pos hc]; congr 1; funext a; fin_cases a
      · apply Fin.ext; show (x 0).val = (80 + 1 * (x 0).val) - 80; omega
      · apply Fin.ext; show (x 1).val = 0 + 1 * (x 1).val; omega
    · show z1 x = buf f ((Rect.unit (s := S4528x256) ![4436, 0] S92x256.size inb1).emb x)
      rw [hz1]; unfold buf
      have he0 : (((Rect.unit (s := S4528x256) ![4436, 0] S92x256.size inb1).emb x) 0 : Nat) = 4436 + 1 * (x 0).val := rfl
      have hc : ¬ (80 ≤ (((Rect.unit (s := S4528x256) ![4436, 0] S92x256.size inb1).emb x) 0 : Nat)
          ∧ (((Rect.unit (s := S4528x256) ![4436, 0] S92x256.size inb1).emb x) 0 : Nat) < 4436) := by rw [he0]; omega
      rw [dif_neg hc]
    · show z0 x = buf f ((Rect.unit (s := S4528x256) ![0, 0] S80x256.size inb0).emb x)
      rw [hz0]; unfold buf
      have hx : (x 0).val < 80 := (x 0).isLt
      have he0 : (((Rect.unit (s := S4528x256) ![0, 0] S80x256.size inb0).emb x) 0 : Nat) = 0 + 1 * (x 0).val := rfl
      have hc : ¬ (80 ≤ (((Rect.unit (s := S4528x256) ![0, 0] S80x256.size inb0).emb x) 0 : Nat)
          ∧ (((Rect.unit (s := S4528x256) ![0, 0] S80x256.size inb0).emb x) 0 : Nat) < 4436) := by rw [he0]; omega
      rw [dif_neg hc]
  · have hy0 : (y 0).val < 4528 := (y 0).isLt
    by_cases h1 : (y 0).val < 80
    · exact ⟨_, List.mem_cons_of_mem _ (List.mem_cons_of_mem _ List.mem_cons_self),
        (Rect.mem_set_unit (inb := inb0)).mpr (Rect.unit_rows_mem y (W := 80) rfl rfl (by omega))⟩
    by_cases h2 : (y 0).val < 4436
    · exact ⟨_, List.mem_cons_self, (Rect.mem_set_unit (inb := inb)).mpr (Rect.unit_rows_mem y (W := 4356) rfl rfl (by omega))⟩
    · exact ⟨_, List.mem_cons_of_mem _ List.mem_cons_self,
        (Rect.mem_set_unit (inb := inb1)).mpr (Rect.unit_rows_mem y (W := 92) rfl rfl (by omega))⟩

section Levels

open bodyRun.sl

variable (c : Dev nD)
  (arg1 : Memref sig .tc .vmem S1x4356x128 .bf16) (harg1 : arg1.IsWhole) (arg2 : Memref sig .tc .vmem S4356x1 .f32) (harg2 : arg2.IsWhole)
  (arg3 : Memref sig .tc .vmem S128x256 .bf16) (harg3 : arg3.IsWhole) (arg4 : Memref sig .tc .vmem S1x256 .f32) (harg4 : arg4.IsWhole)
  (arg5 : Memref sig .tc .vmem S9x256x512 .bf16) (harg5 : arg5.IsWhole) (arg6 : Memref sig .tc .vmem S1x512 .f32) (harg6 : arg6.IsWhole)
  (arg7 : Memref sig .tc .vmem S9x256x256 .bf16) (harg7 : arg7.IsWhole) (arg8 : Memref sig .tc .vmem S1x256 .f32) (harg8 : arg8.IsWhole)
  (arg9 : Memref sig .tc .vmem S9x256x256 .bf16) (harg9 : arg9.IsWhole) (arg10 : Memref sig .tc .vmem S1x256 .f32) (harg10 : arg10.IsWhole)
  (arg11 : Memref sig .tc .vmem S256x255 .bf16) (harg11 : arg11.IsWhole) (arg12 : Memref sig .tc .vmem S256x255 .bf16) (harg12 : arg12.IsWhole)
  (arg13 : Memref sig .tc .vmem S1x255 .f32) (harg13 : arg13.IsWhole)
  (arg15 arg16 arg17 : Memref sig .tc .vmem S4528x256 .bf16)
  (x0 : Vec Ideal S1x4356x128 .bf16) (x1 : Vec Ideal S4356x1 .f32) (x2 : Vec Ideal S128x256 .bf16) (x3 : Vec Ideal S1x256 .f32)
  (x4 : Vec Ideal S9x256x512 .bf16) (x5 : Vec Ideal S1x512 .f32) (x6 : Vec Ideal S9x256x256 .bf16) (x7 : Vec Ideal S1x256 .f32)
  (x8 : Vec Ideal S9x256x256 .bf16) (x9 : Vec Ideal S1x256 .f32) (x10 : Vec Ideal S256x255 .bf16) (x11 : Vec Ideal S256x255 .bf16)
  (x12 : Vec Ideal S1x255 .f32)

theorem r_eq : r (F := Ideal) c arg2 harg2 x1 = k0_pay2 x1 := by
  unfold r; rw [load_whole harg2 x1 zeros2]

/-- The first buffer is the zero-extended merge stage. -/
theorem H15_eq : View.canon (H15_3 (F := Ideal) c arg1 harg1 arg2 harg2 arg3 harg3 arg4 harg4 x0 x1 x2 x3) = buf (feRows x0 x1 x2 x3) := by
  unfold H15_3 H15_2 r_1 feRows
  rw [r_eq, load_whole harg1 x0 zeros3, load_whole harg3 x2 zeros2, load_whole harg4 x3 zeros2]
  exact canon_buf _ _ _ (zero_splat _) (zero_splat _) _ _ _

theorem r3_eq : r_3 (F := Ideal) c arg1 harg1 arg2 harg2 arg3 harg3 arg4 harg4 arg5 harg5 arg15 x0 x1 x2 x3 x4 = acc1 (buf (feRows x0 x1 x2 x3)) x4 := by
  unfold r_3 r_2 v47 v51 v56 v61 v66 v71 v76 v81 acc1
  rw [readCov_rows _ _ 13 (by omega), readCov_rows _ _ 14 (by omega), readCov_rows _ _ 15 (by omega), readCov_rows _ _ 79 (by omega), readCov_rows _ _ 80 (by omega), readCov_rows _ _ 81 (by omega), readCov_rows _ _ 145 (by omega), readCov_rows _ _ 146 (by omega), H15_eq,
    load_tap harg5 x4 0 0 rfl, load_tap harg5 x4 1 1 rfl, load_tap harg5 x4 2 2 rfl, load_tap harg5 x4 3 3 rfl, load_tap harg5 x4 4 4 rfl, load_tap harg5 x4 5 5 rfl, load_tap harg5 x4 6 6 rfl, load_tap harg5 x4 7 7 rfl]

/-- The second and third buffers are the zero-extended halves of the 512-channel convolution. -/
theorem H16_eq : View.canon (H16_3 (F := Ideal) c arg1 harg1 arg2 harg2 arg3 harg3 arg4 harg4 arg5 harg5 arg6 harg6 arg15 x0 x1 x2 x3 x4 x5) = mid k0_pay14 x0 x1 x2 x3 x4 x5 := by
  unfold H16_3 H16_2 v86 mid
  rw [r_eq, r3_eq, readCov_rows _ _ 147 (by omega), H15_eq, load_tap harg5 x4 8 8 rfl, load_whole harg6 x5 zeros2]
  exact canon_buf _ _ _ (zero_splat _) (zero_splat _) _ _ _

theorem H17_eq : View.canon (H17_3 (F := Ideal) c arg1 harg1 arg2 harg2 arg3 harg3 arg4 harg4 arg5 harg5 arg6 harg6 arg15 x0 x1 x2 x3 x4 x5) = mid k0_pay15 x0 x1 x2 x3 x4 x5 := by
  unfold H17_3 H17_2 v86 mid
  rw [r_eq, r3_eq, readCov_rows _ _ 147 (by omega), H15_eq, load_tap harg5 x4 8 8 rfl, load_whole harg6 x5 zeros2]
  exact canon_buf _ _ _ (zero_splat _) (zero_splat _) _ _ _

theorem r7_eq : r_7 (F := Ideal) c arg1 harg1 arg2 harg2 arg3 harg3 arg4 harg4 arg5 harg5 arg6 harg6 arg7 harg7 arg8 harg8 arg15 arg16 x0 x1 x2 x3 x4 x5 x6 x7 = clsRows (k0_pay2 x1) (mid k0_pay14 x0 x1 x2 x3 x4 x5) x6 x7 := by
  unfold r_7 r_6 r_5 r_4 v113 v117 v122 v127 v132 v137 v142 v147 v152 clsRows
  rw [readCov_rows _ _ 13 (by omega), readCov_rows _ _ 14 (by omega), readCov_rows _ _ 15 (by omega), readCov_rows _ _ 79 (by omega), readCov_rows _ _ 80 (by omega), readCov_rows _ _ 81 (by omega), readCov_rows _ _ 145 (by omega), readCov_rows _ _ 146 (by omega), readCov_rows _ _ 147 (by omega), H16_eq,
    r_eq, load_tap harg7 x6 0 0 rfl, load_tap harg7 x6 1 1 rfl, load_tap harg7 x6 2 2 rfl, load_tap harg7 x6 3 3 rfl, load_tap harg7 x6 4 4 rfl, load_tap harg7 x6 5 5 rfl, load_tap harg7 x6 6 6 rfl, load_tap harg7 x6 7 7 rfl, load_tap harg7 x6 8 8 rfl, load_whole harg8 x7 zeros2]

theorem r10_eq : r_10 (F := Ideal) c arg1 harg1 arg2 harg2 arg3 harg3 arg4 harg4 arg5 harg5 arg6 harg6 arg9 harg9 arg15 arg17 x0 x1 x2 x3 x4 x5 x8 = acc2r (mid k0_pay15 x0 x1 x2 x3 x4 x5) x8 := by
  unfold r_10 r_9 r_8 v170 v174 v179 v184 v189 v194 v199 v204 acc2r
  rw [readCov_rows _ _ 13 (by omega), readCov_rows _ _ 14 (by omega), readCov_rows _ _ 15 (by omega), readCov_rows _ _ 79 (by omega), readCov_rows _ _ 80 (by omega), readCov_rows _ _ 81 (by omega), readCov_rows _ _ 145 (by omega), readCov_rows _ _ 146 (by omega), H17_eq,
    load_tap harg9 x8 0 0 rfl, load_tap harg9 x8 1 1 rfl, load_tap harg9 x8 2 2 rfl, load_tap harg9 x8 3 3 rfl, load_tap harg9 x8 4 4 rfl, load_tap harg9 x8 5 5 rfl, load_tap harg9 x8 6 6 rfl, load_tap harg9 x8 7 7 rfl]

/-- The single piece written is `bodyOut` of the inputs. -/
theorem canon_bodyRun (i : grid0.Coords) (arg14 : Memref sig .tc .vmem S1x4356x255 .f32) (harg14 : arg14.IsWhole)
    (harg15 : arg15.IsWhole) (harg16 : arg16.IsWhole) (harg17 : arg17.IsWhole) :
    View.canon (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12).1 = bodyOut x0 x1 x2 x3 x4 x5 x6 x7 x8 x9 x10 x11 x12 := by
  unfold bodyRun
  dsimp only
  unfold v209
  rw [View.canon_unit_zero zeros3, r_eq, r7_eq, r10_eq, readCov_rows _ _ 147 (by omega), H17_eq, load_tap harg9 x8 8 8 rfl,
    load_whole harg10 x9 zeros2, load_whole harg11 x10 zeros2, load_whole harg12 x11 zeros2, load_whole harg13 x12 zeros2]
  rfl

end Levels

end Cert.KernelIdeal.Fused

end
-- ==== Proof.KIOut.lean ====
import proofs.«145920_g2000606511304043_pallasbulk_952_2_alg».proof.Proof.KILaunch
import proofs.«145920_g2000606511304043_pallasbulk_952_2_alg».proof.Proof.KIOutCore

set_option maxRecDepth 16384

noncomputable section

namespace Cert.KernelIdeal.Fused

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- The pieces cover the block, so what is read back is what they hold: `bodyOut` of the point's blocks. -/
theorem outAt_eq (c : Dev nD) (t : Fin cfg0.N) :
    outAt (F := Ideal) V c t
      = bodyOut (iblk0 V c 0 t) (iblk0 V c 1 t) (iblk0 V c 2 t) (iblk0 V c 3 t) (iblk0 V c 4 t) (iblk0 V c 5 t) (iblk0 V c 6 t)
          (iblk0 V c 7 t) (iblk0 V c 8 t) (iblk0 V c 9 t) (iblk0 V c 10 t) (iblk0 V c 11 t) (iblk0 V c 12 t) := by
  unfold outAt
  rw [View.read_writes_junk_eq_canon]
  apply canon_bodyRun

end Cert.KernelIdeal.Fused

end
-- ==== Proof.KIRegion.lean ====
import proofs.«145920_g2000606511304043_pallasbulk_952_2_alg».proof.Proof.KILaunch
import proofs.«145920_g2000606511304043_pallasbulk_952_2_alg».proof.Proof.KIForm
import proofs.«145920_g2000606511304043_pallasbulk_952_2_alg».proof.Proof.KIPay1
import proofs.«145920_g2000606511304043_pallasbulk_952_2_alg».proof.Proof.KIPay2
import proofs.«145920_g2000606511304043_pallasbulk_952_2_alg».proof.Proof.KIOut
import proofs.«145920_g2000606511304043_pallasbulk_952_2_alg».proof.Proof.Spec
import Idealize.ShloMosaic.Lib.Pipeline.Value
import Idealize.ShloMosaic.Lib.ValueIdx

set_option maxRecDepth 16384

noncomputable section

namespace Cert.KernelIdeal.Fused

open Cert.KernelIdeal Cert.KernelIdeal.Gen Cert.HeadSpec
open Idealize.ShloMosaic Idealize.ShloMosaic.TcCoe Idealize.ShloMosaic.ValueIdx
open Idealize.SL.Sem
open Idealize.ShloMosaic.Rounds
open Idealize.ShloMosaic.Pipeline (Dat Cfg Window)

variable (V : (c : Dev nD) → (b : Ref sig .tc) → Buf (Elt Ideal) ((c : Thread nD τ).loc b))

/-- The thirteen arrays `V` holds, as the head's input. -/
abbrev Iof (c : Dev nD) : K.In :=
  ⟨V c main_v3, V c main_v19, V c main_v31, V c main_v97, V c main_v55, V c main_v57, V c main_v78, V c main_v98, V c main_v81,
   V c main_v99, V c main_v91, V c main_v94, V c main_v96⟩

namespace Region

theorem N16 : cfg0.N = 16 := by decide

/-- Grid point `t` as an image number. -/
def imgOf (t : Fin cfg0.N) : Fin 16 := ⟨t.val, N16 ▸ t.isLt⟩

/-- `win0_0` and `win0_13` have block index (t, 0, 0) at point t. -/
theorem idx_facts : ∀ t : Fin cfg0.N,
    win0_0.index t (0 : Fin 3) = t.val ∧ win0_0.index t (1 : Fin 3) = 0 ∧ win0_0.index t (2 : Fin 3) = 0
    ∧ win0_13.index t (0 : Fin 3) = t.val ∧ win0_13.index t (1 : Fin 3) = 0 ∧ win0_13.index t (2 : Fin 3) = 0 :=
  (by decide +kernel : ∀ t : Fin grid0.N, _)

/-- The other twelve have block index 0 on every axis. -/
theorem idx_zero : ∀ (w : Fin cfg0.W) (t : Fin cfg0.N), w ≠ 0 ∧ w ≠ 13 → ∀ a, (cfg0.win w).index t a = 0 :=
  (by decide +kernel : ∀ (w : Fin 14) (t : Fin grid0.N), _)

/-- At block index 0 a block as large as its array has the array's own indices. -/
theorem emb_id (w : Fin cfg0.W) (hw : w ≠ 0 ∧ w ≠ 13) (t : Fin cfg0.N) (j : ((cfg0.win w).xblock (cfg0.grid.coords t)).Idx)
    (a : Fin (cfg0.win w).shape.rank) : ((((cfg0.win w).rect t).emb j) a : ℕ) = j a :=
  (cfg0.win w).rect_emb_val_of_index_zero t a (idx_zero w t hw a) j

theorem whole_1 (c : Dev nD) (t : Fin cfg0.N) : (iblk0 V c 1 t : Vec Ideal S4356x1 .f32) = V c main_v19 :=
  funext fun j => congrArg (V c main_v19) (funext fun a => Fin.ext (emb_id 1 (by decide) t j a))
theorem whole_2 (c : Dev nD) (t : Fin cfg0.N) : (iblk0 V c 2 t : Vec Ideal S128x256 .bf16) = V c main_v31 :=
  funext fun j => congrArg (V c main_v31) (funext fun a => Fin.ext (emb_id 2 (by decide) t j a))
theorem whole_3 (c : Dev nD) (t : Fin cfg0.N) : (iblk0 V c 3 t : Vec Ideal S1x256 .f32) = V c main_v97 :=
  funext fun j => congrArg (V c main_v97) (funext fun a => Fin.ext (emb_id 3 (by decide) t j a))
theorem whole_4 (c : Dev nD) (t : Fin cfg0.N) : (iblk0 V c 4 t : Vec Ideal S9x256x512 .bf16) = V c main_v55 :=
  funext fun j => congrArg (V c main_v55) (funext fun a => Fin.ext (emb_id 4 (by decide) t j a))
theorem whole_5 (c : Dev nD) (t : Fin cfg0.N) : (iblk0 V c 5 t : Vec Ideal S1x512 .f32) = V c main_v57 :=
  funext fun j => congrArg (V c main_v57) (funext fun a => Fin.ext (emb_id 5 (by decide) t j a))
theorem whole_6 (c : Dev nD) (t : Fin cfg0.N) : (iblk0 V c 6 t : Vec Ideal S9x256x256 .bf16) = V c main_v78 :=
  funext fun j => congrArg (V c main_v78) (funext fun a => Fin.ext (emb_id 6 (by decide) t j a))
theorem whole_7 (c : Dev nD) (t : Fin cfg0.N) : (iblk0 V c 7 t : Vec Ideal S1x256 .f32) = V c main_v98 :=
  funext fun j => congrArg (V c main_v98) (funext fun a => Fin.ext (emb_id 7 (by decide) t j a))
theorem whole_8 (c : Dev nD) (t : Fin cfg0.N) : (iblk0 V c 8 t : Vec Ideal S9x256x256 .bf16) = V c main_v81 :=
  funext fun j => congrArg (V c main_v81) (funext fun a => Fin.ext (emb_id 8 (by decide) t j a))
theorem whole_9 (c : Dev nD) (t : Fin cfg0.N) : (iblk0 V c 9 t : Vec Ideal S1x256 .f32) = V c main_v99 :=
  funext fun j => congrArg (V c main_v99) (funext fun a => Fin.ext (emb_id 9 (by decide) t j a))
theorem whole_10 (c : Dev nD) (t : Fin cfg0.N) : (iblk0 V c 10 t : Vec Ideal S256x255 .bf16) = V c main_v91 :=
  funext fun j => congrArg (V c main_v91) (funext fun a => Fin.ext (emb_id 10 (by decide) t j a))
theorem whole_11 (c : Dev nD) (t : Fin cfg0.N) : (iblk0 V c 11 t : Vec Ideal S256x255 .bf16) = V c main_v94 :=
  funext fun j => congrArg (V c main_v94) (funext fun a => Fin.ext (emb_id 11 (by decide) t j a))
theorem whole_12 (c : Dev nD) (t : Fin cfg0.N) : (iblk0 V c 12 t : Vec Ideal S1x255 .f32) = V c main_v96 :=
  funext fun j => congrArg (V c main_v96) (funext fun a => Fin.ext (emb_id 12 (by decide) t j a))

/-- Block t along the first axis of the padded batch is image t. -/
theorem image_block (c : Dev nD) (t : Fin cfg0.N) :
    (iblk0 V c 0 t : Vec Ideal S1x4356x128 .bf16) = xb (Iof V c) (imgOf t) := by
  obtain ⟨e0, e1, e2, -, -, -⟩ := idx_facts t
  funext j
  show V c main_v3 (((cfg0.win 0).blk t).view.emb j) = V c main_v3 (ix3 (imgOf t) (j 1) (j 2))
  congr 1
  funext a
  apply Fin.ext
  match a with
  | ⟨0, _⟩ => show win0_0.index t (0 : Fin 3) * 1 + 1 * (j 0).val = t.val; have hj : (j 0).val < 1 := (j 0).isLt; omega
  | ⟨1, _⟩ => show win0_0.index t (1 : Fin 3) * 4356 + 1 * (j 1).val = (j 1).val; omega
  | ⟨2, _⟩ => show win0_0.index t (2 : Fin 3) * 128 + 1 * (j 2).val = (j 2).val; omega

/-- `K.outK` at every image, row and channel. -/
def G (c : Dev nD) : Vec Ideal S16x4356x255 .f32 := fun j => K.outK (Iof V c) (j 0) (j 1) (j 2)

/-- `bodyOut_eq` at the blocks of point `t`. -/
theorem bodyOut_at (c : Dev nD) (t : Fin cfg0.N) :
    bodyOut (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (iblk0 V c 12 t)
      = fun j => K.outK (Iof V c) (imgOf t) (j 1) (j 2) := by
  rw [image_block V c t, whole_1, whole_2, whole_3, whole_4, whole_5, whole_6, whole_7, whole_8, whole_9, whole_10, whole_11, whole_12]
  exact bodyOut_eq (Iof V c) (imgOf t)

/-- Block t of `G` is `K.outK` at image t, which is what the body leaves at point t. -/
theorem flushed_eq (c : Dev nD) (t : Fin cfg0.N) :
    (dat0 V c).flushed 13 t = ((cfg0.win 13).blk t).view.read (Elt Ideal) (G V c) := by
  show (cfg0.win 13).cut (grid0.coords t) ((dat0 V c).after 13 t) = _
  rw [after0_13, outAt_eq, bodyOut_at]
  obtain ⟨-, -, -, e0, e1, e2⟩ := idx_facts t
  funext j
  show K.outK (Iof V c) (imgOf t) _ _ = G V c (((cfg0.win 13).blk t).view.emb j)
  unfold G
  congr 1 <;> apply Fin.ext
  · show t.val = win0_13.index t (0 : Fin 3) * 1 + 1 * (j 0).val; have hj : (j 0).val < 1 := (j 0).isLt; omega
  · show (j 1).val = win0_13.index t (1 : Fin 3) * 4356 + 1 * (j 1).val; omega
  · show (j 2).val = win0_13.index t (2 : Fin 3) * 255 + 1 * (j 2).val; omega

/-- Index i lies in block i 0. -/
theorem cover_out (i : S16x4356x255.Idx) :
    ∃ t : Fin cfg0.N, (cfg0.win 13).flush t = true ∧ i ∈ ((cfg0.win 13).blk t).view.set := by
  have hi0 : (i 0).val < 16 := (i 0).isLt
  have hi1 : (i 1).val < 4356 := (i 1).isLt
  have hi2 : (i 2).val < 255 := (i 2).isLt
  obtain ⟨t, ht⟩ : ∃ t : Fin cfg0.N, t.val = (i 0).val := ⟨⟨(i 0).val, N16.symm ▸ hi0⟩, rfl⟩
  refine ⟨t, flush0_13 t, ?_⟩
  obtain ⟨-, -, -, e0, e1, e2⟩ := idx_facts t
  show i ∈ ((View.whole main_v100).slice (win0_13.rect t)).set
  rw [View.set_slice_whole, Rect.mem_set_unit]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 4356 ≤ (i 1).val ∧ (i 1).val < win0_13.index t (1 : Fin 3) * 4356 + 4356; omega
  | ⟨2, _⟩ => show win0_13.index t (2 : Fin 3) * 255 ≤ (i 2).val ∧ (i 2).val < win0_13.index t (2 : Fin 3) * 255 + 255; omega

end Region

/-- Sixteen blocks of `G` cover the array, so the array is `G`. -/
theorem region_value (c : Dev nD) :
    (dat0 V c).arrAt 13 cfg0.N = fun j => K.outK (Iof V c) (j 0) (j 1) (j 2) :=
  (dat0 V c).arrAt_eq_of_cover 13 (Region.G V c) (fun t _ => Region.flushed_eq V c t) Region.cover_out

end Cert.KernelIdeal.Fused

end
-- ==== Proof.SpecK.lean ====
import proofs.«145920_g2000606511304043_pallasbulk_952_2_alg».proof.Proof.Spec

noncomputable section

open scoped BigOperators

namespace Cert.HeadSpec.K

open Idealize.ShloMosaic Idealize.ShloMosaic.ValueIdx

def padRows (g : Fmap) : Rows 256 := fun q c =>
  pad1 g ⟨q.val / 66, by omega⟩ ⟨q.val % 66, by omega⟩ c

theorem row_div (i j : Fin 64) : (row i j).val / 66 = i.val + 1 := by
  simp only [row]; omega

theorem row_mod (i j : Fin 64) : (row i j).val % 66 = j.val + 1 := by
  simp only [row]; omega

theorem padRows_row (g : Fmap) (i j : Fin 64) (c : Fin 256) : padRows g (row i j) c = g i j c := by
  have hd := row_div i j
  have hm := row_mod i j
  unfold padRows pad1
  rw [dif_pos (by simp only []; omega)]
  congr 1 <;> apply Fin.ext <;> simp only [] <;> omega

theorem masked {x : Arr ⟨4, ![16, 128, 64, 64]⟩} {W : Weights} {I : In} (h : Layout x W I)
    (F : Fin 4356 → EReal) (g : Fin 64 → Fin 64 → EReal) (hF : ∀ i j, F (row i j) = g i j) (q : Fin 4356) :
    F q * I.mask (ix2 q 0) =
      if hq : 1 ≤ q.val / 66 ∧ q.val / 66 ≤ 64 ∧ 1 ≤ q.val % 66 ∧ q.val % 66 ≤ 64 then
        g ⟨q.val / 66 - 1, by omega⟩ ⟨q.val % 66 - 1, by omega⟩ else 0 := by
  rw [h.mask]
  by_cases hq : 1 ≤ q.val / 66 ∧ q.val / 66 ≤ 64 ∧ 1 ≤ q.val % 66 ∧ q.val % 66 ≤ 64
  · rw [if_pos hq, dif_pos hq, mul_one, ← hF]
    congr 1
    apply Fin.ext
    simp only [row]
    omega
  · rw [if_neg hq, dif_neg hq, mul_zero]

theorem masked_pad {x : Arr ⟨4, ![16, 128, 64, 64]⟩} {W : Weights} {I : In} (h : Layout x W I)
    (F : Rows 256) (g : Fmap) (hF : ∀ i j c, F (row i j) c = g i j c) (q : Fin 4356) (c : Fin 256) :
    F q c * I.mask (ix2 q 0) = padRows g q c :=
  masked h (fun q => F q c) (fun i j => g i j c) (fun i j => hF i j c) q

theorem scr_pad (g : Fmap) (k : Fin 9) (i j : Fin 64) (c' : Fin 256) :
    scr (padRows g) ⟨(row i j).val + off k, by have := off_le k; omega⟩ c'
      = pad1 g ⟨i.val + k.val / 3, by omega⟩ ⟨j.val + k.val % 3, by omega⟩ c' := by
  have hk := k.isLt
  have hi := i.isLt
  have hj := j.isLt
  have h1 : (row i j).val + off k = 80 + ((i.val + k.val / 3) * 66 + (j.val + k.val % 3)) := by
    simp only [row, off]; omega
  unfold scr
  rw [dif_pos (by simp only []; omega)]
  unfold padRows
  congr 1 <;> apply Fin.ext <;> simp only [] <;> omega

theorem tap_pad {N : Nat} (w : Arr ⟨3, ![9, 256, N]⟩) (g : Fmap) (k : Fin 9) (i j : Fin 64) (c : Fin N) :
    tap w (padRows g) k (row i j) c
      = ∑ c' : Fin 256, pad1 g ⟨i.val + k.val / 3, by omega⟩ ⟨j.val + k.val % 3, by omega⟩ c' * w (ix3 k c' c) := by
  unfold tap
  exact Finset.sum_congr rfl fun c' _ => by rw [scr_pad]

theorem taps_pad (w : Arr ⟨3, ![9, 256, 256]⟩) (g : Fmap) (i j : Fin 64) (c : Fin 256) :
    taps w (padRows g) (row i j) c = HeadSpec.taps w g i j c := by
  unfold taps HeadSpec.taps HeadSpec.tap
  simp only [tap_pad]

variable {x : Arr ⟨4, ![16, 128, 64, 64]⟩} {W : Weights} {I : In}

theorem fe_eq (h : Layout x W I) (n : Fin 16) : fe I n = padRows (feat x W n) := by
  funext q c
  unfold fe
  refine masked_pad h (fun q c => silu ((∑ ch : Fin 128, I.xp (ix3 n q ch) * I.wm (ix2 ch c)) + I.bm (ix2 0 c)))
    (feat x W n) (fun i j c => ?_) q c
  simp only [h.xp, h.wm, h.bm]
  rfl

theorem w1_cls (h : Layout x W I) (k : Fin 9) (c' c : Fin 256) :
    I.w1 (ix3 k c' ⟨c.val, by omega⟩) = W.w1c (ix3 k c' c) := by
  rw [h.w1, dif_pos (by simp only []; omega)]

theorem b1_cls (h : Layout x W I) (c : Fin 256) : I.b1 (ix2 0 ⟨c.val, by omega⟩) = W.b1c (ix2 0 c) := by
  rw [h.b1, dif_pos (by simp only []; omega)]

theorem w1_reg (h : Layout x W I) (k : Fin 9) (c' c : Fin 256) :
    I.w1 (ix3 k c' ⟨256 + c.val, by omega⟩) = W.w1r (ix3 k c' c) := by
  rw [h.w1, dif_neg (by simp only []; omega)]
  congr 2
  apply Fin.ext
  simp only []
  omega

theorem b1_reg (h : Layout x W I) (c : Fin 256) : I.b1 (ix2 0 ⟨256 + c.val, by omega⟩) = W.b1r (ix2 0 c) := by
  rw [h.b1, dif_neg (by simp only []; omega)]
  congr 2
  apply Fin.ext
  simp only []
  omega

theorem taps_w1_cls (h : Layout x W I) (g : Fmap) (i j : Fin 64) (c : Fin 256) :
    taps I.w1 (padRows g) (row i j) ⟨c.val, by omega⟩ = HeadSpec.taps W.w1c g i j c := by
  unfold taps HeadSpec.taps HeadSpec.tap
  simp only [tap_pad, w1_cls h]

theorem taps_w1_reg (h : Layout x W I) (g : Fmap) (i j : Fin 64) (c : Fin 256) :
    taps I.w1 (padRows g) (row i j) ⟨256 + c.val, by omega⟩ = HeadSpec.taps W.w1r g i j c := by
  unfold taps HeadSpec.taps HeadSpec.tap
  simp only [tap_pad, w1_reg h]

theorem cb_eq (h : Layout x W I) (n : Fin 16) : cb I n = padRows (conv3 W.w1c W.b1c (feat x W n)) := by
  funext q c
  unfold cb s1
  refine masked_pad h (fun q c => silu (taps I.w1 (fe I n) q ⟨c.val, by omega⟩ + I.b1 (ix2 0 ⟨c.val, by omega⟩)))
    _ (fun i j c => ?_) q c
  simp only [fe_eq h, taps_w1_cls h, b1_cls h]
  rfl

theorem rb_eq (h : Layout x W I) (n : Fin 16) : rb I n = padRows (conv3 W.w1r W.b1r (feat x W n)) := by
  funext q c
  unfold rb s1
  refine masked_pad h (fun q c => silu (taps I.w1 (fe I n) q ⟨256 + c.val, by omega⟩ + I.b1 (ix2 0 ⟨256 + c.val, by omega⟩)))
    _ (fun i j c => ?_) q c
  simp only [fe_eq h, taps_w1_reg h, b1_reg h]
  rfl

theorem clsK_eq (h : Layout x W I) (n : Fin 16) : clsK I n = padRows (clsF x W n) := by
  funext q c
  unfold clsK
  refine masked_pad h (fun q c => silu (taps I.w2c (cb I n) q c + I.b2c (ix2 0 c))) _ (fun i j c => ?_) q c
  simp only [cb_eq h, taps_pad, h.w2c, h.b2c]
  rfl

theorem regK_eq (h : Layout x W I) (n : Fin 16) : regK I n = padRows (regF x W n) := by
  funext q c
  unfold regK
  refine masked_pad h (fun q c => silu (taps I.w2r (rb I n) q c + I.b2r (ix2 0 c))) _ (fun i j c => ?_) q c
  simp only [rb_eq h, taps_pad, h.w2r, h.b2r]
  rfl

theorem outK_eq (h : Layout x W I) (n : Fin 16) (k : Fin 255) (i j : Fin 64) :
    outK I n (row i j) k = out x W n k i j := by
  unfold outK out
  by_cases hk : k.val < 15
  · rw [dif_pos hk]
    have hc : (∑ c : Fin 256, clsK I n (row i j) c * I.whc (ix2 c k)) = 0 :=
      Finset.sum_eq_zero fun c _ => by rw [h.whc, dif_pos hk, mul_zero]
    have hr : (∑ c : Fin 256, regK I n (row i j) c * I.whr (ix2 c k))
        = ∑ c : Fin 256, regF x W n i j c * W.wro (ix2 c ⟨k.val, hk⟩) :=
      Finset.sum_congr rfl fun c _ => by rw [h.whr, dif_pos hk, regK_eq h, padRows_row]
    rw [hc, hr, add_zero, h.bh, dif_pos hk]
  · rw [dif_neg hk]
    have hr : (∑ c : Fin 256, regK I n (row i j) c * I.whr (ix2 c k)) = 0 :=
      Finset.sum_eq_zero fun c _ => by rw [h.whr, dif_neg hk, mul_zero]
    have hc : (∑ c : Fin 256, clsK I n (row i j) c * I.whc (ix2 c k))
        = ∑ c : Fin 256, clsF x W n i j c * W.wcl (ix2 c ⟨k.val - 15, by omega⟩) :=
      Finset.sum_congr rfl fun c _ => by rw [h.whc, dif_neg hk, clsK_eq h, padRows_row]
    rw [hr, hc, zero_add, h.bh, dif_neg hk]

end Cert.HeadSpec.K

end
-- ==== Proof.KIValue.lean ====
import proofs.«145920_g2000606511304043_pallasbulk_952_2_alg».proof.Proof.KILaunch
import proofs.«145920_g2000606511304043_pallasbulk_952_2_alg».proof.Proof.KIHostA
import proofs.«145920_g2000606511304043_pallasbulk_952_2_alg».proof.Proof.KIHostB
import proofs.«145920_g2000606511304043_pallasbulk_952_2_alg».proof.Proof.KIHostC
import proofs.«145920_g2000606511304043_pallasbulk_952_2_alg».proof.Proof.KIHostD
import proofs.«145920_g2000606511304043_pallasbulk_952_2_alg».proof.Proof.KIRegion
import proofs.«145920_g2000606511304043_pallasbulk_952_2_alg».proof.Proof.SpecK
import proofs.«145920_g2000606511304043_pallasbulk_952_2_alg».proof.Proof.HostW
import Idealize.ShloMosaic.Lib.ValueIdx

set_option maxRecDepth 16384

noncomputable section

namespace Cert.KernelIdeal.Fused

open Cert.KernelIdeal Cert.KernelIdeal.Gen Cert.HeadSpec
open Idealize.ShloMosaic Idealize.ShloMosaic.TcCoe Idealize.SL.Sem Idealize.ShloMosaic.ValueIdx

variable (m : (ℓ : Loc nD τ sig) → Buf (Elt Ideal) ℓ) (ρ : Dev nD → PrngReg)

/-- Argument 0 as launched. -/
abbrev launchX (c : Dev nD) : Arr ⟨4, ![16, 128, 64, 64]⟩ := m ((c : Thread nD τ).loc main_arg0)

/-- `Cert.HostW.wts` of arguments 1 to 31 as launched. -/
abbrev launchW (c : Dev nD) : Weights :=
  Cert.HostW.wts (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))
    (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31))

theorem layout_xp (c : Dev nD) (n : Fin 16) (i j : Fin 64) (ch : Fin 128) :
    (Iof (Ventry m ρ) c).xp (ix3 n (K.row i j) ch) = launchX m c (ix4 n ch i j) :=
  xp_layout m ρ c n i j ch

theorem layout_mask (c : Dev nD) (q : Fin 4356) : (Iof (Ventry m ρ) c).mask (ix2 q 0) =
    if 1 ≤ q.val / 66 ∧ q.val / 66 ≤ 64 ∧ 1 ≤ q.val % 66 ∧ q.val % 66 ≤ 64 then 1 else 0 :=
  mask_layout m ρ c q

theorem layout_wm (c : Dev nD) : (Iof (Ventry m ρ) c).wm = (launchW m c).wm := wm_eq m ρ c
theorem layout_bm (c : Dev nD) : (Iof (Ventry m ρ) c).bm = (launchW m c).bm := bm_eq m ρ c

theorem layout_w1 (c : Dev nD) (k : Fin 9) (c' : Fin 256) (cc : Fin 512) : (Iof (Ventry m ρ) c).w1 (ix3 k c' cc) =
    if h : cc.val < 256 then (launchW m c).w1c (ix3 k c' ⟨cc.val, h⟩) else (launchW m c).w1r (ix3 k c' ⟨cc.val - 256, by omega⟩) :=
  w1_layout m ρ c k c' cc
theorem layout_b1 (c : Dev nD) (cc : Fin 512) : (Iof (Ventry m ρ) c).b1 (ix2 0 cc) =
    if h : cc.val < 256 then (launchW m c).b1c (ix2 0 ⟨cc.val, h⟩) else (launchW m c).b1r (ix2 0 ⟨cc.val - 256, by omega⟩) :=
  b1_layout m ρ c cc

theorem layout_w2c (c : Dev nD) : (Iof (Ventry m ρ) c).w2c = (launchW m c).w2c := w2c_eq m ρ c
theorem layout_b2c (c : Dev nD) : (Iof (Ventry m ρ) c).b2c = (launchW m c).b2c := b2c_eq m ρ c
theorem layout_w2r (c : Dev nD) : (Iof (Ventry m ρ) c).w2r = (launchW m c).w2r := w2r_eq m ρ c
theorem layout_b2r (c : Dev nD) : (Iof (Ventry m ρ) c).b2r = (launchW m c).b2r := b2r_eq m ρ c

theorem layout_whr (c : Dev nD) (c' : Fin 256) (k : Fin 255) : (Iof (Ventry m ρ) c).whr (ix2 c' k) =
    if h : k.val < 15 then (launchW m c).wro (ix2 c' ⟨k.val, h⟩) else 0 :=
  whr_layout m ρ c c' k
theorem layout_whc (c : Dev nD) (c' : Fin 256) (k : Fin 255) : (Iof (Ventry m ρ) c).whc (ix2 c' k) =
    if h : k.val < 15 then 0 else (launchW m c).wcl (ix2 c' ⟨k.val - 15, by omega⟩) :=
  whc_layout m ρ c c' k
theorem layout_bh (c : Dev nD) (k : Fin 255) : (Iof (Ventry m ρ) c).bh (ix2 0 k) =
    if h : k.val < 15 then (launchW m c).bro (ix2 0 ⟨k.val, h⟩) else (launchW m c).bcl (ix2 0 ⟨k.val - 15, by omega⟩) :=
  bh_layout m ρ c k

/-- Field by field, the arrays the call receives are the launch arguments rearranged. -/
theorem layout (c : Dev nD) : K.Layout (launchX m c) (launchW m c) (Iof (Ventry m ρ) c) :=
  ⟨layout_xp m ρ c, layout_mask m ρ c, layout_wm m ρ c, layout_bm m ρ c, layout_w1 m ρ c, layout_b1 m ρ c,
   layout_w2c m ρ c, layout_b2c m ρ c, layout_w2r m ρ c, layout_b2r m ρ c, layout_whr m ρ c, layout_whc m ρ c,
   layout_bh m ρ c⟩

/-- The result at (n, k, i, j) is the call's array at row `K.row i j`, where `K.outK` is the head. -/
theorem result_eq (c : Dev nD) :
    (Wfin m ρ c (Proc.devRef .tc main_v103) : S16x255x64x64.Idx → EReal) = headArr (launchX m c) (launchW m c) := by
  funext idx
  obtain ⟨n, k, i, j, rfl⟩ : ∃ (n : Fin 16) (k : Fin 255) (i j : Fin 64), idx = ix4 n k i j :=
    ⟨idx 0, idx 1, idx 2, idx 3, eq_ix4 idx⟩
  refine (tail_apply m ρ c n k i j).trans ?_
  refine (congrFun ((Wexit_arr m ρ c 13).trans (region_value (Ventry m ρ) c)) (ix3 n (K.row i j) k)).trans ?_
  exact K.outK_eq (layout m ρ c) n k i j

end Cert.KernelIdeal.Fused

end
-- ==== Proof.SpecR.lean ====
import proofs.«145920_g2000606511304043_pallasbulk_952_2_alg».proof.Proof.Spec
import Idealize.ShloMosaic.PureOps.Ideal.Laws

noncomputable section

open scoped BigOperators

namespace Cert.HeadSpec.R

open Idealize.ShloMosaic Idealize.ShloMosaic.ValueIdx

theorem prow_eq (n : Fin 16) (i j : Fin 64) (h : n.val * 4096 + (pix i j).val < 65536) :
    (⟨n.val * 4096 + (pix i j).val, h⟩ : Fin 65536) = prow n i j :=
  Fin.ext (by simp only [prow, pix]; omega)

theorem pix_div (i j : Fin 64) : (pix i j).val / 64 = i.val := by
  have := j.isLt; simp only [pix]; omega

theorem pix_mod (i j : Fin 64) : (pix i j).val % 64 = j.val := by
  have := j.isLt; simp only [pix]; omega

theorem pad1_congr (f : Fmap) {a a' b b' : Fin 66} (ha : a.val = a'.val) (hb : b.val = b'.val) (c : Fin 256) :
    pad1 f a b c = pad1 f a' b' c := by
  rw [Fin.ext ha, Fin.ext hb]

theorem IsPad.eq_pad1 {f : Fin 16 → Fin 4096 → Fin 256 → EReal} {P : Arr ⟨4, ![16, 66, 66, 256]⟩}
    (hP : IsPad f P) (g : Fin 16 → Fmap) (hfg : ∀ n i j c, f n (pix i j) c = g n i j c)
    (n : Fin 16) (a b : Fin 66) (c : Fin 256) : P (ix4 n a b c) = pad1 (g n) a b c := by
  rw [hP n a b c]
  unfold pad1
  split_ifs with h
  · exact hfg _ _ _ _
  · rfl

theorem tap_eq {P : Arr ⟨4, ![16, 66, 66, 256]⟩} {f : Fmap} {n : Fin 16}
    (hP : ∀ a b c, P (ix4 n a b c) = pad1 f a b c) (w : Arr ⟨3, ![9, 256, 256]⟩)
    (k : Fin 9) (i j : Fin 64) (c : Fin 256) :
    R.tap P w k n (pix i j) c = HeadSpec.tap w f k i j c := by
  unfold R.tap HeadSpec.tap
  refine Finset.sum_congr rfl fun c' _ => ?_
  rw [hP]
  congr 1
  exact pad1_congr f (by simp only [pix_div]) (by simp only [pix_mod]) c'

theorem conv_eq {P : Arr ⟨4, ![16, 66, 66, 256]⟩} {f : Fmap} {n : Fin 16}
    (hP : ∀ a b c, P (ix4 n a b c) = pad1 f a b c) (w : Arr ⟨3, ![9, 256, 256]⟩) (b : Arr ⟨2, ![1, 256]⟩)
    (i j : Fin 64) (c : Fin 256) :
    R.conv P w b n (pix i j) c = conv3 w b f i j c := by
  unfold R.conv conv3 taps
  simp only [tap_eq hP, Ideal.ofBits_zero_f32, zero_add]

variable {x : Arr ⟨4, ![16, 128, 64, 64]⟩} {W : Weights}

theorem pointwise_eq (C : Chain x W) (n : Fin 16) (i j : Fin 64) (c : Fin 256) :
    pointwise C.x2d W.wm W.bm (prow n i j) c = feat x W n i j c := by
  unfold pointwise feat
  simp only [C.hx]

theorem featP_eq (C : Chain x W) (n : Fin 16) (a b : Fin 66) (c : Fin 256) :
    C.featP (ix4 n a b c) = pad1 (feat x W n) a b c :=
  IsPad.eq_pad1 C.hfeat (feat x W) (fun n i j c => by
    show pointwise C.x2d W.wm W.bm ⟨n.val * 4096 + (pix i j).val, _⟩ c = _
    rw [prow_eq, pointwise_eq]) n a b c

theorem c1P_eq (C : Chain x W) (n : Fin 16) (a b : Fin 66) (c : Fin 256) :
    C.c1P (ix4 n a b c) = pad1 (conv3 W.w1c W.b1c (feat x W n)) a b c :=
  IsPad.eq_pad1 C.hc1 (fun n => conv3 W.w1c W.b1c (feat x W n))
    (fun n i j c => conv_eq (featP_eq C n) W.w1c W.b1c i j c) n a b c

theorem r1P_eq (C : Chain x W) (n : Fin 16) (a b : Fin 66) (c : Fin 256) :
    C.r1P (ix4 n a b c) = pad1 (conv3 W.w1r W.b1r (feat x W n)) a b c :=
  IsPad.eq_pad1 C.hr1 (fun n => conv3 W.w1r W.b1r (feat x W n))
    (fun n i j c => conv_eq (featP_eq C n) W.w1r W.b1r i j c) n a b c

theorem cls2d_eq (C : Chain x W) (n : Fin 16) (i j : Fin 64) (c : Fin 256) :
    C.cls2d (ix2 (prow n i j) c) = clsF x W n i j c := by
  have h := C.hcls n (pix i j) c
  rw [prow_eq] at h
  rw [h]
  exact conv_eq (c1P_eq C n) W.w2c W.b2c i j c

theorem reg2d_eq (C : Chain x W) (n : Fin 16) (i j : Fin 64) (c : Fin 256) :
    C.reg2d (ix2 (prow n i j) c) = regF x W n i j c := by
  have h := C.hreg n (pix i j) c
  rw [prow_eq] at h
  rw [h]
  exact conv_eq (r1P_eq C n) W.w2r W.b2r i j c

theorem res_apply (C : Chain x W) (n : Fin 16) (k : Fin 255) (i j : Fin 64) :
    C.res (ix4 n k i j) = out x W n k i j := by
  rw [C.hres]
  unfold out head
  split_ifs with h
  · simp only [reg2d_eq]
  · simp only [cls2d_eq]

theorem res_eq (C : Chain x W) : C.res = headArr x W := by
  funext idx
  obtain ⟨n, k, i, j, rfl⟩ : ∃ n k i j, idx = ix4 n k i j := ⟨idx 0, idx 1, idx 2, idx 3, eq_ix4 idx⟩
  exact res_apply C n k i j

end Cert.HeadSpec.R

end
-- ==== Proof.RILayout.lean ====
import proofs.«145920_g2000606511304043_pallasbulk_952_2_alg».proof.Proof.Spec
import Idealize.ShloMosaic.Lib.KernelVsHost
import Idealize.ShloMosaic.Lib.Pipeline.Value
import Idealize.ShloMosaic.Lib.ValueIdx

set_option maxRecDepth 16384

noncomputable section

namespace Cert.ReferenceIdeal.Run

open Cert.HeadSpec
open Idealize.ShloMosaic Idealize.ShloMosaic.ValueIdx

section Layout
variable {α : Type}

theorem x2d_apply (x : (⟨4, ![16, 128, 64, 64]⟩ : Shape).Idx → α)
    (ht : (⟨4, ![16, 128, 64, 64]⟩ : Shape).Transposes [0, 2, 3, 1] ⟨4, ![16, 64, 64, 128]⟩)
    (hc : (⟨4, ![16, 64, 64, 128]⟩ : Shape).ShapeCasts ⟨2, ![65536, 128]⟩)
    (n : Fin 16) (i j : Fin 64) (ch : Fin 128) :
    shapeCast ⟨2, ![65536, 128]⟩ (transpose ⟨4, ![16, 64, 64, 128]⟩ [0, 2, 3, 1] x ht) hc (ix2 (R.prow n i j) ch)
      = x (ix4 n ch i j) := by
  refine (shapeCast_apply _ hc (ix2 (R.prow n i j) ch) (ix4 n i j ch) ?_).trans ?_
  · rw [Shape.rowMajor_val_four, Shape.rowMajor_val_two]
    show ((n.val * 64 + i.val) * 64 + j.val) * 128 + ch.val = (n.val * 4096 + i.val * 64 + j.val) * 128 + ch.val
    omega
  · exact transpose_apply _ x ht (ix4 n i j ch) (ix4 n ch i j) (fun b => match b with
      | ⟨0, _⟩ => rfl | ⟨1, _⟩ => rfl | ⟨2, _⟩ => rfl | ⟨3, _⟩ => rfl)

theorem unflat_apply (f : (⟨2, ![65536, 256]⟩ : Shape).Idx → α)
    (hc : (⟨2, ![65536, 256]⟩ : Shape).ShapeCasts ⟨4, ![16, 64, 64, 256]⟩)
    (n : Fin 16) (i j : Fin 64) (c : Fin 256) :
    shapeCast ⟨4, ![16, 64, 64, 256]⟩ f hc (ix4 n i j c) = f (ix2 (R.prow n i j) c) := by
  refine shapeCast_apply _ hc (ix4 n i j c) (ix2 (R.prow n i j) c) ?_
  rw [Shape.rowMajor_val_four, Shape.rowMajor_val_two]
  show (n.val * 4096 + i.val * 64 + j.val) * 256 + c.val = ((n.val * 64 + i.val) * 64 + j.val) * 256 + c.val
  omega

theorem unflat3_apply (g : (⟨3, ![16, 4096, 256]⟩ : Shape).Idx → α)
    (hc : (⟨3, ![16, 4096, 256]⟩ : Shape).ShapeCasts ⟨4, ![16, 64, 64, 256]⟩)
    (n : Fin 16) (i j : Fin 64) (c : Fin 256) :
    shapeCast ⟨4, ![16, 64, 64, 256]⟩ g hc (ix4 n i j c) = g (ix3 n (R.pix i j) c) := by
  refine shapeCast_apply _ hc (ix4 n i j c) (ix3 n (R.pix i j) c) ?_
  rw [Shape.rowMajor_val_four, Shape.rowMajor_val_three]
  show (n.val * 4096 + (i.val * 64 + j.val)) * 256 + c.val = ((n.val * 64 + i.val) * 64 + j.val) * 256 + c.val
  omega

theorem pad1_apply (x : (⟨4, ![16, 64, 64, 256]⟩ : Shape).Idx → α) (v : (⟨0, ![]⟩ : Shape).Idx → α)
    (hp : (⟨4, ![16, 64, 64, 256]⟩ : Shape).Pads (![0, 1, 1, 0] : Fin 4 → Nat) ![0, 1, 1, 0] ![0, 0, 0, 0]
      ⟨4, ![16, 66, 66, 256]⟩)
    (hu : 0 < (⟨0, ![]⟩ : Shape).numel) (n : Fin 16) (a b : Fin 66) (c : Fin 256) :
    pad ⟨4, ![16, 66, 66, 256]⟩ ![0, 1, 1, 0] ![0, 1, 1, 0] ![0, 0, 0, 0] x v hp hu (ix4 n a b c)
      = if h : 1 ≤ a.val ∧ a.val ≤ 64 ∧ 1 ≤ b.val ∧ b.val ≤ 64 then
          x (ix4 n ⟨a.val - 1, by omega⟩ ⟨b.val - 1, by omega⟩ c)
        else v (Shape.Idx.first hu) := by
  by_cases h : 1 ≤ a.val ∧ a.val ≤ 64 ∧ 1 ≤ b.val ∧ b.val ≤ 64
  · rw [dif_pos h]
    refine pad_apply_of_inside _ _ _ x v hp hu (ix4 n a b c)
      (ix4 n ⟨a.val - 1, by omega⟩ ⟨b.val - 1, by omega⟩ c) (fun ax => match ax with
      | ⟨0, _⟩ => ?_ | ⟨1, _⟩ => ?_ | ⟨2, _⟩ => ?_ | ⟨3, _⟩ => ?_)
    · show n.val = 0 + n.val * (0 + 1); omega
    · show a.val = 1 + (a.val - 1) * (0 + 1); omega
    · show b.val = 1 + (b.val - 1) * (0 + 1); omega
    · show c.val = 0 + c.val * (0 + 1); omega
  · rw [dif_neg h]
    by_cases ha : 1 ≤ a.val ∧ a.val ≤ 64
    · refine pad_apply_of_not_inside _ _ _ x v hp hu (ix4 n a b c) ⟨2, by decide⟩ ?_
      show ¬(1 ≤ b.val ∧ (b.val - 1) % (0 + 1) = 0 ∧ (b.val - 1) / (0 + 1) < 64)
      omega
    · refine pad_apply_of_not_inside _ _ _ x v hp hu (ix4 n a b c) ⟨1, by decide⟩ ?_
      show ¬(1 ≤ a.val ∧ (a.val - 1) % (0 + 1) = 0 ∧ (a.val - 1) / (0 + 1) < 64)
      omega

theorem result_apply (ro : (⟨2, ![65536, 15]⟩ : Shape).Idx → α) (cl : (⟨2, ![65536, 240]⟩ : Shape).Idx → α)
    (hcat : Shape.Concatenates [(⟨2, ![65536, 15]⟩ : Shape), ⟨2, ![65536, 240]⟩] ⟨2, ![65536, 255]⟩ 1)
    (hc : (⟨2, ![65536, 255]⟩ : Shape).ShapeCasts ⟨4, ![16, 64, 64, 255]⟩)
    (ht : (⟨4, ![16, 64, 64, 255]⟩ : Shape).Transposes [0, 3, 1, 2] ⟨4, ![16, 255, 64, 64]⟩)
    (n : Fin 16) (k : Fin 255) (i j : Fin 64) :
    transpose ⟨4, ![16, 255, 64, 64]⟩ [0, 3, 1, 2]
        (shapeCast ⟨4, ![16, 64, 64, 255]⟩
          (concatenate ⟨2, ![65536, 255]⟩ 1 [⟨⟨2, ![65536, 15]⟩, ro⟩, ⟨⟨2, ![65536, 240]⟩, cl⟩] hcat) hc) ht
        (ix4 n k i j)
      = if h : k.val < 15 then ro (ix2 (R.prow n i j) ⟨k.val, h⟩)
        else cl (ix2 (R.prow n i j) ⟨k.val - 15, by omega⟩) := by
  refine (transpose_apply _ _ ht (ix4 n k i j) (ix4 n i j k) (fun b => match b with
      | ⟨0, _⟩ => rfl | ⟨1, _⟩ => rfl | ⟨2, _⟩ => rfl | ⟨3, _⟩ => rfl)).trans ?_
  refine (shapeCast_apply _ hc (ix4 n i j k) (ix2 (R.prow n i j) k) ?_).trans ?_
  · rw [Shape.rowMajor_val_four, Shape.rowMajor_val_two]
    show (n.val * 4096 + i.val * 64 + j.val) * 255 + k.val = ((n.val * 64 + i.val) * 64 + j.val) * 255 + k.val
    omega
  by_cases h : k.val < 15
  · rw [dif_pos h]
    exact concatenate_pair_apply_left 1 ro cl hcat (ix2 (R.prow n i j) k) rfl (ix2 (R.prow n i j) ⟨k.val, h⟩)
      (fun b => match b with | ⟨0, _⟩ => rfl | ⟨1, _⟩ => rfl)
  · rw [dif_neg h]
    exact concatenate_pair_apply_right 1 ro cl hcat (ix2 (R.prow n i j) k) rfl rfl
      (ix2 (R.prow n i j) ⟨k.val - 15, by omega⟩)
      (fun b => match b with | ⟨0, _⟩ => fun _ => rfl | ⟨1, _⟩ => fun hb => absurd rfl hb)
      (by show (k.val - 15) + 15 = k.val; omega)

theorem flat_rows_apply (g : (⟨3, ![16, 4096, 256]⟩ : Shape).Idx → α)
    (h1 : (⟨3, ![16, 4096, 256]⟩ : Shape).ShapeCasts ⟨4, ![16, 64, 64, 256]⟩)
    (h2 : (⟨4, ![16, 64, 64, 256]⟩ : Shape).ShapeCasts ⟨2, ![65536, 256]⟩)
    (n : Fin 16) (p : Fin 4096) (c : Fin 256) (hb : n.val * 4096 + p.val < 65536) :
    shapeCast ⟨2, ![65536, 256]⟩ (shapeCast ⟨4, ![16, 64, 64, 256]⟩ g h1) h2 (ix2 ⟨n.val * 4096 + p.val, hb⟩ c)
      = g (ix3 n p c) := by
  refine (shapeCast_apply _ h2 (ix2 ⟨n.val * 4096 + p.val, hb⟩ c)
    (ix4 n ⟨p.val / 64, by omega⟩ ⟨p.val % 64, by omega⟩ c) ?_).trans
    (shapeCast_apply _ h1 (ix4 n ⟨p.val / 64, by omega⟩ ⟨p.val % 64, by omega⟩ c) (ix3 n p c) ?_)
  · rw [Shape.rowMajor_val_four, Shape.rowMajor_val_two]
    show ((n.val * 64 + p.val / 64) * 64 + p.val % 64) * 256 + c.val = (n.val * 4096 + p.val) * 256 + c.val
    omega
  · rw [Shape.rowMajor_val_three, Shape.rowMajor_val_four]
    show (n.val * 4096 + p.val) * 256 + c.val = ((n.val * 64 + p.val / 64) * 64 + p.val % 64) * 256 + c.val
    omega

end Layout

section Padded

theorem padv_zero (hu : 0 < (⟨0, ![]⟩ : Shape).numel) :
    (sitofp (F := Ideal) .f32 (constantI ⟨0, ![]⟩ 32 0#32) : (⟨0, ![]⟩ : Shape).Idx → EReal) (Shape.Idx.first hu) = 0 :=
  sitofp_zero

theorem isPad_of_flat (f : (⟨2, ![65536, 256]⟩ : Shape).Idx → EReal) (v : (⟨0, ![]⟩ : Shape).Idx → EReal)
    (hc : (⟨2, ![65536, 256]⟩ : Shape).ShapeCasts ⟨4, ![16, 64, 64, 256]⟩)
    (hp : (⟨4, ![16, 64, 64, 256]⟩ : Shape).Pads (![0, 1, 1, 0] : Fin 4 → Nat) ![0, 1, 1, 0] ![0, 0, 0, 0]
      ⟨4, ![16, 66, 66, 256]⟩)
    (hu : 0 < (⟨0, ![]⟩ : Shape).numel) (hv : v (Shape.Idx.first hu) = 0) :
    R.IsPad (fun n p c => f (ix2 ⟨n.val * 4096 + p.val, by omega⟩ c))
      (pad ⟨4, ![16, 66, 66, 256]⟩ ![0, 1, 1, 0] ![0, 1, 1, 0] ![0, 0, 0, 0]
        (shapeCast ⟨4, ![16, 64, 64, 256]⟩ f hc) v hp hu) := by
  intro n a b c
  rw [pad1_apply]
  by_cases h : 1 ≤ a.val ∧ a.val ≤ 64 ∧ 1 ≤ b.val ∧ b.val ≤ 64
  · rw [dif_pos h, dif_pos h, unflat_apply]
    exact congrArg (fun r => f (ix2 r c)) (Fin.ext (by simp only [R.prow, R.pix]; omega))
  · rw [dif_neg h, dif_neg h, hv]

theorem isPad_of_rows (g : (⟨3, ![16, 4096, 256]⟩ : Shape).Idx → EReal) (v : (⟨0, ![]⟩ : Shape).Idx → EReal)
    (hc : (⟨3, ![16, 4096, 256]⟩ : Shape).ShapeCasts ⟨4, ![16, 64, 64, 256]⟩)
    (hp : (⟨4, ![16, 64, 64, 256]⟩ : Shape).Pads (![0, 1, 1, 0] : Fin 4 → Nat) ![0, 1, 1, 0] ![0, 0, 0, 0]
      ⟨4, ![16, 66, 66, 256]⟩)
    (hu : 0 < (⟨0, ![]⟩ : Shape).numel) (hv : v (Shape.Idx.first hu) = 0) :
    R.IsPad (fun n p c => g (ix3 n p c))
      (pad ⟨4, ![16, 66, 66, 256]⟩ ![0, 1, 1, 0] ![0, 1, 1, 0] ![0, 0, 0, 0]
        (shapeCast ⟨4, ![16, 64, 64, 256]⟩ g hc) v hp hu) := by
  intro n a b c
  rw [pad1_apply]
  by_cases h : 1 ≤ a.val ∧ a.val ≤ 64 ∧ 1 ≤ b.val ∧ b.val ≤ 64
  · rw [dif_pos h, dif_pos h, unflat3_apply]
  · rw [dif_neg h, dif_neg h, hv]

end Padded

end Cert.ReferenceIdeal.Run

end
-- ==== Proof.RIPoint.lean ====
import proofs.«145920_g2000606511304043_pallasbulk_952_2_alg».proof.Proof.Gen.ReferenceIdeal.Frame
import proofs.«145920_g2000606511304043_pallasbulk_952_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.Point

open Cert.ReferenceIdeal Cert.ReferenceIdeal.Gen Cert.HeadSpec

-- An M × K block times a K × N matrix into a zero accumulator: entry (p, q) is row p against column q.
theorem mm_apply {M K N : Nat} (x0 : FVec Ideal ⟨2, ![M, K]⟩ .f32) (x1 : FVec Ideal ⟨2, ![K, N]⟩ .f32) (p : Fin M) (q : Fin N) :
    matmul (F := Ideal) (DotDims.plain M K N) none x0 x1 (constant (F := Ideal) ⟨2, ![M, N]⟩ .f32 0x00000000#32) (ix2 p q)
      = ∑ ch : Fin K, x0 (ix2 p ch) * x1 (ix2 ch q) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

-- Adding a row spread over the M rows adds, at (p, q), the row's entry q.
theorem affine_apply {M K N : Nat} (x0 : FVec Ideal ⟨2, ![M, K]⟩ .f32) (x1 : FVec Ideal ⟨2, ![K, N]⟩ .f32)
    (x2 : FVec Ideal ⟨2, ![1, N]⟩ .f32) (hb : (⟨2, ![1, N]⟩ : Shape).Broadcasts ⟨2, ![M, N]⟩) (p : Fin M) (q : Fin N) :
    addf (matmul (F := Ideal) (DotDims.plain M K N) none x0 x1 (constant (F := Ideal) ⟨2, ![M, N]⟩ .f32 0x00000000#32))
        (broadcastTo ⟨2, ![M, N]⟩ x2 hb) (ix2 p q)
      = (∑ ch : Fin K, x0 (ix2 p ch) * x1 (ix2 ch q)) + x2 (ix2 0 q) :=
  (addf_apply _ _ _).trans (congrArg₂ (· + ·) (mm_apply x0 x1 p q) (broadcastTo_apply x2 hb (ix2 p q) (ix2 0 q) fun a => by
    match a with
    | ⟨0, _⟩ => rfl
    | ⟨1, _⟩ =>
      show q.val = if N = 1 then 0 else q.val
      have := q.isLt
      split <;> omega))

theorem pay_apply (x0 : Vec Ideal S512x128 .f32) (x1 : Vec Ideal S128x256 .f32) (x2 : Vec Ideal S1x256 .f32) (p : Fin 512) (q : Fin 256) :
    k0_pay1 (F := Ideal) x0 x1 x2 (ix2 p q) = silu ((∑ ch : Fin 128, x0 (ix2 p ch) * x1 (ix2 ch q)) + x2 (ix2 0 q)) := by
  unfold k0_pay1
  refine (silu_apply _ _).trans (congrArg silu ?_)
  rw [shapeCast_self, shapeCast_self, shapeCast_self]
  exact affine_apply x0 x1 x2 _ p q

theorem hz : (![0, 0] : Fin 2 → Nat) = fun _ => 0 := funext fun a => by fin_cases a <;> rfl

section Region
variable (V : (c : Dev nD) → (b : Ref sig .tc) → Buf (Elt Ideal) ((c : Thread nD τ).loc b))

abbrev xarr (c : Dev nD) : Vec Ideal S65536x128 .f32 := V c (Pipeline.arrRef spec0 0)
abbrev warr (c : Dev nD) : Vec Ideal S128x256 .f32 := V c (Pipeline.arrRef spec0 1)
abbrev barr (c : Dev nD) : Vec Ideal S1x256 .f32 := V c (Pipeline.arrRef spec0 2)

abbrev pointArr (c : Dev nD) : Vec Ideal S65536x256 .f32 := fun j =>
  R.pointwise (xarr V c) (warr V c) (barr V c) (j 0) (j 1)

theorem idx_facts : ∀ t : Fin cfg0.N, win0_0.index t (0 : Fin 2) = t.val ∧ win0_0.index t (1 : Fin 2) = 0
    ∧ win0_3.index t (0 : Fin 2) = t.val ∧ win0_3.index t (1 : Fin 2) = 0 :=
  (by decide +kernel : ∀ t : Fin grid0.N, _)

theorem xblk_apply (c : Dev nD) (t : Fin cfg0.N) (p : Fin 512) (ch : Fin 128) (r : Fin 65536) (hr : r.val = 512 * t.val + p.val) :
    (iblk0 V c 0 t : Vec Ideal S512x128 .f32) (ix2 p ch) = xarr V c (ix2 r ch) := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 512 + 1 * p.val = r.val; rw [e0, hr]; omega
  | ⟨1, _⟩ => show win0_0.index t (1 : Fin 2) * 128 + 1 * ch.val = ch.val; rw [e1]; omega

theorem wblk_apply (c : Dev nD) (t : Fin cfg0.N) (ch : Fin 128) (q : Fin 256) :
    (iblk0 V c 1 t : Vec Ideal S128x256 .f32) (ix2 ch q) = warr V c (ix2 ch q) := by
  show warr V c (((cfg0.win 1).blk t).view.emb (ix2 ch q)) = _
  exact congrArg (warr V c) (funext fun a => Fin.ext (win0_1.rect_emb_val_of_index_zero t a
    ((by decide +kernel : ∀ t : Fin grid0.N, ∀ a, win0_1.index t a = 0) t a) _))

theorem bblk_apply (c : Dev nD) (t : Fin cfg0.N) (q : Fin 256) :
    (iblk0 V c 2 t : Vec Ideal S1x256 .f32) (ix2 0 q) = barr V c (ix2 0 q) := by
  show barr V c (((cfg0.win 2).blk t).view.emb (ix2 0 q)) = _
  exact congrArg (barr V c) (funext fun a => Fin.ext (win0_2.rect_emb_val_of_index_zero t a
    ((by decide +kernel : ∀ t : Fin grid0.N, ∀ a, win0_2.index t a = 0) t a) _))

theorem blk_point (c : Dev nD) (t : Fin cfg0.N) (y : S512x256.Idx) (i : S65536x256.Idx)
    (h0 : (i 0).val = 512 * t.val + (y 0).val) (h1 : (i 1).val = (y 1).val) :
    k0_pay1 (F := Ideal) (iblk0 V c 0 t) (iblk0 V c 1 t) (iblk0 V c 2 t) y = pointArr V c i := by
  obtain ⟨p, q, rfl⟩ : ∃ (p : Fin 512) (q : Fin 256), y = ix2 p q := ⟨y 0, y 1, eq_ix2 y⟩
  rw [pay_apply]
  show silu _ = silu _
  have hq : i 1 = q := Fin.ext h1
  refine congrArg silu ?_
  rw [bblk_apply, hq]
  refine congrArg (· + barr V c (ix2 0 q)) ?_
  refine Finset.sum_congr rfl fun ch _ => ?_
  rw [xblk_apply V c t p ch (i 0) h0, wblk_apply]

theorem flushed_eq (c : Dev nD) (t : Fin cfg0.N) :
    (dat0 (F := Ideal) V c).flushed 3 t = ((cfg0.win 3).blk t).view.read (Elt Ideal) (pointArr V c) := by
  show (cfg0.win 3).cut (grid0.coords t) ((dat0 (F := Ideal) V c).after 3 t) = _
  rw [after0_3]
  unfold out0_3
  rw [View.canon_unit_zero hz]
  simp only [View.ld_unit_zero (S := S512x128) hz, View.ld_unit_zero (S := S128x256) hz, View.ld_unit_zero (S := S1x256) hz]
  obtain ⟨-, -, e0, e1⟩ := idx_facts t
  funext y
  refine blk_point V c t y _ ?_ ?_
  · show win0_3.index t (0 : Fin 2) * 512 + 1 * (y 0).val = 512 * t.val + (y 0).val; rw [e0]; omega
  · show win0_3.index t (1 : Fin 2) * 256 + 1 * (y 1).val = (y 1).val; rw [e1]; omega

-- Rows 512 t … 512 t + 511 for t < 128 are all 65536 rows.
theorem point_value (c : Dev nD) : (dat0 (F := Ideal) V c).arrAt 3 cfg0.N = pointArr V c :=
  (dat0 (F := Ideal) V c).arrAt_eq_of_cover 3 (pointArr V c) (fun t _ => flushed_eq V c t) fun i => by
    have hi0 : (i 0).val < 65536 := (i 0).isLt
    have hi1 : (i 1).val < 256 := (i 1).isLt
    have hN : cfg0.N = 128 := N_0
    let t : Fin cfg0.N := ⟨(i 0).val / 512, by rw [hN]; omega⟩
    obtain ⟨-, -, e0, e1⟩ := idx_facts t
    refine ⟨t, flush0_3 t, ?_⟩
    show i ∈ ((View.whole main_v14).slice (win0_3.rect t)).set
    rw [View.set_slice_whole, Rect.mem_set_unit]
    intro a
    match a with
    | ⟨0, _⟩ => show win0_3.index t (0 : Fin 2) * 512 ≤ (i 0).val ∧ (i 0).val < win0_3.index t (0 : Fin 2) * 512 + 512; rw [e0]; show (i 0).val / 512 * 512 ≤ (i 0).val ∧ (i 0).val < (i 0).val / 512 * 512 + 512; omega
    | ⟨1, _⟩ => show win0_3.index t (1 : Fin 2) * 256 ≤ (i 1).val ∧ (i 1).val < win0_3.index t (1 : Fin 2) * 256 + 256; rw [e1]; omega

end Region

end Cert.ReferenceIdeal.Point

end
-- ==== Proof.RIConv1.lean ====
import proofs.«145920_g2000606511304043_pallasbulk_952_2_alg».proof.Proof.RIPoint

set_option maxRecDepth 16384
noncomputable section
open scoped BigOperators

namespace Cert.RIConv1
open Cert.ReferenceIdeal Cert.ReferenceIdeal.Gen Idealize.ShloMosaic Idealize.ShloMosaic.ValueIdx Idealize.ShloMosaic.TcCoe Idealize.SL.Sem
open Idealize.ShloMosaic.Pipeline (Dat)
open Cert.HeadSpec

theorem mm_apply (A : FVec Ideal S4096x256 .f32) (B : FVec Ideal S256x256 .f32) (p : Fin 4096) (c : Fin 256) :
    matmul dot_S4096x256_S256x256_S4096x256_1_0_0_1_n_n none A B (constant (F := Ideal) S4096x256 .f32 0x00000000#32) (ix2 p c)
      = ∑ k : Fin 256, A (ix2 p k) * B (ix2 k c) :=
  Cert.ReferenceIdeal.Point.mm_apply A B p c

theorem flat_apply (v : Vec Ideal S1x64x64x256 .f32) (p : Fin 4096) (k : Fin 256) :
    shapeCast S4096x256 (shapeCast S64x64x256 v shapeCasts_S1x64x64x256_S64x64x256) shapeCasts_S64x64x256_S4096x256 (ix2 p k)
      = v (ix4 0 ⟨p.val / 64, by omega⟩ ⟨p.val % 64, by omega⟩ k) := by
  rw [shapeCast_apply _ shapeCasts_S64x64x256_S4096x256 (ix2 p k) (ix3 ⟨p.val / 64, by omega⟩ ⟨p.val % 64, by omega⟩ k) (by
    rw [Shape.rowMajor_val_three, Shape.rowMajor_val_two]
    show ((p.val / 64) * 64 + p.val % 64) * 256 + k.val = p.val * 256 + k.val
    omega)]
  rw [shapeCast_apply _ shapeCasts_S1x64x64x256_S64x64x256 (ix3 ⟨p.val / 64, by omega⟩ ⟨p.val % 64, by omega⟩ k)
    (ix4 0 ⟨p.val / 64, by omega⟩ ⟨p.val % 64, by omega⟩ k) (by
    rw [Shape.rowMajor_val_four, Shape.rowMajor_val_three]
    show (((0 : Fin 1).val * 64 + p.val / 64) * 64 + p.val % 64) * 256 + k.val = ((p.val / 64) * 64 + p.val % 64) * 256 + k.val
    simp)]

theorem mat_apply (w : Vec Ideal S1x256x256 .f32) (a b : Fin 256) :
    shapeCast S256x256 w shapeCasts_S1x256x256_S256x256 (ix2 a b) = w (ix3 0 a b) := by
  rw [shapeCast_apply _ shapeCasts_S1x256x256_S256x256 (ix2 a b) (ix3 0 a b) (by
    rw [Shape.rowMajor_val_three, Shape.rowMajor_val_two]
    show ((0 : Fin 1).val * 256 + a.val) * 256 + b.val = a.val * 256 + b.val
    simp)]

def tapv (v : Vec Ideal S1x64x64x256 .f32) (w : Vec Ideal S1x256x256 .f32) (p : Fin 4096) (c : Fin 256) : EReal :=
  ∑ k : Fin 256, v (ix4 0 ⟨p.val / 64, by omega⟩ ⟨p.val % 64, by omega⟩ k) * w (ix3 0 k c)

theorem tap_apply (v : Vec Ideal S1x64x64x256 .f32) (w : Vec Ideal S1x256x256 .f32) (p : Fin 4096) (c : Fin 256) :
    matmul dot_S4096x256_S256x256_S4096x256_1_0_0_1_n_n none
      (shapeCast S4096x256 (shapeCast S64x64x256 v shapeCasts_S1x64x64x256_S64x64x256) shapeCasts_S64x64x256_S4096x256 : FVec Ideal S4096x256 .f32)
      (shapeCast S256x256 w shapeCasts_S1x256x256_S256x256 : FVec Ideal S256x256 .f32) (constant (F := Ideal) S4096x256 .f32 0x00000000#32) (ix2 p c)
      = tapv v w p c := by
  rw [mm_apply]
  unfold tapv
  refine Finset.sum_congr rfl fun k _ => ?_
  rw [flat_apply, mat_apply]

theorem pay2_apply (v1 : Vec Ideal S1x64x64x256 .f32) (v4 : Vec Ideal S1x256x256 .f32) (v8 : Vec Ideal S1x64x64x256 .f32)
    (v11 : Vec Ideal S1x256x256 .f32) (v15 : Vec Ideal S1x64x64x256 .f32) (v18 : Vec Ideal S1x256x256 .f32)
    (p : Fin 4096) (c : Fin 256) :
    k1_pay2 v1 v4 v8 v11 v15 v18 (ix2 p c)
      = Ideal.ofBits .f32 0x00000000#32 + tapv v1 v4 p c + tapv v8 v11 p c + tapv v15 v18 p c := by
  unfold k1_pay2
  simp only [addf_apply, broadcast_apply, tap_apply]
  rfl

theorem pay5_apply (v21 : FVec Ideal S4096x256 .f32) (v24 : FVec Ideal S4096x256 .f32) (v26 : FVec Ideal S256x256 .f32)
    (v29 : Vec Ideal S1x64x64x256 .f32) (v32 : Vec Ideal S1x256x256 .f32) (v36 : Vec Ideal S1x64x64x256 .f32)
    (v39 : Vec Ideal S1x256x256 .f32) (v43 : Vec Ideal S1x64x64x256 .f32) (v46 : Vec Ideal S1x256x256 .f32)
    (p : Fin 4096) (c : Fin 256) :
    k1_pay5 v21 v24 v26 v29 v32 v36 v39 v43 v46 (ix2 p c)
      = v21 (ix2 p c) + (∑ k : Fin 256, v24 (ix2 p k) * v26 (ix2 k c)) + tapv v29 v32 p c + tapv v36 v39 p c + tapv v43 v46 p c := by
  unfold k1_pay5
  simp only [addf_apply, tap_apply]
  simp only [mm_apply]

theorem pay1_apply (v49 : FVec Ideal S4096x256 .f32) (v52 : FVec Ideal S4096x256 .f32) (v54 : FVec Ideal S256x256 .f32)
    (v57 : Vec Ideal S1x64x64x256 .f32) (v60 : Vec Ideal S1x256x256 .f32) (v64 : Vec Ideal S1x256 .f32)
    (p : Fin 4096) (c : Fin 256) :
    k1_pay1 v49 v52 v54 v57 v60 v64 (ix3 0 p c)
      = silu ((v49 (ix2 p c) + (∑ k : Fin 256, v52 (ix2 p k) * v54 (ix2 k c)) + tapv v57 v60 p c) + v64 (ix2 0 c)) := by
  unfold k1_pay1
  rw [shapeCast_apply _ shapeCasts_S4096x256_S1x4096x256 (ix3 0 p c) (ix2 p c) (by
    rw [Shape.rowMajor_val_two, Shape.rowMajor_val_three]
    show p.val * 256 + c.val = ((0 : Fin 1).val * 4096 + p.val) * 256 + c.val
    simp)]
  refine (silu_apply _ _).trans ?_
  simp only [addf_apply, tap_apply]
  simp only [mm_apply]
  rw [broadcastTo_apply _ broadcasts_S1x256_S4096x256 (ix2 p c) (ix2 0 c) (by
    intro a
    match a with
    | ⟨0, _⟩ => rfl
    | ⟨1, _⟩ => rfl), shapeCast_self]

def btap (x0 : Vec Ideal S1x66x66x256 .f32) (x1 : Vec Ideal S9x256x256 .f32) (k : Fin 9) (p : Fin 4096) (c : Fin 256) : EReal :=
  ∑ c' : Fin 256, x0 (ix4 0 ⟨p.val / 64 + k.val / 3, by omega⟩ ⟨p.val % 64 + k.val % 3, by omega⟩ c') * x1 (ix3 k c' c)

def bconv (x0 : Vec Ideal S1x66x66x256 .f32) (x1 : Vec Ideal S9x256x256 .f32) (x2 : Vec Ideal S1x256 .f32)
    (p : Fin 4096) (c : Fin 256) : EReal :=
  silu ((Ideal.ofBits .f32 0x00000000#32 + btap x0 x1 0 p c + btap x0 x1 1 p c + btap x0 x1 2 p c + btap x0 x1 3 p c
    + btap x0 x1 4 p c + btap x0 x1 5 p c + btap x0 x1 6 p c + btap x0 x1 7 p c + btap x0 x1 8 p c) + x2 (ix2 0 c))

theorem tapv_ld (x0 : Vec Ideal S1x66x66x256 .f32) (x1 : Vec Ideal S9x256x256 .f32) (k : Fin 9) (dh dw kk : Nat)
    (e1 : dh = k.val / 3) (e2 : dw = k.val % 3) (e3 : kk = k.val)
    (inb0 : ∀ a, (![0, dh, dw, 0] : Fin 4 → Nat) a + S1x64x64x256.size a ≤ S1x66x66x256.size a)
    (inb1 : ∀ a, (![kk, 0, 0] : Fin 3 → Nat) a + S1x256x256.size a ≤ S9x256x256.size a) (p : Fin 4096) (c : Fin 256) :
    tapv (View.ld x0 (Rect.unit (s := S1x66x66x256) ![0, dh, dw, 0] S1x64x64x256.size inb0))
      (View.ld x1 (Rect.unit (s := S9x256x256) ![kk, 0, 0] S1x256x256.size inb1)) p c = btap x0 x1 k p c := by
  subst e1 e2 e3
  unfold tapv btap
  refine Finset.sum_congr rfl fun c' _ => ?_
  have h0 : (Rect.unit (s := S1x66x66x256) ![0, k.val / 3, k.val % 3, 0] S1x64x64x256.size inb0).idx
      (ix4 0 ⟨p.val / 64, by omega⟩ ⟨p.val % 64, by omega⟩ c')
      = ix4 0 ⟨p.val / 64 + k.val / 3, by omega⟩ ⟨p.val % 64 + k.val % 3, by omega⟩ c' := by
    funext a; apply Fin.ext
    match a with
    | ⟨0, _⟩ => rfl
    | ⟨1, _⟩ => show k.val / 3 + 1 * (p.val / 64) = p.val / 64 + k.val / 3; omega
    | ⟨2, _⟩ => show k.val % 3 + 1 * (p.val % 64) = p.val % 64 + k.val % 3; omega
    | ⟨3, _⟩ => show 0 + 1 * c'.val = c'.val; omega
  have h1 : (Rect.unit (s := S9x256x256) ![k.val, 0, 0] S1x256x256.size inb1).idx (ix3 0 c' c) = ix3 k c' c := by
    funext a; apply Fin.ext
    match a with
    | ⟨0, _⟩ => show k.val + 1 * 0 = k.val; omega
    | ⟨1, _⟩ => show 0 + 1 * c'.val = c'.val; omega
    | ⟨2, _⟩ => show 0 + 1 * c.val = c.val; omega
  show x0 _ * x1 _ = _
  rw [h0, h1]

theorem mid_tap3 (v : Vec Ideal S1x64x64x256 .f32) (w : Vec Ideal S1x256x256 .f32) (p : Fin 4096) (c : Fin 256) :
    (∑ k : Fin 256, k1_pay3 v (ix2 p k) * k1_pay4 w (ix2 k c)) = tapv v w p c := by
  unfold k1_pay3 k1_pay4 tapv
  refine Finset.sum_congr rfl fun k _ => ?_
  rw [flat_apply, mat_apply]

theorem mid_tap7 (v : Vec Ideal S1x64x64x256 .f32) (w : Vec Ideal S1x256x256 .f32) (p : Fin 4096) (c : Fin 256) :
    (∑ k : Fin 256, k1_pay6 v (ix2 p k) * k1_pay7 w (ix2 k c)) = tapv v w p c := by
  unfold k1_pay6 k1_pay7 tapv
  refine Finset.sum_congr rfl fun k _ => ?_
  rw [flat_apply, mat_apply]

theorem hz2 : (![0, 0] : Fin 2 → Nat) = fun _ => 0 := funext fun a => by fin_cases a <;> rfl
theorem hz3 : (![0, 0, 0] : Fin 3 → Nat) = fun _ => 0 := funext fun a => by fin_cases a <;> rfl

/-- The body's stored block at pixel row p, channel c: nine taps of the padded image block, the shift, SiLU. -/
theorem out_apply (x0 : Vec Ideal S1x66x66x256 .f32) (x1 : Vec Ideal S9x256x256 .f32) (x2 : Vec Ideal S1x256 .f32)
    (p : Fin 4096) (c : Fin 256) : out1_3 x0 x1 x2 (ix3 0 p c) = bconv x0 x1 x2 p c := by
  unfold out1_3
  rw [View.canon_unit_zero hz3, pay1_apply, pay5_apply, pay2_apply, mid_tap3, mid_tap7,
    tapv_ld x0 x1 0 0 0 0 rfl rfl rfl, tapv_ld x0 x1 1 0 1 1 rfl rfl rfl, tapv_ld x0 x1 2 0 2 2 rfl rfl rfl,
    tapv_ld x0 x1 3 1 0 3 rfl rfl rfl, tapv_ld x0 x1 4 1 1 4 rfl rfl rfl, tapv_ld x0 x1 5 1 2 5 rfl rfl rfl,
    tapv_ld x0 x1 6 2 0 6 rfl rfl rfl, tapv_ld x0 x1 7 2 1 7 rfl rfl rfl, tapv_ld x0 x1 8 2 2 8 rfl rfl rfl,
    View.ld_unit_zero (S := S1x256) hz2]
  rfl

theorem bconv_eq (x0 : Vec Ideal S1x66x66x256 .f32) (x1 : Vec Ideal S9x256x256 .f32) (x2 : Vec Ideal S1x256 .f32)
    (X : Arr ⟨4, ![16, 66, 66, 256]⟩) (W : Arr ⟨3, ![9, 256, 256]⟩) (B : Arr ⟨2, ![1, 256]⟩) (n : Fin 16)
    (hx : ∀ (a b : Fin 66) (k : Fin 256), x0 (ix4 0 a b k) = X (ix4 n a b k))
    (hw : ∀ (k : Fin 9) (a b : Fin 256), x1 (ix3 k a b) = W (ix3 k a b))
    (hb : ∀ k : Fin 256, x2 (ix2 0 k) = B (ix2 0 k)) (p : Fin 4096) (c : Fin 256) :
    bconv x0 x1 x2 p c = R.conv X W B n p c := by
  unfold bconv R.conv btap R.tap
  simp only [hx, hw, hb]

section Arrays
variable (V : (c : Dev nD) → (b : Ref sig .tc) → Buf (Elt Ideal) ((c : Thread nD τ).loc b))

abbrev xarr (c : Dev nD) : Vec Ideal S16x66x66x256 .f32 := V c (Pipeline.arrRef spec1 0)
abbrev warr (c : Dev nD) : Vec Ideal S9x256x256 .f32 := V c (Pipeline.arrRef spec1 1)
abbrev barr (c : Dev nD) : Vec Ideal S1x256 .f32 := V c (Pipeline.arrRef spec1 2)

def G (c : Dev nD) : Vec Ideal S16x4096x256 .f32 := fun j =>
  R.conv (xarr V c) (warr V c) (barr V c) (j 0) (j 1) (j 2)

theorem idx_facts : ∀ t : Fin cfg1.N,
    win1_0.index t (0 : Fin 4) = t.val ∧ win1_0.index t (1 : Fin 4) = 0 ∧ win1_0.index t (2 : Fin 4) = 0
    ∧ win1_0.index t (3 : Fin 4) = 0
    ∧ win1_3.index t (0 : Fin 3) = t.val ∧ win1_3.index t (1 : Fin 3) = 0 ∧ win1_3.index t (2 : Fin 3) = 0 :=
  (by decide +kernel : ∀ t : Fin grid1.N, _)

theorem t_lt (t : Fin cfg1.N) : t.val < 16 := by
  have h : t.val < grid1.N := t.isLt
  rwa [N_1] at h

theorem xblk_apply (c : Dev nD) (t : Fin cfg1.N) (a b : Fin 66) (k : Fin 256) :
    (iblk1 V c 0 t : Vec Ideal S1x66x66x256 .f32) (ix4 0 a b k) = xarr V c (ix4 ⟨t.val, t_lt t⟩ a b k) := by
  obtain ⟨e0, e1, e2, e3, -⟩ := idx_facts t
  show xarr V c (((cfg1.win 0).blk t).view.emb (ix4 0 a b k)) = _
  refine congrArg (xarr V c) (funext fun ax => Fin.ext ?_)
  match ax with
  | ⟨0, _⟩ => show win1_0.index t (0 : Fin 4) * 1 + 1 * 0 = t.val; omega
  | ⟨1, _⟩ => show win1_0.index t (1 : Fin 4) * 66 + 1 * a.val = a.val; omega
  | ⟨2, _⟩ => show win1_0.index t (2 : Fin 4) * 66 + 1 * b.val = b.val; omega
  | ⟨3, _⟩ => show win1_0.index t (3 : Fin 4) * 256 + 1 * k.val = k.val; omega

theorem wblk_apply (c : Dev nD) (t : Fin cfg1.N) (k : Fin 9) (a b : Fin 256) :
    (iblk1 V c 1 t : Vec Ideal S9x256x256 .f32) (ix3 k a b) = warr V c (ix3 k a b) := by
  show warr V c (((cfg1.win 1).blk t).view.emb (ix3 k a b)) = _
  exact congrArg (warr V c) (funext fun ax => Fin.ext (win1_1.rect_emb_val_of_index_zero t ax
    ((by decide +kernel : ∀ t : Fin grid1.N, ∀ ax, win1_1.index t ax = 0) t ax) _))

theorem bblk_apply (c : Dev nD) (t : Fin cfg1.N) (k : Fin 256) :
    (iblk1 V c 2 t : Vec Ideal S1x256 .f32) (ix2 0 k) = barr V c (ix2 0 k) := by
  show barr V c (((cfg1.win 2).blk t).view.emb (ix2 0 k)) = _
  exact congrArg (barr V c) (funext fun ax => Fin.ext (win1_2.rect_emb_val_of_index_zero t ax
    ((by decide +kernel : ∀ t : Fin grid1.N, ∀ ax, win1_2.index t ax = 0) t ax) _))

theorem emb_eq (t : Fin cfg1.N) (p : Fin 4096) (ch : Fin 256) :
    ((cfg1.win 3).blk t).view.emb (ix3 0 p ch) = ix3 ⟨t.val, t_lt t⟩ p ch := by
  obtain ⟨-, -, -, -, e0, e1, e2⟩ := idx_facts t
  funext ax; apply Fin.ext
  match ax with
  | ⟨0, _⟩ => show win1_3.index t (0 : Fin 3) * 1 + 1 * 0 = t.val; omega
  | ⟨1, _⟩ => show win1_3.index t (1 : Fin 3) * 4096 + 1 * p.val = p.val; omega
  | ⟨2, _⟩ => show win1_3.index t (2 : Fin 3) * 256 + 1 * ch.val = ch.val; omega

theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  funext y
  revert y
  show ∀ y : S1x4096x256.Idx, _ = G V c (((cfg1.win 3).blk t).view.emb y)
  intro y
  obtain ⟨z, p, ch, rfl⟩ : ∃ (z : Fin 1) (p : Fin 4096) (ch : Fin 256), y = ix3 z p ch := ⟨y 0, y 1, y 2, eq_ix3 y⟩
  obtain rfl : z = 0 := Subsingleton.elim _ _
  rw [emb_eq]
  refine (out_apply _ _ _ p ch).trans ?_
  exact bconv_eq _ _ _ (xarr V c) (warr V c) (barr V c) ⟨t.val, t_lt t⟩ (xblk_apply V c t) (wblk_apply V c t)
    (bblk_apply V c t) p ch

theorem conv1_value (c : Dev nD) : (dat1 (F := Ideal) V c).arrAt 3 cfg1.N = fun j =>
    Cert.HeadSpec.R.conv (V c (Pipeline.arrRef spec1 0)) (V c (Pipeline.arrRef spec1 1)) (V c (Pipeline.arrRef spec1 2))
      (j 0) (j 1) (j 2) :=
  (dat1 (F := Ideal) V c).arrAt_eq_of_cover 3 (G V c) (fun t _ => flushed_eq V c t) fun (i : S16x4096x256.Idx) => by
    obtain ⟨a, p, ch, rfl⟩ : ∃ (a : Fin 16) (p : Fin 4096) (ch : Fin 256), i = ix3 a p ch := ⟨i 0, i 1, i 2, eq_ix3 i⟩
    have ha : a.val < grid1.N := by rw [N_1]; exact a.isLt
    have h := ((cfg1.win 3).blk ⟨a.val, ha⟩).view.emb_mem_set (ix3 0 p ch)
    rw [emb_eq] at h
    exact ⟨⟨a.val, ha⟩, flush1_3 _, h⟩

end Arrays

end Cert.RIConv1
end
-- ==== Proof.RIConv3.lean ====
import proofs.«145920_g2000606511304043_pallasbulk_952_2_alg».proof.Proof.RIConv1

set_option maxRecDepth 16384
noncomputable section
open scoped BigOperators

namespace Cert.RIConv3
open Cert.ReferenceIdeal Cert.ReferenceIdeal.Gen Idealize.ShloMosaic Idealize.ShloMosaic.ValueIdx Idealize.ShloMosaic.TcCoe Idealize.SL.Sem
open Idealize.ShloMosaic.Pipeline (Dat)
open Cert.HeadSpec
open Cert.RIConv1 (out_apply bconv_eq)

/-- This stage runs the same body as the first 3 × 3 stage. -/
theorem out_same (x0 : Vec Ideal S1x66x66x256 .f32) (x1 : Vec Ideal S9x256x256 .f32) (x2 : Vec Ideal S1x256 .f32) :
    out3_3 x0 x1 x2 = out1_3 x0 x1 x2 := rfl

section Arrays
variable (V : (c : Dev nD) → (b : Ref sig .tc) → Buf (Elt Ideal) ((c : Thread nD τ).loc b))

abbrev xarr (c : Dev nD) : Vec Ideal S16x66x66x256 .f32 := V c (Pipeline.arrRef spec3 0)
abbrev warr (c : Dev nD) : Vec Ideal S9x256x256 .f32 := V c (Pipeline.arrRef spec3 1)
abbrev barr (c : Dev nD) : Vec Ideal S1x256 .f32 := V c (Pipeline.arrRef spec3 2)

def G (c : Dev nD) : Vec Ideal S16x4096x256 .f32 := fun j =>
  R.conv (xarr V c) (warr V c) (barr V c) (j 0) (j 1) (j 2)

theorem idx_facts : ∀ t : Fin cfg3.N,
    win3_0.index t (0 : Fin 4) = t.val ∧ win3_0.index t (1 : Fin 4) = 0 ∧ win3_0.index t (2 : Fin 4) = 0
    ∧ win3_0.index t (3 : Fin 4) = 0
    ∧ win3_3.index t (0 : Fin 3) = t.val ∧ win3_3.index t (1 : Fin 3) = 0 ∧ win3_3.index t (2 : Fin 3) = 0 :=
  (by decide +kernel : ∀ t : Fin grid3.N, _)

theorem t_lt (t : Fin cfg3.N) : t.val < 16 := by
  have h : t.val < grid3.N := t.isLt
  rwa [N_3] at h

theorem xblk_apply (c : Dev nD) (t : Fin cfg3.N) (a b : Fin 66) (k : Fin 256) :
    (iblk3 V c 0 t : Vec Ideal S1x66x66x256 .f32) (ix4 0 a b k) = xarr V c (ix4 ⟨t.val, t_lt t⟩ a b k) := by
  obtain ⟨e0, e1, e2, e3, -⟩ := idx_facts t
  show xarr V c (((cfg3.win 0).blk t).view.emb (ix4 0 a b k)) = _
  refine congrArg (xarr V c) (funext fun ax => Fin.ext ?_)
  match ax with
  | ⟨0, _⟩ => show win3_0.index t (0 : Fin 4) * 1 + 1 * 0 = t.val; omega
  | ⟨1, _⟩ => show win3_0.index t (1 : Fin 4) * 66 + 1 * a.val = a.val; omega
  | ⟨2, _⟩ => show win3_0.index t (2 : Fin 4) * 66 + 1 * b.val = b.val; omega
  | ⟨3, _⟩ => show win3_0.index t (3 : Fin 4) * 256 + 1 * k.val = k.val; omega

theorem wblk_apply (c : Dev nD) (t : Fin cfg3.N) (k : Fin 9) (a b : Fin 256) :
    (iblk3 V c 1 t : Vec Ideal S9x256x256 .f32) (ix3 k a b) = warr V c (ix3 k a b) := by
  show warr V c (((cfg3.win 1).blk t).view.emb (ix3 k a b)) = _
  exact congrArg (warr V c) (funext fun ax => Fin.ext (win3_1.rect_emb_val_of_index_zero t ax
    ((by decide +kernel : ∀ t : Fin grid3.N, ∀ ax, win3_1.index t ax = 0) t ax) _))

theorem bblk_apply (c : Dev nD) (t : Fin cfg3.N) (k : Fin 256) :
    (iblk3 V c 2 t : Vec Ideal S1x256 .f32) (ix2 0 k) = barr V c (ix2 0 k) := by
  show barr V c (((cfg3.win 2).blk t).view.emb (ix2 0 k)) = _
  exact congrArg (barr V c) (funext fun ax => Fin.ext (win3_2.rect_emb_val_of_index_zero t ax
    ((by decide +kernel : ∀ t : Fin grid3.N, ∀ ax, win3_2.index t ax = 0) t ax) _))

theorem emb_eq (t : Fin cfg3.N) (p : Fin 4096) (ch : Fin 256) :
    ((cfg3.win 3).blk t).view.emb (ix3 0 p ch) = ix3 ⟨t.val, t_lt t⟩ p ch := by
  obtain ⟨-, -, -, -, e0, e1, e2⟩ := idx_facts t
  funext ax; apply Fin.ext
  match ax with
  | ⟨0, _⟩ => show win3_3.index t (0 : Fin 3) * 1 + 1 * 0 = t.val; omega
  | ⟨1, _⟩ => show win3_3.index t (1 : Fin 3) * 4096 + 1 * p.val = p.val; omega
  | ⟨2, _⟩ => show win3_3.index t (2 : Fin 3) * 256 + 1 * ch.val = ch.val; omega

theorem flushed_eq (c : Dev nD) (t : Fin cfg3.N) :
    (dat3 (F := Ideal) V c).flushed 3 t = ((cfg3.win 3).blk t).view.read (Elt Ideal) (G V c) := by
  show (cfg3.win 3).cut (grid3.coords t) ((dat3 V c).after 3 t) = _
  rw [after3_3]
  rw [out_same]
  funext y
  revert y
  show ∀ y : S1x4096x256.Idx, _ = G V c (((cfg3.win 3).blk t).view.emb y)
  intro y
  obtain ⟨z, p, ch, rfl⟩ : ∃ (z : Fin 1) (p : Fin 4096) (ch : Fin 256), y = ix3 z p ch := ⟨y 0, y 1, y 2, eq_ix3 y⟩
  obtain rfl : z = 0 := Subsingleton.elim _ _
  rw [emb_eq]
  refine (out_apply _ _ _ p ch).trans ?_
  exact bconv_eq _ _ _ (xarr V c) (warr V c) (barr V c) ⟨t.val, t_lt t⟩ (xblk_apply V c t) (wblk_apply V c t)
    (bblk_apply V c t) p ch

theorem conv3_value (c : Dev nD) : (dat3 (F := Ideal) V c).arrAt 3 cfg3.N = fun j =>
    Cert.HeadSpec.R.conv (V c (Pipeline.arrRef spec3 0)) (V c (Pipeline.arrRef spec3 1)) (V c (Pipeline.arrRef spec3 2))
      (j 0) (j 1) (j 2) :=
  (dat3 (F := Ideal) V c).arrAt_eq_of_cover 3 (G V c) (fun t _ => flushed_eq V c t) fun (i : S16x4096x256.Idx) => by
    obtain ⟨a, p, ch, rfl⟩ : ∃ (a : Fin 16) (p : Fin 4096) (ch : Fin 256), i = ix3 a p ch := ⟨i 0, i 1, i 2, eq_ix3 i⟩
    have ha : a.val < grid3.N := by rw [N_3]; exact a.isLt
    have h := ((cfg3.win 3).blk ⟨a.val, ha⟩).view.emb_mem_set (ix3 0 p ch)
    rw [emb_eq] at h
    exact ⟨⟨a.val, ha⟩, flush3_3 _, h⟩

end Arrays

end Cert.RIConv3
end
-- ==== Proof.RIEntry.lean ====
import proofs.«145920_g2000606511304043_pallasbulk_952_2_alg».proof.Proof.RIRun
import proofs.«145920_g2000606511304043_pallasbulk_952_2_alg».proof.Proof.HostW
import Idealize.ShloMosaic.Lib.StableHlo.Run

set_option maxRecDepth 16384

noncomputable section

namespace Cert.ReferenceIdeal.Run

open Cert.ReferenceIdeal Cert.ReferenceIdeal.Gen
open Idealize.ShloMosaic Idealize.ShloMosaic.TcCoe Idealize.ShloMosaic.StableHlo

section Keep

variable {F : FTy → Type} [FloatOps F]

abbrev wr0 : List (Ref sig .tc) := [main_v0, main_v1, main_cst, main_v2, main_v3, main_v4, main_v5, main_v6, main_v7, main_v8, main_v9, main_v10, main_v11, main_v12, main_v13]
abbrev wr1 : List (Ref sig .tc) := [main_v15, main_cst_0, main_v16, main_v17, main_v18, main_v19, main_v20, main_v21, main_v22, main_v23, main_v24, main_cst_1, main_v25, main_v26, main_v27, main_v28, main_v29, main_v30, main_v31, main_v32, main_v33, main_v34, main_v35, main_v36, main_c]
abbrev wr1_1 : List (Ref sig .tc) := [main_call0_v0, main_v37]
abbrev wr2 : List (Ref sig .tc) := [main_v39, main_v40, main_v41, main_v42, main_c_2]
abbrev wr2_1 : List (Ref sig .tc) := [main_call1_v0, main_v43]
abbrev wr3 : List (Ref sig .tc) := [main_v45, main_cst_3, main_v46, main_v47, main_v48, main_v49, main_v50, main_v51, main_v52, main_v53, main_v54, main_cst_4, main_v55, main_v56, main_v57, main_v58, main_v59, main_v60, main_v61, main_v62, main_v63, main_v64, main_v65, main_v66, main_c_5]
abbrev wr3_1 : List (Ref sig .tc) := [main_call2_v0, main_v67]
abbrev wr4 : List (Ref sig .tc) := [main_v69, main_v70, main_v71, main_v72, main_c_6]
abbrev wr4_1 : List (Ref sig .tc) := [main_call3_v0, main_v73]

abbrev Sub (ops : List (HloOp τ sig (Elt F))) (W : List (Ref sig .tc)) : Prop :=
  ops.Forall fun op => op.writes ⊆ (W.map (Proc.devRef (τ := τ) .tc)).toFinset

theorem wr_sub : Sub (F := F) hostOps0 wr0 ∧ Sub (F := F) hostOps1 wr1 ∧ Sub (F := F) hostOps1_1 wr1_1 ∧ Sub (F := F) hostOps2 wr2
    ∧ Sub (F := F) hostOps2_1 wr2_1 ∧ Sub (F := F) hostOps3 wr3 ∧ Sub (F := F) hostOps3_1 wr3_1 ∧ Sub (F := F) hostOps4 wr4
    ∧ Sub (F := F) hostOps4_1 wr4_1 := by
  refine ⟨?_, ?_, ?_, ?_, ?_, ?_, ?_, ?_, ?_⟩ <;>
    simp only [Sub, hostOps0, hostOps1, hostOps1_1, hostOps2, hostOps2_1, hostOps3, hostOps3_1, hostOps4, hostOps4_1, List.Forall] <;>
    (repeat' apply And.intro) <;>
    (simp only [StableHlo.nullary_writes, StableHlo.unary_writes, StableHlo.binary_writes, StableHlo.reshape_writes,
      Finset.singleton_subset_iff, List.mem_toFinset]
     exact List.mem_map_of_mem (by decide))

theorem keep0 (V : Valuation τ sig (Elt F)) (r : Ref sig .tc) (h : r ∉ wr0) :
    StableHlo.after hostOps0 V (Proc.devRef .tc r) = V (Proc.devRef .tc r) :=
  StableHlo.after_of_writes_sub hostOps0 V wr_sub.1 h

theorem keep1 (V : Valuation τ sig (Elt F)) (r : Ref sig .tc) (h : r ∉ wr1) :
    StableHlo.after hostOps1 V (Proc.devRef .tc r) = V (Proc.devRef .tc r) :=
  StableHlo.after_of_writes_sub hostOps1 V wr_sub.2.1 h

theorem keep1_1 (V : Valuation τ sig (Elt F)) (r : Ref sig .tc) (h : r ∉ wr1_1) :
    StableHlo.after hostOps1_1 V (Proc.devRef .tc r) = V (Proc.devRef .tc r) :=
  StableHlo.after_of_writes_sub hostOps1_1 V wr_sub.2.2.1 h

theorem keep2 (V : Valuation τ sig (Elt F)) (r : Ref sig .tc) (h : r ∉ wr2) :
    StableHlo.after hostOps2 V (Proc.devRef .tc r) = V (Proc.devRef .tc r) :=
  StableHlo.after_of_writes_sub hostOps2 V wr_sub.2.2.2.1 h

theorem keep2_1 (V : Valuation τ sig (Elt F)) (r : Ref sig .tc) (h : r ∉ wr2_1) :
    StableHlo.after hostOps2_1 V (Proc.devRef .tc r) = V (Proc.devRef .tc r) :=
  StableHlo.after_of_writes_sub hostOps2_1 V wr_sub.2.2.2.2.1 h

theorem keep3 (V : Valuation τ sig (Elt F)) (r : Ref sig .tc) (h : r ∉ wr3) :
    StableHlo.after hostOps3 V (Proc.devRef .tc r) = V (Proc.devRef .tc r) :=
  StableHlo.after_of_writes_sub hostOps3 V wr_sub.2.2.2.2.2.1 h

theorem keep3_1 (V : Valuation τ sig (Elt F)) (r : Ref sig .tc) (h : r ∉ wr3_1) :
    StableHlo.after hostOps3_1 V (Proc.devRef .tc r) = V (Proc.devRef .tc r) :=
  StableHlo.after_of_writes_sub hostOps3_1 V wr_sub.2.2.2.2.2.2.1 h

theorem keep4 (V : Valuation τ sig (Elt F)) (r : Ref sig .tc) (h : r ∉ wr4) :
    StableHlo.after hostOps4 V (Proc.devRef .tc r) = V (Proc.devRef .tc r) :=
  StableHlo.after_of_writes_sub hostOps4 V wr_sub.2.2.2.2.2.2.2.1 h

theorem keep4_1 (V : Valuation τ sig (Elt F)) (r : Ref sig .tc) (h : r ∉ wr4_1) :
    StableHlo.after hostOps4_1 V (Proc.devRef .tc r) = V (Proc.devRef .tc r) :=
  StableHlo.after_of_writes_sub hostOps4_1 V wr_sub.2.2.2.2.2.2.2.2 h

end Keep

section Ops

variable (V : Valuation τ sig (Elt Ideal))

theorem ops0_wm : StableHlo.after hostOps0 V (Proc.devRef .tc main_v12) = HostW.wm (V (Proc.devRef .tc main_arg1)) (V (Proc.devRef .tc main_arg2)) (V (Proc.devRef .tc main_arg5)) := by
  dsimp only [hostOps0]; after_results; rfl
theorem ops0_bm : StableHlo.after hostOps0 V (Proc.devRef .tc main_v13) = HostW.bm (V (Proc.devRef .tc main_arg2)) (V (Proc.devRef .tc main_arg3)) (V (Proc.devRef .tc main_arg4)) (V (Proc.devRef .tc main_arg5)) := by
  dsimp only [hostOps0]; after_results; rfl
theorem ops1_w1c : StableHlo.after hostOps1 V (Proc.devRef .tc main_v35) = HostW.w1c (V (Proc.devRef .tc main_arg6)) (V (Proc.devRef .tc main_arg7)) (V (Proc.devRef .tc main_arg10)) := by
  dsimp only [hostOps1]; after_results_simp; rfl
theorem ops1_b1c : StableHlo.after hostOps1 V (Proc.devRef .tc main_v36) = HostW.b1c (V (Proc.devRef .tc main_arg7)) (V (Proc.devRef .tc main_arg8)) (V (Proc.devRef .tc main_arg9)) (V (Proc.devRef .tc main_arg10)) := by
  dsimp only [hostOps1]; after_results_simp; rfl
theorem ops1_s2c : StableHlo.after hostOps1 V (Proc.devRef .tc main_v31) = HostW.conv3s (V (Proc.devRef .tc main_arg11)) (V (Proc.devRef .tc main_arg12)) (V (Proc.devRef .tc main_arg15)) := by
  dsimp only [hostOps1]; after_results_simp; rfl
theorem ops1_h2c : StableHlo.after hostOps1 V (Proc.devRef .tc main_v33) = HostW.shift (V (Proc.devRef .tc main_arg12)) (V (Proc.devRef .tc main_arg13)) (V (Proc.devRef .tc main_arg14)) (V (Proc.devRef .tc main_arg15)) := by
  dsimp only [hostOps1]; after_results_simp; rfl
theorem ops2_w2c : StableHlo.after hostOps2 V (Proc.devRef .tc main_v41) = HostW.conv3t (V (Proc.devRef .tc main_v31)) := by
  dsimp only [hostOps2]; after_results; rfl
theorem ops2_b2c : StableHlo.after hostOps2 V (Proc.devRef .tc main_v42) = broadcastInDim S1x256 ![1] HostW.bc_row (V (Proc.devRef .tc main_v33)) := by
  dsimp only [hostOps2]; after_results
theorem ops3_w1r : StableHlo.after hostOps3 V (Proc.devRef .tc main_v65) = HostW.w1r (V (Proc.devRef .tc main_arg16)) (V (Proc.devRef .tc main_arg17)) (V (Proc.devRef .tc main_arg20)) := by
  dsimp only [hostOps3]; after_results_simp; rfl
theorem ops3_b1r : StableHlo.after hostOps3 V (Proc.devRef .tc main_v66) = HostW.b1r (V (Proc.devRef .tc main_arg17)) (V (Proc.devRef .tc main_arg18)) (V (Proc.devRef .tc main_arg19)) (V (Proc.devRef .tc main_arg20)) := by
  dsimp only [hostOps3]; after_results_simp; rfl
theorem ops3_s2r : StableHlo.after hostOps3 V (Proc.devRef .tc main_v61) = HostW.conv3s (V (Proc.devRef .tc main_arg21)) (V (Proc.devRef .tc main_arg22)) (V (Proc.devRef .tc main_arg25)) := by
  dsimp only [hostOps3]; after_results_simp; rfl
theorem ops3_h2r : StableHlo.after hostOps3 V (Proc.devRef .tc main_v63) = HostW.shift (V (Proc.devRef .tc main_arg22)) (V (Proc.devRef .tc main_arg23)) (V (Proc.devRef .tc main_arg24)) (V (Proc.devRef .tc main_arg25)) := by
  dsimp only [hostOps3]; after_results_simp; rfl
theorem ops4_w2r : StableHlo.after hostOps4 V (Proc.devRef .tc main_v71) = HostW.conv3t (V (Proc.devRef .tc main_v61)) := by
  dsimp only [hostOps4]; after_results; rfl
theorem ops4_b2r : StableHlo.after hostOps4 V (Proc.devRef .tc main_v72) = broadcastInDim S1x256 ![1] HostW.bc_row (V (Proc.devRef .tc main_v63)) := by
  dsimp only [hostOps4]; after_results
theorem ops5_wro : StableHlo.after hostOps5 V (Proc.devRef .tc main_v80) = HostW.wro (V (Proc.devRef .tc main_arg28)) (V (Proc.devRef .tc main_arg30)) := by
  dsimp only [hostOps5]; after_results; rfl
theorem ops5_bro : StableHlo.after hostOps5 V (Proc.devRef .tc main_v82) = HostW.bro (V (Proc.devRef .tc main_arg29)) (V (Proc.devRef .tc main_arg31)) := by
  dsimp only [hostOps5]; after_results; rfl
theorem ops5_wcl : StableHlo.after hostOps5 V (Proc.devRef .tc main_v84) = HostW.wcl (V (Proc.devRef .tc main_arg26)) := by
  dsimp only [hostOps5]; after_results; rfl
theorem ops5_bcl : StableHlo.after hostOps5 V (Proc.devRef .tc main_v85) = HostW.bcl (V (Proc.devRef .tc main_arg27)) := by
  dsimp only [hostOps5]; after_results; rfl

end Ops

section Entry

variable (m : (ℓ : Loc nD τ sig) → Buf (Elt Ideal) ℓ) (ρ : Dev nD → PrngReg) (c : Dev nD)

def wtsOf : Cert.HeadSpec.Weights :=
  HostW.wts (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31))

abbrev argRefs : List (Ref sig .tc) := [main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31]

theorem args_wr : ∀ r ∈ argRefs, r ∉ wr0 ∧ r ∉ wr1 ∧ r ∉ wr1_1 ∧ r ∉ wr2 ∧ r ∉ wr2_1 ∧ r ∉ wr3 ∧ r ∉ wr3_1 ∧ r ∉ wr4 ∧ r ∉ wr4_1 := by decide

theorem args_arr : ∀ r ∈ argRefs, (∀ w, Pipeline.arrRef spec0 w ≠ r) ∧ (∀ w, Pipeline.arrRef spec1 w ≠ r)
    ∧ (∀ w, Pipeline.arrRef spec2 w ≠ r) ∧ (∀ w, Pipeline.arrRef spec3 w ≠ r) ∧ (∀ w, Pipeline.arrRef spec4 w ≠ r) := by decide

theorem W2_arg (r : Ref sig .tc) (hr : r ∈ argRefs) : W2 m ρ c (Proc.devRef .tc r) = m ((c : Thread nD τ).loc r) :=
  (W2_of_ne m ρ c r (args_arr r hr).1).trans (keep0 (W0 m ρ c) r (args_wr r hr).1)
theorem W5_arg (r : Ref sig .tc) (hr : r ∈ argRefs) : W5 m ρ c (Proc.devRef .tc r) = m ((c : Thread nD τ).loc r) :=
  (W5_of_ne m ρ c r (args_arr r hr).2.1).trans <| (keep1_1 (W3 m ρ c) r (args_wr r hr).2.2.1).trans <|
    (keep1 (W2 m ρ c) r (args_wr r hr).2.1).trans (W2_arg m ρ c r hr)
theorem W8_arg (r : Ref sig .tc) (hr : r ∈ argRefs) : W8 m ρ c (Proc.devRef .tc r) = m ((c : Thread nD τ).loc r) :=
  (W8_of_ne m ρ c r (args_arr r hr).2.2.1).trans <| (keep2_1 (W6 m ρ c) r (args_wr r hr).2.2.2.2.1).trans <|
    (keep2 (W5 m ρ c) r (args_wr r hr).2.2.2.1).trans (W5_arg m ρ c r hr)
theorem W11_arg (r : Ref sig .tc) (hr : r ∈ argRefs) : W11 m ρ c (Proc.devRef .tc r) = m ((c : Thread nD τ).loc r) :=
  (W11_of_ne m ρ c r (args_arr r hr).2.2.2.1).trans <| (keep3_1 (W9 m ρ c) r (args_wr r hr).2.2.2.2.2.2.1).trans <|
    (keep3 (W8 m ρ c) r (args_wr r hr).2.2.2.2.2.1).trans (W8_arg m ρ c r hr)
theorem W14_arg (r : Ref sig .tc) (hr : r ∈ argRefs) : W14 m ρ c (Proc.devRef .tc r) = m ((c : Thread nD τ).loc r) :=
  (W14_of_ne m ρ c r (args_arr r hr).2.2.2.2).trans <| (keep4_1 (W12 m ρ c) r (args_wr r hr).2.2.2.2.2.2.2.2).trans <|
    (keep4 (W11 m ρ c) r (args_wr r hr).2.2.2.2.2.2.2.1).trans (W11_arg m ρ c r hr)

theorem reg0_wm_eq : V1 m ρ c (Pipeline.arrRef spec0 1) = (wtsOf m c).wm :=
  ops0_wm (W0 m ρ c)
theorem reg0_bm_eq : V1 m ρ c (Pipeline.arrRef spec0 2) = (wtsOf m c).bm :=
  ops0_bm (W0 m ρ c)

theorem reg1_w_eq : V4 m ρ c (Pipeline.arrRef spec1 1) = (wtsOf m c).w1c :=
  (keep1_1 (W3 m ρ c) main_v35 (by decide)).trans <| (ops1_w1c (W2 m ρ c)).trans <| by
    rw [W2_arg m ρ c main_arg6 (by decide), W2_arg m ρ c main_arg7 (by decide), W2_arg m ρ c main_arg10 (by decide)]; rfl
theorem reg1_b_eq : V4 m ρ c (Pipeline.arrRef spec1 2) = (wtsOf m c).b1c :=
  (keep1_1 (W3 m ρ c) main_v36 (by decide)).trans <| (ops1_b1c (W2 m ρ c)).trans <| by
    rw [W2_arg m ρ c main_arg7 (by decide), W2_arg m ρ c main_arg8 (by decide), W2_arg m ρ c main_arg9 (by decide), W2_arg m ρ c main_arg10 (by decide)]; rfl

theorem reg2_w_eq : V7 m ρ c (Pipeline.arrRef spec2 1) = (wtsOf m c).w2c :=
  (keep2_1 (W6 m ρ c) main_v41 (by decide)).trans <| (ops2_w2c (W5 m ρ c)).trans <| by
    rw [(W5_of_ne m ρ c main_v31 (by decide)).trans <| (keep1_1 (W3 m ρ c) main_v31 (by decide)).trans (ops1_s2c (W2 m ρ c)),
      W2_arg m ρ c main_arg11 (by decide), W2_arg m ρ c main_arg12 (by decide), W2_arg m ρ c main_arg15 (by decide)]; rfl
theorem reg2_b_eq : V7 m ρ c (Pipeline.arrRef spec2 2) = (wtsOf m c).b2c :=
  (keep2_1 (W6 m ρ c) main_v42 (by decide)).trans <| (ops2_b2c (W5 m ρ c)).trans <| by
    rw [(W5_of_ne m ρ c main_v33 (by decide)).trans <| (keep1_1 (W3 m ρ c) main_v33 (by decide)).trans (ops1_h2c (W2 m ρ c)),
      W2_arg m ρ c main_arg12 (by decide), W2_arg m ρ c main_arg13 (by decide), W2_arg m ρ c main_arg14 (by decide), W2_arg m ρ c main_arg15 (by decide)]; rfl

theorem reg3_w_eq : V10 m ρ c (Pipeline.arrRef spec3 1) = (wtsOf m c).w1r :=
  (keep3_1 (W9 m ρ c) main_v65 (by decide)).trans <| (ops3_w1r (W8 m ρ c)).trans <| by
    rw [W8_arg m ρ c main_arg16 (by decide), W8_arg m ρ c main_arg17 (by decide), W8_arg m ρ c main_arg20 (by decide)]; rfl
theorem reg3_b_eq : V10 m ρ c (Pipeline.arrRef spec3 2) = (wtsOf m c).b1r :=
  (keep3_1 (W9 m ρ c) main_v66 (by decide)).trans <| (ops3_b1r (W8 m ρ c)).trans <| by
    rw [W8_arg m ρ c main_arg17 (by decide), W8_arg m ρ c main_arg18 (by decide), W8_arg m ρ c main_arg19 (by decide), W8_arg m ρ c main_arg20 (by decide)]; rfl

theorem reg4_w_eq : V13 m ρ c (Pipeline.arrRef spec4 1) = (wtsOf m c).w2r :=
  (keep4_1 (W12 m ρ c) main_v71 (by decide)).trans <| (ops4_w2r (W11 m ρ c)).trans <| by
    rw [(W11_of_ne m ρ c main_v61 (by decide)).trans <| (keep3_1 (W9 m ρ c) main_v61 (by decide)).trans (ops3_s2r (W8 m ρ c)),
      W8_arg m ρ c main_arg21 (by decide), W8_arg m ρ c main_arg22 (by decide), W8_arg m ρ c main_arg25 (by decide)]; rfl
theorem reg4_b_eq : V13 m ρ c (Pipeline.arrRef spec4 2) = (wtsOf m c).b2r :=
  (keep4_1 (W12 m ρ c) main_v72 (by decide)).trans <| (ops4_b2r (W11 m ρ c)).trans <| by
    rw [(W11_of_ne m ρ c main_v63 (by decide)).trans <| (keep3_1 (W9 m ρ c) main_v63 (by decide)).trans (ops3_h2r (W8 m ρ c)),
      W8_arg m ρ c main_arg22 (by decide), W8_arg m ρ c main_arg23 (by decide), W8_arg m ρ c main_arg24 (by decide), W8_arg m ρ c main_arg25 (by decide)]; rfl

theorem reg5_wro_eq : V15 m ρ c (Pipeline.arrRef spec5 2) = (wtsOf m c).wro :=
  (ops5_wro (W14 m ρ c)).trans <| by rw [W14_arg m ρ c main_arg28 (by decide), W14_arg m ρ c main_arg30 (by decide)]; rfl
theorem reg5_bro_eq : V15 m ρ c (Pipeline.arrRef spec5 3) = (wtsOf m c).bro :=
  (ops5_bro (W14 m ρ c)).trans <| by rw [W14_arg m ρ c main_arg29 (by decide), W14_arg m ρ c main_arg31 (by decide)]; rfl
theorem reg5_wcl_eq : V15 m ρ c (Pipeline.arrRef spec5 4) = (wtsOf m c).wcl :=
  (ops5_wcl (W14 m ρ c)).trans <| by rw [W14_arg m ρ c main_arg26 (by decide)]; rfl
theorem reg5_bcl_eq : V15 m ρ c (Pipeline.arrRef spec5 5) = (wtsOf m c).bcl :=
  (ops5_bcl (W14 m ρ c)).trans <| by rw [W14_arg m ρ c main_arg27 (by decide)]; rfl

end Entry

end Cert.ReferenceIdeal.Run

end
-- ==== Proof.RIConv2.lean ====
import proofs.«145920_g2000606511304043_pallasbulk_952_2_alg».proof.Proof.RIConv1

set_option maxRecDepth 16384
noncomputable section
open scoped BigOperators

namespace Cert.RIConv2
open Cert.ReferenceIdeal Cert.ReferenceIdeal.Gen Idealize.ShloMosaic Idealize.ShloMosaic.ValueIdx Idealize.ShloMosaic.TcCoe Idealize.SL.Sem
open Idealize.ShloMosaic.Pipeline (Dat)
open Cert.HeadSpec
open Cert.RIConv1 (out_apply bconv_eq)

/-- This stage runs the same body as the first 3 × 3 stage. -/
theorem out_same (x0 : Vec Ideal S1x66x66x256 .f32) (x1 : Vec Ideal S9x256x256 .f32) (x2 : Vec Ideal S1x256 .f32) :
    out2_3 x0 x1 x2 = out1_3 x0 x1 x2 := rfl

section Arrays
variable (V : (c : Dev nD) → (b : Ref sig .tc) → Buf (Elt Ideal) ((c : Thread nD τ).loc b))

abbrev xarr (c : Dev nD) : Vec Ideal S16x66x66x256 .f32 := V c (Pipeline.arrRef spec2 0)
abbrev warr (c : Dev nD) : Vec Ideal S9x256x256 .f32 := V c (Pipeline.arrRef spec2 1)
abbrev barr (c : Dev nD) : Vec Ideal S1x256 .f32 := V c (Pipeline.arrRef spec2 2)

def G (c : Dev nD) : Vec Ideal S16x4096x256 .f32 := fun j =>
  R.conv (xarr V c) (warr V c) (barr V c) (j 0) (j 1) (j 2)

theorem idx_facts : ∀ t : Fin cfg2.N,
    win2_0.index t (0 : Fin 4) = t.val ∧ win2_0.index t (1 : Fin 4) = 0 ∧ win2_0.index t (2 : Fin 4) = 0
    ∧ win2_0.index t (3 : Fin 4) = 0
    ∧ win2_3.index t (0 : Fin 3) = t.val ∧ win2_3.index t (1 : Fin 3) = 0 ∧ win2_3.index t (2 : Fin 3) = 0 :=
  (by decide +kernel : ∀ t : Fin grid2.N, _)

theorem t_lt (t : Fin cfg2.N) : t.val < 16 := by
  have h : t.val < grid2.N := t.isLt
  rwa [N_2] at h

theorem xblk_apply (c : Dev nD) (t : Fin cfg2.N) (a b : Fin 66) (k : Fin 256) :
    (iblk2 V c 0 t : Vec Ideal S1x66x66x256 .f32) (ix4 0 a b k) = xarr V c (ix4 ⟨t.val, t_lt t⟩ a b k) := by
  obtain ⟨e0, e1, e2, e3, -⟩ := idx_facts t
  show xarr V c (((cfg2.win 0).blk t).view.emb (ix4 0 a b k)) = _
  refine congrArg (xarr V c) (funext fun ax => Fin.ext ?_)
  match ax with
  | ⟨0, _⟩ => show win2_0.index t (0 : Fin 4) * 1 + 1 * 0 = t.val; omega
  | ⟨1, _⟩ => show win2_0.index t (1 : Fin 4) * 66 + 1 * a.val = a.val; omega
  | ⟨2, _⟩ => show win2_0.index t (2 : Fin 4) * 66 + 1 * b.val = b.val; omega
  | ⟨3, _⟩ => show win2_0.index t (3 : Fin 4) * 256 + 1 * k.val = k.val; omega

theorem wblk_apply (c : Dev nD) (t : Fin cfg2.N) (k : Fin 9) (a b : Fin 256) :
    (iblk2 V c 1 t : Vec Ideal S9x256x256 .f32) (ix3 k a b) = warr V c (ix3 k a b) := by
  show warr V c (((cfg2.win 1).blk t).view.emb (ix3 k a b)) = _
  exact congrArg (warr V c) (funext fun ax => Fin.ext (win2_1.rect_emb_val_of_index_zero t ax
    ((by decide +kernel : ∀ t : Fin grid2.N, ∀ ax, win2_1.index t ax = 0) t ax) _))

theorem bblk_apply (c : Dev nD) (t : Fin cfg2.N) (k : Fin 256) :
    (iblk2 V c 2 t : Vec Ideal S1x256 .f32) (ix2 0 k) = barr V c (ix2 0 k) := by
  show barr V c (((cfg2.win 2).blk t).view.emb (ix2 0 k)) = _
  exact congrArg (barr V c) (funext fun ax => Fin.ext (win2_2.rect_emb_val_of_index_zero t ax
    ((by decide +kernel : ∀ t : Fin grid2.N, ∀ ax, win2_2.index t ax = 0) t ax) _))

theorem emb_eq (t : Fin cfg2.N) (p : Fin 4096) (ch : Fin 256) :
    ((cfg2.win 3).blk t).view.emb (ix3 0 p ch) = ix3 ⟨t.val, t_lt t⟩ p ch := by
  obtain ⟨-, -, -, -, e0, e1, e2⟩ := idx_facts t
  funext ax; apply Fin.ext
  match ax with
  | ⟨0, _⟩ => show win2_3.index t (0 : Fin 3) * 1 + 1 * 0 = t.val; omega
  | ⟨1, _⟩ => show win2_3.index t (1 : Fin 3) * 4096 + 1 * p.val = p.val; omega
  | ⟨2, _⟩ => show win2_3.index t (2 : Fin 3) * 256 + 1 * ch.val = ch.val; omega

theorem flushed_eq (c : Dev nD) (t : Fin cfg2.N) :
    (dat2 (F := Ideal) V c).flushed 3 t = ((cfg2.win 3).blk t).view.read (Elt Ideal) (G V c) := by
  show (cfg2.win 3).cut (grid2.coords t) ((dat2 V c).after 3 t) = _
  rw [after2_3]
  rw [out_same]
  funext y
  revert y
  show ∀ y : S1x4096x256.Idx, _ = G V c (((cfg2.win 3).blk t).view.emb y)
  intro y
  obtain ⟨z, p, ch, rfl⟩ : ∃ (z : Fin 1) (p : Fin 4096) (ch : Fin 256), y = ix3 z p ch := ⟨y 0, y 1, y 2, eq_ix3 y⟩
  obtain rfl : z = 0 := Subsingleton.elim _ _
  rw [emb_eq]
  refine (out_apply _ _ _ p ch).trans ?_
  exact bconv_eq _ _ _ (xarr V c) (warr V c) (barr V c) ⟨t.val, t_lt t⟩ (xblk_apply V c t) (wblk_apply V c t)
    (bblk_apply V c t) p ch

theorem conv2_value (c : Dev nD) : (dat2 (F := Ideal) V c).arrAt 3 cfg2.N = fun j =>
    Cert.HeadSpec.R.conv (V c (Pipeline.arrRef spec2 0)) (V c (Pipeline.arrRef spec2 1)) (V c (Pipeline.arrRef spec2 2))
      (j 0) (j 1) (j 2) :=
  (dat2 (F := Ideal) V c).arrAt_eq_of_cover 3 (G V c) (fun t _ => flushed_eq V c t) fun (i : S16x4096x256.Idx) => by
    obtain ⟨a, p, ch, rfl⟩ : ∃ (a : Fin 16) (p : Fin 4096) (ch : Fin 256), i = ix3 a p ch := ⟨i 0, i 1, i 2, eq_ix3 i⟩
    have ha : a.val < grid2.N := by rw [N_2]; exact a.isLt
    have h := ((cfg2.win 3).blk ⟨a.val, ha⟩).view.emb_mem_set (ix3 0 p ch)
    rw [emb_eq] at h
    exact ⟨⟨a.val, ha⟩, flush2_3 _, h⟩

end Arrays

end Cert.RIConv2
end
-- ==== Proof.RIConv4.lean ====
import proofs.«145920_g2000606511304043_pallasbulk_952_2_alg».proof.Proof.RIConv1

set_option maxRecDepth 16384
noncomputable section
open scoped BigOperators

namespace Cert.RIConv4
open Cert.ReferenceIdeal Cert.ReferenceIdeal.Gen Idealize.ShloMosaic Idealize.ShloMosaic.ValueIdx Idealize.ShloMosaic.TcCoe Idealize.SL.Sem
open Idealize.ShloMosaic.Pipeline (Dat)
open Cert.HeadSpec
open Cert.RIConv1 (out_apply bconv_eq)

/-- This stage runs the same body as the first 3 × 3 stage. -/
theorem out_same (x0 : Vec Ideal S1x66x66x256 .f32) (x1 : Vec Ideal S9x256x256 .f32) (x2 : Vec Ideal S1x256 .f32) :
    out4_3 x0 x1 x2 = out1_3 x0 x1 x2 := rfl

section Arrays
variable (V : (c : Dev nD) → (b : Ref sig .tc) → Buf (Elt Ideal) ((c : Thread nD τ).loc b))

abbrev xarr (c : Dev nD) : Vec Ideal S16x66x66x256 .f32 := V c (Pipeline.arrRef spec4 0)
abbrev warr (c : Dev nD) : Vec Ideal S9x256x256 .f32 := V c (Pipeline.arrRef spec4 1)
abbrev barr (c : Dev nD) : Vec Ideal S1x256 .f32 := V c (Pipeline.arrRef spec4 2)

def G (c : Dev nD) : Vec Ideal S16x4096x256 .f32 := fun j =>
  R.conv (xarr V c) (warr V c) (barr V c) (j 0) (j 1) (j 2)

theorem idx_facts : ∀ t : Fin cfg4.N,
    win4_0.index t (0 : Fin 4) = t.val ∧ win4_0.index t (1 : Fin 4) = 0 ∧ win4_0.index t (2 : Fin 4) = 0
    ∧ win4_0.index t (3 : Fin 4) = 0
    ∧ win4_3.index t (0 : Fin 3) = t.val ∧ win4_3.index t (1 : Fin 3) = 0 ∧ win4_3.index t (2 : Fin 3) = 0 :=
  (by decide +kernel : ∀ t : Fin grid4.N, _)

theorem t_lt (t : Fin cfg4.N) : t.val < 16 := by
  have h : t.val < grid4.N := t.isLt
  rwa [N_4] at h

theorem xblk_apply (c : Dev nD) (t : Fin cfg4.N) (a b : Fin 66) (k : Fin 256) :
    (iblk4 V c 0 t : Vec Ideal S1x66x66x256 .f32) (ix4 0 a b k) = xarr V c (ix4 ⟨t.val, t_lt t⟩ a b k) := by
  obtain ⟨e0, e1, e2, e3, -⟩ := idx_facts t
  show xarr V c (((cfg4.win 0).blk t).view.emb (ix4 0 a b k)) = _
  refine congrArg (xarr V c) (funext fun ax => Fin.ext ?_)
  match ax with
  | ⟨0, _⟩ => show win4_0.index t (0 : Fin 4) * 1 + 1 * 0 = t.val; omega
  | ⟨1, _⟩ => show win4_0.index t (1 : Fin 4) * 66 + 1 * a.val = a.val; omega
  | ⟨2, _⟩ => show win4_0.index t (2 : Fin 4) * 66 + 1 * b.val = b.val; omega
  | ⟨3, _⟩ => show win4_0.index t (3 : Fin 4) * 256 + 1 * k.val = k.val; omega

theorem wblk_apply (c : Dev nD) (t : Fin cfg4.N) (k : Fin 9) (a b : Fin 256) :
    (iblk4 V c 1 t : Vec Ideal S9x256x256 .f32) (ix3 k a b) = warr V c (ix3 k a b) := by
  show warr V c (((cfg4.win 1).blk t).view.emb (ix3 k a b)) = _
  exact congrArg (warr V c) (funext fun ax => Fin.ext (win4_1.rect_emb_val_of_index_zero t ax
    ((by decide +kernel : ∀ t : Fin grid4.N, ∀ ax, win4_1.index t ax = 0) t ax) _))

theorem bblk_apply (c : Dev nD) (t : Fin cfg4.N) (k : Fin 256) :
    (iblk4 V c 2 t : Vec Ideal S1x256 .f32) (ix2 0 k) = barr V c (ix2 0 k) := by
  show barr V c (((cfg4.win 2).blk t).view.emb (ix2 0 k)) = _
  exact congrArg (barr V c) (funext fun ax => Fin.ext (win4_2.rect_emb_val_of_index_zero t ax
    ((by decide +kernel : ∀ t : Fin grid4.N, ∀ ax, win4_2.index t ax = 0) t ax) _))

theorem emb_eq (t : Fin cfg4.N) (p : Fin 4096) (ch : Fin 256) :
    ((cfg4.win 3).blk t).view.emb (ix3 0 p ch) = ix3 ⟨t.val, t_lt t⟩ p ch := by
  obtain ⟨-, -, -, -, e0, e1, e2⟩ := idx_facts t
  funext ax; apply Fin.ext
  match ax with
  | ⟨0, _⟩ => show win4_3.index t (0 : Fin 3) * 1 + 1 * 0 = t.val; omega
  | ⟨1, _⟩ => show win4_3.index t (1 : Fin 3) * 4096 + 1 * p.val = p.val; omega
  | ⟨2, _⟩ => show win4_3.index t (2 : Fin 3) * 256 + 1 * ch.val = ch.val; omega

theorem flushed_eq (c : Dev nD) (t : Fin cfg4.N) :
    (dat4 (F := Ideal) V c).flushed 3 t = ((cfg4.win 3).blk t).view.read (Elt Ideal) (G V c) := by
  show (cfg4.win 3).cut (grid4.coords t) ((dat4 V c).after 3 t) = _
  rw [after4_3]
  rw [out_same]
  funext y
  revert y
  show ∀ y : S1x4096x256.Idx, _ = G V c (((cfg4.win 3).blk t).view.emb y)
  intro y
  obtain ⟨z, p, ch, rfl⟩ : ∃ (z : Fin 1) (p : Fin 4096) (ch : Fin 256), y = ix3 z p ch := ⟨y 0, y 1, y 2, eq_ix3 y⟩
  obtain rfl : z = 0 := Subsingleton.elim _ _
  rw [emb_eq]
  refine (out_apply _ _ _ p ch).trans ?_
  exact bconv_eq _ _ _ (xarr V c) (warr V c) (barr V c) ⟨t.val, t_lt t⟩ (xblk_apply V c t) (wblk_apply V c t)
    (bblk_apply V c t) p ch

theorem conv4_value (c : Dev nD) : (dat4 (F := Ideal) V c).arrAt 3 cfg4.N = fun j =>
    Cert.HeadSpec.R.conv (V c (Pipeline.arrRef spec4 0)) (V c (Pipeline.arrRef spec4 1)) (V c (Pipeline.arrRef spec4 2))
      (j 0) (j 1) (j 2) :=
  (dat4 (F := Ideal) V c).arrAt_eq_of_cover 3 (G V c) (fun t _ => flushed_eq V c t) fun (i : S16x4096x256.Idx) => by
    obtain ⟨a, p, ch, rfl⟩ : ∃ (a : Fin 16) (p : Fin 4096) (ch : Fin 256), i = ix3 a p ch := ⟨i 0, i 1, i 2, eq_ix3 i⟩
    have ha : a.val < grid4.N := by rw [N_4]; exact a.isLt
    have h := ((cfg4.win 3).blk ⟨a.val, ha⟩).view.emb_mem_set (ix3 0 p ch)
    rw [emb_eq] at h
    exact ⟨⟨a.val, ha⟩, flush4_3 _, h⟩

end Arrays

end Cert.RIConv4
end
-- ==== Proof.RIChainB.lean ====
import proofs.«145920_g2000606511304043_pallasbulk_952_2_alg».proof.Proof.Gen.ReferenceIdeal.Frame
import proofs.«145920_g2000606511304043_pallasbulk_952_2_alg».proof.Proof.Spec
import proofs.«145920_g2000606511304043_pallasbulk_952_2_alg».proof.Proof.RILayout
import Idealize.ShloMosaic.Lib.KernelVsHost
import Idealize.ShloMosaic.Lib.Pipeline.Value
import Idealize.ShloMosaic.Lib.ValueIdx

set_option maxRecDepth 16384

noncomputable section

namespace Cert.ReferenceIdeal.Run

open Cert.ReferenceIdeal Cert.ReferenceIdeal.Gen Cert.HeadSpec
open Idealize.ShloMosaic Idealize.ShloMosaic.TcCoe Idealize.ShloMosaic.ValueIdx

section Stretches
variable (X : Valuation τ sig (Elt Ideal))

theorem s3_v45 :
    (StableHlo.after hostOps3 X (Proc.devRef .tc main_v45) : S16x64x64x256.Idx → EReal)
      = shapeCast S16x64x64x256 (X (Proc.devRef .tc main_v44) : S16x4096x256.Idx → EReal)
          shapeCasts_S16x4096x256_S16x64x64x256 := by
  dsimp only [hostOps3]
  after_results
  rfl

theorem s3_1_v45 :
    StableHlo.after hostOps3_1 X (Proc.devRef .tc main_v45) = X (Proc.devRef .tc main_v45) := by
  dsimp only [hostOps3_1]
  after_results

theorem s4_v45 :
    StableHlo.after hostOps4 X (Proc.devRef .tc main_v45) = X (Proc.devRef .tc main_v45) := by
  dsimp only [hostOps4]
  after_results

theorem s4_1_v45 :
    StableHlo.after hostOps4_1 X (Proc.devRef .tc main_v45) = X (Proc.devRef .tc main_v45) := by
  dsimp only [hostOps4_1]
  after_results

theorem s5_v87 :
    (StableHlo.after hostOps5 X (Proc.devRef .tc main_v87) : S65536x256.Idx → EReal)
      = shapeCast S65536x256 (X (Proc.devRef .tc main_v45) : S16x64x64x256.Idx → EReal)
          shapeCasts_S16x64x64x256_S65536x256 := by
  dsimp only [hostOps5]
  after_results
  rfl

theorem s5_v86 :
    (StableHlo.after hostOps5 X (Proc.devRef .tc main_v86) : S65536x256.Idx → EReal)
      = shapeCast S65536x256
          (shapeCast S16x64x64x256 (X (Proc.devRef .tc main_v74) : S16x4096x256.Idx → EReal)
            shapeCasts_S16x4096x256_S16x64x64x256)
          shapeCasts_S16x64x64x256_S65536x256 := by
  dsimp only [hostOps5]
  after_results
  rfl

theorem s6_v91 :
    (StableHlo.after hostOps6 X (Proc.devRef .tc main_v91) : S16x255x64x64.Idx → EReal)
      = transpose S16x255x64x64 [0, 3, 1, 2]
          (shapeCast S16x64x64x255
            (concatenate S65536x255 1 [⟨S65536x15, (X (Proc.devRef .tc main_v88_0) : S65536x15.Idx → EReal)⟩,
              ⟨S65536x240, (X (Proc.devRef .tc main_v88_1) : S65536x240.Idx → EReal)⟩]
              concatenates_S65536x15_S65536x240_S65536x255_d1)
            shapeCasts_S65536x255_S16x64x64x255)
          transposes_S16x64x64x255_S16x255x64x64_0_3_1_2 := by
  dsimp only [hostOps6]
  after_results
  rfl

end Stretches

section Walk
variable (m : (ℓ : Loc nD τ sig) → Buf (Elt Ideal) ℓ) (ρ : Dev nD → PrngReg) (c : Dev nD)

theorem hcls_B
    (hv : (dat2 (F := Ideal) (V7 m ρ) c).arrAt 3 cfg2.N = fun j =>
      R.conv (V7 m ρ c (Pipeline.arrRef spec2 0)) (V7 m ρ c (Pipeline.arrRef spec2 1))
        (V7 m ρ c (Pipeline.arrRef spec2 2)) (j 0) (j 1) (j 2))
    (n : Fin 16) (p : Fin 4096) (ch : Fin 256) :
    (V15 m ρ c (Pipeline.arrRef spec5 1) : Arr ⟨2, ![65536, 256]⟩) (ix2 ⟨n.val * 4096 + p.val, by omega⟩ ch)
      = R.conv (V7 m ρ c (Pipeline.arrRef spec2 0)) (V7 m ρ c (Pipeline.arrRef spec2 1))
          (V7 m ρ c (Pipeline.arrRef spec2 2)) n p ch :=
  have e1 : W14 m ρ c (Proc.devRef .tc main_v45) = W9 m ρ c (Proc.devRef .tc main_v45) :=
    (W14_of_ne m ρ c main_v45 (by decide)).trans <| (s4_1_v45 (W12 m ρ c)).trans <| (s4_v45 (W11 m ρ c)).trans <|
      (W11_of_ne m ρ c main_v45 (by decide)).trans (s3_1_v45 (W9 m ρ c))
  have e2 := (s3_v45 (W8 m ρ c)).trans (congrArg (fun g => shapeCast S16x64x64x256 g shapeCasts_S16x4096x256_S16x64x64x256) ((W8_arr m ρ c 3).trans hv))
  (congrFun ((s5_v87 (W14 m ρ c)).trans (congrArg (fun g => shapeCast S65536x256 g shapeCasts_S16x64x64x256_S65536x256) (e1.trans e2)))
      (ix2 ⟨n.val * 4096 + p.val, by omega⟩ ch)).trans
    (flat_rows_apply _ shapeCasts_S16x4096x256_S16x64x64x256 shapeCasts_S16x64x64x256_S65536x256 n p ch _)

theorem hreg_B
    (hv : (dat4 (F := Ideal) (V13 m ρ) c).arrAt 3 cfg4.N = fun j =>
      R.conv (V13 m ρ c (Pipeline.arrRef spec4 0)) (V13 m ρ c (Pipeline.arrRef spec4 1))
        (V13 m ρ c (Pipeline.arrRef spec4 2)) (j 0) (j 1) (j 2))
    (n : Fin 16) (p : Fin 4096) (ch : Fin 256) :
    (V15 m ρ c (Pipeline.arrRef spec5 0) : Arr ⟨2, ![65536, 256]⟩) (ix2 ⟨n.val * 4096 + p.val, by omega⟩ ch)
      = R.conv (V13 m ρ c (Pipeline.arrRef spec4 0)) (V13 m ρ c (Pipeline.arrRef spec4 1))
          (V13 m ρ c (Pipeline.arrRef spec4 2)) n p ch :=
  (congrFun ((s5_v86 (W14 m ρ c)).trans (congrArg (fun g => shapeCast S65536x256 (shapeCast S16x64x64x256 g shapeCasts_S16x4096x256_S16x64x64x256) shapeCasts_S16x64x64x256_S65536x256)
      ((W14_arr m ρ c 3).trans hv))) (ix2 ⟨n.val * 4096 + p.val, by omega⟩ ch)).trans
    (flat_rows_apply _ shapeCasts_S16x4096x256_S16x64x64x256 shapeCasts_S16x64x64x256_S65536x256 n p ch _)

theorem hres_B
    (hro : (dat5 (F := Ideal) (V15 m ρ) c).arrAt 6 cfg5.N = fun j =>
      R.head (V15 m ρ c (Pipeline.arrRef spec5 0)) (V15 m ρ c (Pipeline.arrRef spec5 2))
        (V15 m ρ c (Pipeline.arrRef spec5 3)) (j 0) (j 1))
    (hcl : (dat5 (F := Ideal) (V15 m ρ) c).arrAt 7 cfg5.N = fun j =>
      R.head (V15 m ρ c (Pipeline.arrRef spec5 1)) (V15 m ρ c (Pipeline.arrRef spec5 4))
        (V15 m ρ c (Pipeline.arrRef spec5 5)) (j 0) (j 1))
    (n : Fin 16) (k : Fin 255) (i j : Fin 64) :
    (W17 m ρ c (Proc.devRef .tc main_v91) : Arr ⟨4, ![16, 255, 64, 64]⟩) (ix4 n k i j)
      = if h : k.val < 15 then
          R.head (V15 m ρ c (Pipeline.arrRef spec5 0)) (V15 m ρ c (Pipeline.arrRef spec5 2))
            (V15 m ρ c (Pipeline.arrRef spec5 3)) (R.prow n i j) ⟨k.val, h⟩
        else
          R.head (V15 m ρ c (Pipeline.arrRef spec5 1)) (V15 m ρ c (Pipeline.arrRef spec5 4))
            (V15 m ρ c (Pipeline.arrRef spec5 5)) (R.prow n i j) ⟨k.val - 15, by omega⟩ :=
  (congrFun (s6_v91 (W16 m ρ c)) (ix4 n k i j)).trans <| by
    rw [show (W16 m ρ c (Proc.devRef .tc main_v88_0) : S65536x15.Idx → EReal) = _ from (W16_arr m ρ c 6).trans hro,
      show (W16 m ρ c (Proc.devRef .tc main_v88_1) : S65536x240.Idx → EReal) = _ from (W16_arr m ρ c 7).trans hcl]
    exact result_apply _ _ concatenates_S65536x15_S65536x240_S65536x255_d1 shapeCasts_S65536x255_S16x64x64x255
      transposes_S16x64x64x255_S16x255x64x64_0_3_1_2 n k i j

end Walk

end Cert.ReferenceIdeal.Run

end
-- ==== Proof.RIHeads.lean ====
import proofs.«145920_g2000606511304043_pallasbulk_952_2_alg».proof.Proof.RIPoint

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.Heads

open Cert.ReferenceIdeal Cert.ReferenceIdeal.Gen Cert.HeadSpec
open Cert.ReferenceIdeal.Point (affine_apply hz)

namespace Ro

theorem pay_apply (x0 : Vec Ideal S512x256 .f32) (x1 : Vec Ideal S256x15 .f32) (x2 : Vec Ideal S1x15 .f32) (p : Fin 512) (k : Fin 15) :
    k5_pay1 (F := Ideal) x0 x1 x2 (ix2 p k) = (∑ ch : Fin 256, x0 (ix2 p ch) * x1 (ix2 ch k)) + x2 (ix2 0 k) := by
  unfold k5_pay1
  rw [shapeCast_self, shapeCast_self, shapeCast_self]
  exact affine_apply x0 x1 x2 _ p k

section Region
variable (V : (c : Dev nD) → (b : Ref sig .tc) → Buf (Elt Ideal) ((c : Thread nD τ).loc b))

abbrev farr (c : Dev nD) : Vec Ideal S65536x256 .f32 := V c (Pipeline.arrRef spec5 0)

abbrev warr (c : Dev nD) : Vec Ideal S256x15 .f32 := V c (Pipeline.arrRef spec5 2)

abbrev barr (c : Dev nD) : Vec Ideal S1x15 .f32 := V c (Pipeline.arrRef spec5 3)

abbrev headArr (c : Dev nD) : Vec Ideal S65536x15 .f32 := fun j =>
  R.head (farr V c) (warr V c) (barr V c) (j 0) (j 1)

theorem idx_facts : ∀ t : Fin cfg5.N, win5_0.index t (0 : Fin 2) = t.val ∧ win5_0.index t (1 : Fin 2) = 0
    ∧ win5_6.index t (0 : Fin 2) = t.val ∧ win5_6.index t (1 : Fin 2) = 0 :=
  (by decide +kernel : ∀ t : Fin grid5.N, _)

theorem fblk_apply (c : Dev nD) (t : Fin cfg5.N) (p : Fin 512) (ch : Fin 256) (r : Fin 65536) (hr : r.val = 512 * t.val + p.val) :
    (iblk5 V c 0 t : Vec Ideal S512x256 .f32) (ix2 p ch) = farr V c (ix2 r ch) := by
  obtain ⟨e0, e1, -⟩ := idx_facts t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 512 + 1 * p.val = r.val; rw [e0, hr]; omega
  | ⟨1, _⟩ => show win5_0.index t (1 : Fin 2) * 256 + 1 * ch.val = ch.val; rw [e1]; omega

theorem wblk_apply (c : Dev nD) (t : Fin cfg5.N) (ch : Fin 256) (k : Fin 15) :
    (iblk5 V c 2 t : Vec Ideal S256x15 .f32) (ix2 ch k) = warr V c (ix2 ch k) := by
  show warr V c (((cfg5.win 2).blk t).view.emb (ix2 ch k)) = _
  exact congrArg (warr V c) (funext fun a => Fin.ext (win5_2.rect_emb_val_of_index_zero t a
    ((by decide +kernel : ∀ t : Fin grid5.N, ∀ a, win5_2.index t a = 0) t a) _))

theorem bblk_apply (c : Dev nD) (t : Fin cfg5.N) (k : Fin 15) :
    (iblk5 V c 3 t : Vec Ideal S1x15 .f32) (ix2 0 k) = barr V c (ix2 0 k) := by
  show barr V c (((cfg5.win 3).blk t).view.emb (ix2 0 k)) = _
  exact congrArg (barr V c) (funext fun a => Fin.ext (win5_3.rect_emb_val_of_index_zero t a
    ((by decide +kernel : ∀ t : Fin grid5.N, ∀ a, win5_3.index t a = 0) t a) _))

theorem blk_point (c : Dev nD) (t : Fin cfg5.N) (y : S512x15.Idx) (i : S65536x15.Idx)
    (h0 : (i 0).val = 512 * t.val + (y 0).val) (h1 : (i 1).val = (y 1).val) :
    k5_pay1 (F := Ideal) (iblk5 V c 0 t) (iblk5 V c 2 t) (iblk5 V c 3 t) y = headArr V c i := by
  obtain ⟨p, k, rfl⟩ : ∃ (p : Fin 512) (k : Fin 15), y = ix2 p k := ⟨y 0, y 1, eq_ix2 y⟩
  rw [pay_apply]
  have hk : i 1 = k := Fin.ext h1
  show _ = R.head (farr V c) (warr V c) (barr V c) (i 0) (i 1)
  unfold R.head
  rw [bblk_apply, hk]
  refine congrArg (· + barr V c (ix2 0 k)) ?_
  refine Finset.sum_congr rfl fun ch _ => ?_
  rw [fblk_apply V c t p ch (i 0) h0, wblk_apply]

theorem flushed_eq (c : Dev nD) (t : Fin cfg5.N) :
    (dat5 (F := Ideal) V c).flushed 6 t = ((cfg5.win 6).blk t).view.read (Elt Ideal) (headArr V c) := by
  show (cfg5.win 6).cut (grid5.coords t) ((dat5 (F := Ideal) V c).after 6 t) = _
  rw [after5_6]
  unfold out5_6
  rw [View.canon_unit_zero hz]
  simp only [View.ld_unit_zero (S := S512x256) hz, View.ld_unit_zero (S := S256x15) hz, View.ld_unit_zero (S := S1x15) hz]
  obtain ⟨-, -, e0, e1⟩ := idx_facts t
  funext y
  refine blk_point V c t y _ ?_ ?_
  · show win5_6.index t (0 : Fin 2) * 512 + 1 * (y 0).val = 512 * t.val + (y 0).val; rw [e0]; omega
  · show win5_6.index t (1 : Fin 2) * 15 + 1 * (y 1).val = (y 1).val; rw [e1]; omega

theorem value (c : Dev nD) : (dat5 (F := Ideal) V c).arrAt 6 cfg5.N = headArr V c :=
  (dat5 (F := Ideal) V c).arrAt_eq_of_cover 6 (headArr V c) (fun t _ => flushed_eq V c t) fun i => by
    have hi0 : (i 0).val < 65536 := (i 0).isLt
    have hi1 : (i 1).val < 15 := (i 1).isLt
    have hN : cfg5.N = 128 := N_5
    let t : Fin cfg5.N := ⟨(i 0).val / 512, by rw [hN]; omega⟩
    obtain ⟨-, -, e0, e1⟩ := idx_facts t
    refine ⟨t, flush5_6 t, ?_⟩
    show i ∈ ((View.whole main_v88_0).slice (win5_6.rect t)).set
    rw [View.set_slice_whole, Rect.mem_set_unit]
    intro a
    match a with
    | ⟨0, _⟩ => show win5_6.index t (0 : Fin 2) * 512 ≤ (i 0).val ∧ (i 0).val < win5_6.index t (0 : Fin 2) * 512 + 512; rw [e0]; show (i 0).val / 512 * 512 ≤ (i 0).val ∧ (i 0).val < (i 0).val / 512 * 512 + 512; omega
    | ⟨1, _⟩ => show win5_6.index t (1 : Fin 2) * 15 ≤ (i 1).val ∧ (i 1).val < win5_6.index t (1 : Fin 2) * 15 + 15; rw [e1]; omega

end Region

end Ro

namespace Cl

theorem pay_apply (x0 : Vec Ideal S512x256 .f32) (x1 : Vec Ideal S256x240 .f32) (x2 : Vec Ideal S1x240 .f32) (p : Fin 512) (k : Fin 240) :
    k5_pay2 (F := Ideal) x0 x1 x2 (ix2 p k) = (∑ ch : Fin 256, x0 (ix2 p ch) * x1 (ix2 ch k)) + x2 (ix2 0 k) := by
  unfold k5_pay2
  rw [shapeCast_self, shapeCast_self, shapeCast_self]
  exact affine_apply x0 x1 x2 _ p k

section Region
variable (V : (c : Dev nD) → (b : Ref sig .tc) → Buf (Elt Ideal) ((c : Thread nD τ).loc b))

abbrev farr (c : Dev nD) : Vec Ideal S65536x256 .f32 := V c (Pipeline.arrRef spec5 1)

abbrev warr (c : Dev nD) : Vec Ideal S256x240 .f32 := V c (Pipeline.arrRef spec5 4)

abbrev barr (c : Dev nD) : Vec Ideal S1x240 .f32 := V c (Pipeline.arrRef spec5 5)

abbrev headArr (c : Dev nD) : Vec Ideal S65536x240 .f32 := fun j =>
  R.head (farr V c) (warr V c) (barr V c) (j 0) (j 1)

theorem idx_facts : ∀ t : Fin cfg5.N, win5_1.index t (0 : Fin 2) = t.val ∧ win5_1.index t (1 : Fin 2) = 0
    ∧ win5_7.index t (0 : Fin 2) = t.val ∧ win5_7.index t (1 : Fin 2) = 0 :=
  (by decide +kernel : ∀ t : Fin grid5.N, _)

theorem fblk_apply (c : Dev nD) (t : Fin cfg5.N) (p : Fin 512) (ch : Fin 256) (r : Fin 65536) (hr : r.val = 512 * t.val + p.val) :
    (iblk5 V c 1 t : Vec Ideal S512x256 .f32) (ix2 p ch) = farr V c (ix2 r ch) := by
  obtain ⟨e0, e1, -⟩ := idx_facts t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 512 + 1 * p.val = r.val; rw [e0, hr]; omega
  | ⟨1, _⟩ => show win5_1.index t (1 : Fin 2) * 256 + 1 * ch.val = ch.val; rw [e1]; omega

theorem wblk_apply (c : Dev nD) (t : Fin cfg5.N) (ch : Fin 256) (k : Fin 240) :
    (iblk5 V c 4 t : Vec Ideal S256x240 .f32) (ix2 ch k) = warr V c (ix2 ch k) := by
  show warr V c (((cfg5.win 4).blk t).view.emb (ix2 ch k)) = _
  exact congrArg (warr V c) (funext fun a => Fin.ext (win5_4.rect_emb_val_of_index_zero t a
    ((by decide +kernel : ∀ t : Fin grid5.N, ∀ a, win5_4.index t a = 0) t a) _))

theorem bblk_apply (c : Dev nD) (t : Fin cfg5.N) (k : Fin 240) :
    (iblk5 V c 5 t : Vec Ideal S1x240 .f32) (ix2 0 k) = barr V c (ix2 0 k) := by
  show barr V c (((cfg5.win 5).blk t).view.emb (ix2 0 k)) = _
  exact congrArg (barr V c) (funext fun a => Fin.ext (win5_5.rect_emb_val_of_index_zero t a
    ((by decide +kernel : ∀ t : Fin grid5.N, ∀ a, win5_5.index t a = 0) t a) _))

theorem blk_point (c : Dev nD) (t : Fin cfg5.N) (y : S512x240.Idx) (i : S65536x240.Idx)
    (h0 : (i 0).val = 512 * t.val + (y 0).val) (h1 : (i 1).val = (y 1).val) :
    k5_pay2 (F := Ideal) (iblk5 V c 1 t) (iblk5 V c 4 t) (iblk5 V c 5 t) y = headArr V c i := by
  obtain ⟨p, k, rfl⟩ : ∃ (p : Fin 512) (k : Fin 240), y = ix2 p k := ⟨y 0, y 1, eq_ix2 y⟩
  rw [pay_apply]
  have hk : i 1 = k := Fin.ext h1
  show _ = R.head (farr V c) (warr V c) (barr V c) (i 0) (i 1)
  unfold R.head
  rw [bblk_apply, hk]
  refine congrArg (· + barr V c (ix2 0 k)) ?_
  refine Finset.sum_congr rfl fun ch _ => ?_
  rw [fblk_apply V c t p ch (i 0) h0, wblk_apply]

theorem flushed_eq (c : Dev nD) (t : Fin cfg5.N) :
    (dat5 (F := Ideal) V c).flushed 7 t = ((cfg5.win 7).blk t).view.read (Elt Ideal) (headArr V c) := by
  show (cfg5.win 7).cut (grid5.coords t) ((dat5 (F := Ideal) V c).after 7 t) = _
  rw [after5_7]
  unfold out5_7
  rw [View.canon_unit_zero hz]
  simp only [View.ld_unit_zero (S := S512x256) hz, View.ld_unit_zero (S := S256x240) hz, View.ld_unit_zero (S := S1x240) hz]
  obtain ⟨-, -, e0, e1⟩ := idx_facts t
  funext y
  refine blk_point V c t y _ ?_ ?_
  · show win5_7.index t (0 : Fin 2) * 512 + 1 * (y 0).val = 512 * t.val + (y 0).val; rw [e0]; omega
  · show win5_7.index t (1 : Fin 2) * 240 + 1 * (y 1).val = (y 1).val; rw [e1]; omega

theorem value (c : Dev nD) : (dat5 (F := Ideal) V c).arrAt 7 cfg5.N = headArr V c :=
  (dat5 (F := Ideal) V c).arrAt_eq_of_cover 7 (headArr V c) (fun t _ => flushed_eq V c t) fun i => by
    have hi0 : (i 0).val < 65536 := (i 0).isLt
    have hi1 : (i 1).val < 240 := (i 1).isLt
    have hN : cfg5.N = 128 := N_5
    let t : Fin cfg5.N := ⟨(i 0).val / 512, by rw [hN]; omega⟩
    obtain ⟨-, -, e0, e1⟩ := idx_facts t
    refine ⟨t, flush5_7 t, ?_⟩
    show i ∈ ((View.whole main_v88_1).slice (win5_7.rect t)).set
    rw [View.set_slice_whole, Rect.mem_set_unit]
    intro a
    match a with
    | ⟨0, _⟩ => show win5_7.index t (0 : Fin 2) * 512 ≤ (i 0).val ∧ (i 0).val < win5_7.index t (0 : Fin 2) * 512 + 512; rw [e0]; show (i 0).val / 512 * 512 ≤ (i 0).val ∧ (i 0).val < (i 0).val / 512 * 512 + 512; omega
    | ⟨1, _⟩ => show win5_7.index t (1 : Fin 2) * 240 ≤ (i 1).val ∧ (i 1).val < win5_7.index t (1 : Fin 2) * 240 + 240; rw [e1]; omega

end Region

end Cl

end Cert.ReferenceIdeal.Heads

end
-- ==== Proof.RIChainC.lean ====
import proofs.«145920_g2000606511304043_pallasbulk_952_2_alg».proof.Proof.RIEntry
import proofs.«145920_g2000606511304043_pallasbulk_952_2_alg».proof.Proof.RIHeads
import proofs.«145920_g2000606511304043_pallasbulk_952_2_alg».proof.Proof.RIChainB
import proofs.«145920_g2000606511304043_pallasbulk_952_2_alg».proof.Proof.Spec

set_option maxRecDepth 16384

noncomputable section

namespace Cert.ReferenceIdeal.Run

open Cert.ReferenceIdeal Cert.ReferenceIdeal.Gen Cert.HeadSpec
open Idealize.ShloMosaic Idealize.ShloMosaic.TcCoe Idealize.ShloMosaic.ValueIdx

section Result

variable (m : (ℓ : Loc nD τ sig) → Buf (Elt Ideal) ℓ) (ρ : Dev nD → PrngReg) (c : Dev nD)

theorem hres (n : Fin 16) (k : Fin 255) (i j : Fin 64) :
    (W17 m ρ c (Proc.devRef .tc main_v91) : Arr ⟨4, ![16, 255, 64, 64]⟩) (ix4 n k i j)
      = if h : k.val < 15 then
          R.head (V15 m ρ c (Pipeline.arrRef spec5 0)) (wtsOf m c).wro (wtsOf m c).bro (R.prow n i j) ⟨k.val, h⟩
        else
          R.head (V15 m ρ c (Pipeline.arrRef spec5 1)) (wtsOf m c).wcl (wtsOf m c).bcl (R.prow n i j)
            ⟨k.val - 15, by omega⟩ := by
  rw [← reg5_wro_eq m ρ c, ← reg5_bro_eq m ρ c, ← reg5_wcl_eq m ρ c, ← reg5_bcl_eq m ρ c]
  exact hres_B m ρ c (Heads.Ro.value (V15 m ρ) c) (Heads.Cl.value (V15 m ρ) c) n k i j

end Result

end Cert.ReferenceIdeal.Run

end
-- ==== Proof.RIChain.lean ====
import proofs.«145920_g2000606511304043_pallasbulk_952_2_alg».proof.Proof.Gen.ReferenceIdeal.Frame
import proofs.«145920_g2000606511304043_pallasbulk_952_2_alg».proof.Proof.Spec
import proofs.«145920_g2000606511304043_pallasbulk_952_2_alg».proof.Proof.SpecR
import proofs.«145920_g2000606511304043_pallasbulk_952_2_alg».proof.Proof.HostW
import proofs.«145920_g2000606511304043_pallasbulk_952_2_alg».proof.Proof.RILayout
import proofs.«145920_g2000606511304043_pallasbulk_952_2_alg».proof.Proof.RIPoint
import proofs.«145920_g2000606511304043_pallasbulk_952_2_alg».proof.Proof.RIConv1
import proofs.«145920_g2000606511304043_pallasbulk_952_2_alg».proof.Proof.RIConv3
import proofs.«145920_g2000606511304043_pallasbulk_952_2_alg».proof.Proof.RIEntry
import proofs.«145920_g2000606511304043_pallasbulk_952_2_alg».proof.Proof.RIConv2
import proofs.«145920_g2000606511304043_pallasbulk_952_2_alg».proof.Proof.RIConv4
import proofs.«145920_g2000606511304043_pallasbulk_952_2_alg».proof.Proof.RIChainB
import proofs.«145920_g2000606511304043_pallasbulk_952_2_alg».proof.Proof.RIChainC
import Idealize.ShloMosaic.Lib.KernelVsHost
import Idealize.ShloMosaic.Lib.Pipeline.Value
import Idealize.ShloMosaic.Lib.ValueIdx

set_option maxRecDepth 16384

noncomputable section

namespace Cert.ReferenceIdeal.Run

open Cert Cert.ReferenceIdeal Cert.ReferenceIdeal.Gen Cert.HeadSpec
open Idealize.ShloMosaic Idealize.ShloMosaic.TcCoe Idealize.ShloMosaic.ValueIdx

section Stretches
variable (X : Valuation τ sig (Elt Ideal))

theorem ops0_v1 :
    (StableHlo.after hostOps0 X (Proc.devRef .tc main_v1) : S65536x128.Idx → EReal)
      = shapeCast S65536x128 (transpose S16x64x64x128 [0, 2, 3, 1]
          (X (Proc.devRef .tc main_arg0) : S16x128x64x64.Idx → EReal)
          transposes_S16x128x64x64_S16x64x64x128_0_2_3_1) shapeCasts_S16x64x64x128_S65536x128 := by
  dsimp only [hostOps0]
  after_results
  rfl

theorem ops1_v15 :
    (StableHlo.after hostOps1 X (Proc.devRef .tc main_v15) : S16x64x64x256.Idx → EReal)
      = shapeCast S16x64x64x256 (X (Proc.devRef .tc main_v14) : S65536x256.Idx → EReal)
          shapeCasts_S65536x256_S16x64x64x256 := by
  dsimp only [hostOps1]
  after_results
  rfl

theorem ops1_c :
    (StableHlo.after hostOps1 X (Proc.devRef .tc main_c) : IVec S_ 32) = constantI S_ 32 0#32 := by
  dsimp only [hostOps1]
  after_results

theorem ops1_1_v37 :
    (StableHlo.after hostOps1_1 X (Proc.devRef .tc main_v37) : S16x66x66x256.Idx → EReal)
      = pad S16x66x66x256 ![0, 1, 1, 0] ![0, 1, 1, 0] ![0, 0, 0, 0]
          (X (Proc.devRef .tc main_v15) : S16x64x64x256.Idx → EReal)
          (sitofp (F := Ideal) .f32 (X (Proc.devRef .tc main_c) : IVec S_ 32))
          pads_S16x64x64x256_S16x66x66x256_000_110_110_000 h_S_ := by
  dsimp only [hostOps1_1]
  after_results
  rfl

theorem ops2_v39 :
    (StableHlo.after hostOps2 X (Proc.devRef .tc main_v39) : S16x64x64x256.Idx → EReal)
      = shapeCast S16x64x64x256 (X (Proc.devRef .tc main_v38) : S16x4096x256.Idx → EReal)
          shapeCasts_S16x4096x256_S16x64x64x256 := by
  dsimp only [hostOps2]
  after_results
  rfl

theorem ops2_c :
    (StableHlo.after hostOps2 X (Proc.devRef .tc main_c_2) : IVec S_ 32) = constantI S_ 32 0#32 := by
  dsimp only [hostOps2]
  after_results

theorem ops2_1_v43 :
    (StableHlo.after hostOps2_1 X (Proc.devRef .tc main_v43) : S16x66x66x256.Idx → EReal)
      = pad S16x66x66x256 ![0, 1, 1, 0] ![0, 1, 1, 0] ![0, 0, 0, 0]
          (X (Proc.devRef .tc main_v39) : S16x64x64x256.Idx → EReal)
          (sitofp (F := Ideal) .f32 (X (Proc.devRef .tc main_c_2) : IVec S_ 32))
          pads_S16x64x64x256_S16x66x66x256_000_110_110_000 h_S_ := by
  dsimp only [hostOps2_1]
  after_results
  rfl

theorem ops3_c :
    (StableHlo.after hostOps3 X (Proc.devRef .tc main_c_5) : IVec S_ 32) = constantI S_ 32 0#32 := by
  dsimp only [hostOps3]
  after_results

theorem ops3_1_v67 :
    (StableHlo.after hostOps3_1 X (Proc.devRef .tc main_v67) : S16x66x66x256.Idx → EReal)
      = pad S16x66x66x256 ![0, 1, 1, 0] ![0, 1, 1, 0] ![0, 0, 0, 0]
          (X (Proc.devRef .tc main_v15) : S16x64x64x256.Idx → EReal)
          (sitofp (F := Ideal) .f32 (X (Proc.devRef .tc main_c_5) : IVec S_ 32))
          pads_S16x64x64x256_S16x66x66x256_000_110_110_000 h_S_ := by
  dsimp only [hostOps3_1]
  after_results
  rfl

theorem ops4_v69 :
    (StableHlo.after hostOps4 X (Proc.devRef .tc main_v69) : S16x64x64x256.Idx → EReal)
      = shapeCast S16x64x64x256 (X (Proc.devRef .tc main_v68) : S16x4096x256.Idx → EReal)
          shapeCasts_S16x4096x256_S16x64x64x256 := by
  dsimp only [hostOps4]
  after_results
  rfl

theorem ops4_c :
    (StableHlo.after hostOps4 X (Proc.devRef .tc main_c_6) : IVec S_ 32) = constantI S_ 32 0#32 := by
  dsimp only [hostOps4]
  after_results

theorem ops4_1_v73 :
    (StableHlo.after hostOps4_1 X (Proc.devRef .tc main_v73) : S16x66x66x256.Idx → EReal)
      = pad S16x66x66x256 ![0, 1, 1, 0] ![0, 1, 1, 0] ![0, 0, 0, 0]
          (X (Proc.devRef .tc main_v69) : S16x64x64x256.Idx → EReal)
          (sitofp (F := Ideal) .f32 (X (Proc.devRef .tc main_c_6) : IVec S_ 32))
          pads_S16x64x64x256_S16x66x66x256_000_110_110_000 h_S_ := by
  dsimp only [hostOps4_1]
  after_results
  rfl

end Stretches

section Buffers
variable (m : (ℓ : Loc nD τ sig) → Buf (Elt Ideal) ℓ) (ρ : Dev nD → PrngReg) (c : Dev nD)

abbrev xin : Arr ⟨4, ![16, 128, 64, 64]⟩ := m ((c : Thread nD τ).loc main_arg0)

abbrev zpad : S_.Idx → EReal := sitofp (F := Ideal) .f32 (constantI S_ 32 0#32)

theorem x2d_eq :
    (V1 m ρ c (Pipeline.arrRef spec0 0) : S65536x128.Idx → EReal)
      = shapeCast S65536x128 (transpose S16x64x64x128 [0, 2, 3, 1] (xin m c)
          transposes_S16x128x64x64_S16x64x64x128_0_2_3_1) shapeCasts_S16x64x64x128_S65536x128 :=
  ops0_v1 (W0 m ρ c)

theorem v15_W3 :
    (W3 m ρ c (Proc.devRef .tc main_v15) : S16x64x64x256.Idx → EReal)
      = shapeCast S16x64x64x256 (Point.pointArr (V1 m ρ) c) shapeCasts_S65536x256_S16x64x64x256 :=
  (ops1_v15 (W2 m ρ c)).trans (congrArg (fun f => shapeCast S16x64x64x256 f shapeCasts_S65536x256_S16x64x64x256)
    ((W2_arr m ρ c 3).trans (Point.point_value (V1 m ρ) c)))

theorem v15_W9 : W9 m ρ c (Proc.devRef .tc main_v15) = W3 m ρ c (Proc.devRef .tc main_v15) :=
  calc W9 m ρ c (Proc.devRef .tc main_v15)
    _ = W8 m ρ c (Proc.devRef .tc main_v15) := keep3 _ main_v15 (by decide)
    _ = W7 m ρ c (Proc.devRef .tc main_v15) := W8_of_ne m ρ c main_v15 (by decide)
    _ = W6 m ρ c (Proc.devRef .tc main_v15) := keep2_1 _ main_v15 (by decide)
    _ = W5 m ρ c (Proc.devRef .tc main_v15) := keep2 _ main_v15 (by decide)
    _ = W4 m ρ c (Proc.devRef .tc main_v15) := W5_of_ne m ρ c main_v15 (by decide)
    _ = W3 m ρ c (Proc.devRef .tc main_v15) := keep1_1 _ main_v15 (by decide)

theorem featP_eq :
    (V4 m ρ c (Pipeline.arrRef spec1 0) : S16x66x66x256.Idx → EReal)
      = pad S16x66x66x256 ![0, 1, 1, 0] ![0, 1, 1, 0] ![0, 0, 0, 0]
          (shapeCast S16x64x64x256 (Point.pointArr (V1 m ρ) c) shapeCasts_S65536x256_S16x64x64x256)
          zpad pads_S16x64x64x256_S16x66x66x256_000_110_110_000 h_S_ := by
  refine (ops1_1_v37 (W3 m ρ c)).trans ?_
  rw [v15_W3 m ρ c, show (W3 m ρ c (Proc.devRef .tc main_c) : IVec S_ 32) = constantI S_ 32 0#32 from ops1_c (W2 m ρ c)]

theorem featP'_eq :
    (V10 m ρ c (Pipeline.arrRef spec3 0) : S16x66x66x256.Idx → EReal) = V4 m ρ c (Pipeline.arrRef spec1 0) := by
  refine ((ops3_1_v67 (W9 m ρ c)).trans ?_).trans (featP_eq m ρ c).symm
  rw [v15_W9 m ρ c, v15_W3 m ρ c,
    show (W9 m ρ c (Proc.devRef .tc main_c_5) : IVec S_ 32) = constantI S_ 32 0#32 from ops3_c (W8 m ρ c)]

theorem c1P_eq :
    (V7 m ρ c (Pipeline.arrRef spec2 0) : S16x66x66x256.Idx → EReal)
      = pad S16x66x66x256 ![0, 1, 1, 0] ![0, 1, 1, 0] ![0, 0, 0, 0]
          (shapeCast S16x64x64x256 (fun j : S16x4096x256.Idx =>
              R.conv (V4 m ρ c (Pipeline.arrRef spec1 0)) (V4 m ρ c (Pipeline.arrRef spec1 1))
                (V4 m ρ c (Pipeline.arrRef spec1 2)) (j 0) (j 1) (j 2))
            shapeCasts_S16x4096x256_S16x64x64x256)
          zpad pads_S16x64x64x256_S16x66x66x256_000_110_110_000 h_S_ := by
  refine (ops2_1_v43 (W6 m ρ c)).trans ?_
  rw [show (W6 m ρ c (Proc.devRef .tc main_c_2) : IVec S_ 32) = constantI S_ 32 0#32 from ops2_c (W5 m ρ c),
    show (W6 m ρ c (Proc.devRef .tc main_v39) : S16x64x64x256.Idx → EReal) = _ from
      (ops2_v39 (W5 m ρ c)).trans (congrArg (fun f => shapeCast S16x64x64x256 f shapeCasts_S16x4096x256_S16x64x64x256)
        ((W5_arr m ρ c 3).trans (RIConv1.conv1_value (V4 m ρ) c)))]
  rfl

theorem r1P_eq :
    (V13 m ρ c (Pipeline.arrRef spec4 0) : S16x66x66x256.Idx → EReal)
      = pad S16x66x66x256 ![0, 1, 1, 0] ![0, 1, 1, 0] ![0, 0, 0, 0]
          (shapeCast S16x64x64x256 (fun j : S16x4096x256.Idx =>
              R.conv (V10 m ρ c (Pipeline.arrRef spec3 0)) (V10 m ρ c (Pipeline.arrRef spec3 1))
                (V10 m ρ c (Pipeline.arrRef spec3 2)) (j 0) (j 1) (j 2))
            shapeCasts_S16x4096x256_S16x64x64x256)
          zpad pads_S16x64x64x256_S16x66x66x256_000_110_110_000 h_S_ := by
  refine (ops4_1_v73 (W12 m ρ c)).trans ?_
  rw [show (W12 m ρ c (Proc.devRef .tc main_c_6) : IVec S_ 32) = constantI S_ 32 0#32 from ops4_c (W11 m ρ c),
    show (W12 m ρ c (Proc.devRef .tc main_v69) : S16x64x64x256.Idx → EReal) = _ from
      (ops4_v69 (W11 m ρ c)).trans (congrArg (fun f => shapeCast S16x64x64x256 f shapeCasts_S16x4096x256_S16x64x64x256)
        ((W11_arr m ρ c 3).trans (RIConv3.conv3_value (V10 m ρ) c)))]
  rfl

end Buffers

section Chain
variable (m : (ℓ : Loc nD τ sig) → Buf (Elt Ideal) ℓ) (ρ : Dev nD → PrngReg) (c : Dev nD)

theorem hx (n : Fin 16) (i j : Fin 64) (ch : Fin 128) :
    (V1 m ρ c (Pipeline.arrRef spec0 0) : Arr ⟨2, ![65536, 128]⟩) (ix2 (R.prow n i j) ch) = xin m c (ix4 n ch i j) := by
  rw [x2d_eq m ρ c]
  exact x2d_apply (xin m c) _ _ n i j ch

theorem hfeat :
    R.IsPad (fun n p ch => R.pointwise (V1 m ρ c (Pipeline.arrRef spec0 0)) (wtsOf m c).wm (wtsOf m c).bm
        ⟨n.val * 4096 + p.val, by omega⟩ ch)
      (V4 m ρ c (Pipeline.arrRef spec1 0)) := by
  rw [featP_eq m ρ c, ← reg0_wm_eq m ρ c, ← reg0_bm_eq m ρ c]
  exact isPad_of_flat (Point.pointArr (V1 m ρ) c) zpad shapeCasts_S65536x256_S16x64x64x256
    pads_S16x64x64x256_S16x66x66x256_000_110_110_000 h_S_ (padv_zero h_S_)

theorem hc1 :
    R.IsPad (fun n p ch => R.conv (V4 m ρ c (Pipeline.arrRef spec1 0)) (wtsOf m c).w1c (wtsOf m c).b1c n p ch)
      (V7 m ρ c (Pipeline.arrRef spec2 0)) := by
  rw [c1P_eq m ρ c, ← reg1_w_eq m ρ c, ← reg1_b_eq m ρ c]
  exact isPad_of_rows (fun j : S16x4096x256.Idx =>
      R.conv (V4 m ρ c (Pipeline.arrRef spec1 0)) (V4 m ρ c (Pipeline.arrRef spec1 1))
        (V4 m ρ c (Pipeline.arrRef spec1 2)) (j 0) (j 1) (j 2)) zpad shapeCasts_S16x4096x256_S16x64x64x256
    pads_S16x64x64x256_S16x66x66x256_000_110_110_000 h_S_ (padv_zero h_S_)

theorem hr1 :
    R.IsPad (fun n p ch => R.conv (V4 m ρ c (Pipeline.arrRef spec1 0)) (wtsOf m c).w1r (wtsOf m c).b1r n p ch)
      (V13 m ρ c (Pipeline.arrRef spec4 0)) := by
  rw [r1P_eq m ρ c, ← reg3_w_eq m ρ c, ← reg3_b_eq m ρ c, ← featP'_eq m ρ c]
  exact isPad_of_rows (fun j : S16x4096x256.Idx =>
      R.conv (V10 m ρ c (Pipeline.arrRef spec3 0)) (V10 m ρ c (Pipeline.arrRef spec3 1))
        (V10 m ρ c (Pipeline.arrRef spec3 2)) (j 0) (j 1) (j 2)) zpad shapeCasts_S16x4096x256_S16x64x64x256
    pads_S16x64x64x256_S16x66x66x256_000_110_110_000 h_S_ (padv_zero h_S_)

theorem hcls (n : Fin 16) (p : Fin 4096) (ch : Fin 256) :
    (V15 m ρ c (Pipeline.arrRef spec5 1) : Arr ⟨2, ![65536, 256]⟩) (ix2 ⟨n.val * 4096 + p.val, by omega⟩ ch)
      = R.conv (V7 m ρ c (Pipeline.arrRef spec2 0)) (wtsOf m c).w2c (wtsOf m c).b2c n p ch := by
  rw [← reg2_w_eq m ρ c, ← reg2_b_eq m ρ c]
  exact hcls_B m ρ c (RIConv2.conv2_value (V7 m ρ) c) n p ch

theorem hreg (n : Fin 16) (p : Fin 4096) (ch : Fin 256) :
    (V15 m ρ c (Pipeline.arrRef spec5 0) : Arr ⟨2, ![65536, 256]⟩) (ix2 ⟨n.val * 4096 + p.val, by omega⟩ ch)
      = R.conv (V13 m ρ c (Pipeline.arrRef spec4 0)) (wtsOf m c).w2r (wtsOf m c).b2r n p ch := by
  rw [← reg4_w_eq m ρ c, ← reg4_b_eq m ρ c]
  exact hreg_B m ρ c (RIConv4.conv4_value (V13 m ρ) c) n p ch

def chain : R.Chain (xin m c) (wtsOf m c) where
  x2d := V1 m ρ c (Pipeline.arrRef spec0 0)
  featP := V4 m ρ c (Pipeline.arrRef spec1 0)
  c1P := V7 m ρ c (Pipeline.arrRef spec2 0)
  r1P := V13 m ρ c (Pipeline.arrRef spec4 0)
  cls2d := V15 m ρ c (Pipeline.arrRef spec5 1)
  reg2d := V15 m ρ c (Pipeline.arrRef spec5 0)
  res := W17 m ρ c (Proc.devRef .tc main_v91)
  hx := hx m ρ c
  hfeat := hfeat m ρ c
  hc1 := hc1 m ρ c
  hr1 := hr1 m ρ c
  hcls := hcls m ρ c
  hreg := hreg m ρ c
  hres := hres m ρ c

theorem result_eq :
    W17 m ρ c (Proc.devRef .tc main_v91) = headArr (xin m c) (wtsOf m c) :=
  R.res_eq (chain m ρ c)

end Chain

end Cert.ReferenceIdeal.Run

end
-- ==== Proof.lean ====
import proofs.«145920_g2000606511304043_pallasbulk_952_2_alg».proof.Defs
import proofs.«145920_g2000606511304043_pallasbulk_952_2_alg».proof.Proof.Gen.Kernel
import proofs.«145920_g2000606511304043_pallasbulk_952_2_alg».proof.Proof.Gen.KernelIdeal
import proofs.«145920_g2000606511304043_pallasbulk_952_2_alg».proof.Proof.Gen.ReferenceIdeal
import proofs.«145920_g2000606511304043_pallasbulk_952_2_alg».proof.Proof.Gen.ReferenceIdeal.Frame
import proofs.«145920_g2000606511304043_pallasbulk_952_2_alg».proof.Proof.Gen.Pre_finite_inputs
import proofs.«145920_g2000606511304043_pallasbulk_952_2_alg».proof.Proof.KLaunch
import proofs.«145920_g2000606511304043_pallasbulk_952_2_alg».proof.Proof.KIValue
import proofs.«145920_g2000606511304043_pallasbulk_952_2_alg».proof.Proof.RIChain
import Idealize.ShloMosaic.Adequacy
import Idealize.ShloMosaic.Init

noncomputable section

namespace Cert.Proof

open Idealize.ShloMosaic Idealize.SL.Sem

theorem frame_k : Cert.frame_Kernel := fun m ρ _ => Cert.Kernel.Fused.frame m ρ
theorem frame_ki : Cert.frame_KernelIdeal := fun m ρ _ => Cert.KernelIdeal.Fused.frame m ρ
theorem frame_ri : Cert.frame_ReferenceIdeal := fun m ρ _ => Cert.ReferenceIdeal.Gen.frame m ρ

open Cert.ReferenceIdeal.Gen in
/-- Each run ends with its result at the head of its own arguments and its arguments as launched; the arguments agree. -/
theorem algebraic : Cert.algebraic_KernelIdeal_ReferenceIdeal := by
  intro m ρ m' ρ' _ hagree
  refine ⟨fun c => Cert.HeadSpec.headArr (Cert.KernelIdeal.Fused.launchX m c) (Cert.KernelIdeal.Fused.launchW m c), ?_, ?_⟩
  · refine (θ_run (Cert.KernelIdeal.defs (F := Ideal)) _ _).mono (fun r h c => ?_) (Cert.KernelIdeal.Fused.run_all (F := Ideal) m ρ)
    refine ⟨(h c _ (Cert.KernelIdeal.Fused.mem_uc Cert.KernelIdeal.main_v103 (by decide))).trans
      (Cert.KernelIdeal.Fused.result_eq m ρ c), ?_⟩
    repeat' apply And.intro
    all_goals exact (h c _ (Cert.KernelIdeal.Fused.mem_uc _ (by decide))).trans (Cert.KernelIdeal.Fused.Wfin_of_arg m ρ c _ (by decide) (by decide))
  · refine (θ_run (Cert.ReferenceIdeal.defs (F := Ideal)) _ _).mono (fun r h c => ?_) (Cert.ReferenceIdeal.Run.run_all m' ρ')
    refine ⟨(h c _ (mem_uc Cert.ReferenceIdeal.main_v91 (by decide))).trans ?_, ?_⟩
    · rw [Cert.ReferenceIdeal.Run.result_eq m' ρ' c]
      unfold Cert.ReferenceIdeal.Run.wtsOf Cert.ReferenceIdeal.Run.xin
      simp only [hagree c]
    repeat' apply And.intro
    all_goals refine (h c _ (mem_uc _ (by decide))).trans ?_
    exacts [W17_main_arg0 m' ρ' c, W17_main_arg1 m' ρ' c, W17_main_arg2 m' ρ' c, W17_main_arg3 m' ρ' c, W17_main_arg4 m' ρ' c, W17_main_arg5 m' ρ' c, W17_main_arg6 m' ρ' c, W17_main_arg7 m' ρ' c, W17_main_arg8 m' ρ' c, W17_main_arg9 m' ρ' c, W17_main_arg10 m' ρ' c, W17_main_arg11 m' ρ' c, W17_main_arg12 m' ρ' c, W17_main_arg13 m' ρ' c, W17_main_arg14 m' ρ' c, W17_main_arg15 m' ρ' c, W17_main_arg16 m' ρ' c, W17_main_arg17 m' ρ' c, W17_main_arg18 m' ρ' c, W17_main_arg19 m' ρ' c, W17_main_arg20 m' ρ' c, W17_main_arg21 m' ρ' c, W17_main_arg22 m' ρ' c, W17_main_arg23 m' ρ' c, W17_main_arg24 m' ρ' c, W17_main_arg25 m' ρ' c, W17_main_arg26 m' ρ' c, W17_main_arg27 m' ρ' c, W17_main_arg28 m' ρ' c, W17_main_arg29 m' ρ' c, W17_main_arg30 m' ρ' c, W17_main_arg31 m' ρ' c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
